-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v154_0)) (v1 : (c : Dev Cert.KernelIdeal.nD) → Buf (Elt Ideal) ((c.tc : Thread Cert.KernelIdeal.nD Cert.KernelIdeal.τ).loc Cert.KernelIdeal.main_v151)) (v2 : (c : Dev Cert.KernelIdeal.nD) → Buf (Elt Ideal) ((c.tc : Thread Cert.KernelIdeal.nD Cert.KernelIdeal.τ).loc Cert.KernelIdeal.main_v157_0)) (v3 : (c : Dev Cert.KernelIdeal.nD) → Buf (Elt Ideal) ((c.tc : Thread Cert.KernelIdeal.nD Cert.KernelIdeal.τ).loc Cert.KernelIdeal.main_v154_1)) (v4 : (c : Dev Cert.KernelIdeal.nD) → Buf (Elt Ideal) ((c.tc : Thread Cert.KernelIdeal.nD Cert.KernelIdeal.τ).loc Cert.KernelIdeal.main_v157_1)) (v5 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154_0) = v0 c
          ∧ r.2.mem ((c.tc : Thread Cert.KernelIdeal.nD Cert.KernelIdeal.τ).loc Cert.KernelIdeal.main_v151) = v1 c
          ∧ r.2.mem ((c.tc : Thread Cert.KernelIdeal.nD Cert.KernelIdeal.τ).loc Cert.KernelIdeal.main_v157_0) = v2 c
          ∧ r.2.mem ((c.tc : Thread Cert.KernelIdeal.nD Cert.KernelIdeal.τ).loc Cert.KernelIdeal.main_v154_1) = v3 c
          ∧ r.2.mem ((c.tc : Thread Cert.KernelIdeal.nD Cert.KernelIdeal.τ).loc Cert.KernelIdeal.main_v157_1) = v4 c
          ∧ r.2.mem ((c.tc : Thread Cert.KernelIdeal.nD Cert.KernelIdeal.τ).loc Cert.KernelIdeal.main_v39) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v39) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x128 : Shape := ⟨2, ![25000, 128]⟩
abbrev S25000x3x128 : Shape := ⟨3, ![25000, 3, 128]⟩
abbrev S400000x128 : Shape := ⟨2, ![400000, 128]⟩
abbrev S25000x3 : Shape := ⟨2, ![25000, 3]⟩
abbrev S400000x50 : Shape := ⟨2, ![400000, 50]⟩
abbrev S2x400000 : Shape := ⟨2, ![2, 400000]⟩
abbrev S306x128 : Shape := ⟨2, ![306, 128]⟩
abbrev S128 : Shape := ⟨1, ![128]⟩
abbrev S128x256 : Shape := ⟨2, ![128, 256]⟩
abbrev S256 : Shape := ⟨1, ![256]⟩
abbrev S128x128 : Shape := ⟨2, ![128, 128]⟩
abbrev S_ : Shape := ⟨0, ![]⟩

class Facts : Prop where
  bcast_S_S25000x128 : S_.BroadcastsInDim S25000x128 (![] : Fin 0 → Fin S25000x128.rank)
  reducesTo_S25000x128_S_d0_1 : S25000x128.ReducesTo [0, 1] S_
  h_S_ : 0 < S_.numel
  bcast_S_S25000x3x128 : S_.BroadcastsInDim S25000x3x128 (![] : Fin 0 → Fin S25000x3x128.rank)
  reducesTo_S25000x3x128_S_d0_1_2 : S25000x3x128.ReducesTo [0, 1, 2] S_
  bcast_S_S400000x128 : S_.BroadcastsInDim S400000x128 (![] : Fin 0 → Fin S400000x128.rank)
  reducesTo_S400000x128_S_d0_1 : S400000x128.ReducesTo [0, 1] S_
  bcast_S_S25000x3 : S_.BroadcastsInDim S25000x3 (![] : Fin 0 → Fin S25000x3.rank)
  reducesTo_S25000x3_S_d0_1 : S25000x3.ReducesTo [0, 1] S_
  bcast_S_S400000x50 : S_.BroadcastsInDim S400000x50 (![] : Fin 0 → Fin S400000x50.rank)
  reducesTo_S400000x50_S_d0_1 : S400000x50.ReducesTo [0, 1] S_
  bcast_S_S306x128 : S_.BroadcastsInDim S306x128 (![] : Fin 0 → Fin S306x128.rank)
  reducesTo_S306x128_S_d0_1 : S306x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg15 : FVec F S128 .f32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128x128 .f32) (main_arg15 : FVec F S128 .f32) (main_arg16 : FVec F S128x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128x256 .f32) (main_arg9 : FVec F S256 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg4 : FVec F S400000x50 .f32) (main_arg6 : FVec F S306x128 .f32) (main_arg7 : FVec F S128 .f32) (main_arg8 : FVec F S128x256 .f32) (main_arg9 : FVec F S256 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v13 : IVec S_ 1) (main_v16 : IVec S25000x3 1) : IVec S_ 1 :=
  let main_c_5 : IVec S_ 1 := constantI S_ 1 1#1
  let main_v17 : IVec S_ 1 := (fun x v => Host.reduce IntOp.andi x v reducesTo_S25000x3_S_d0_1 h_S_) main_v16 main_c_5
  let main_v18 : IVec S_ 1 := andi main_v13 main_v17
  let main_v19 : FVec F S400000x50 .f32 := Host.absf main_arg4
  let main_cst_6 : FVec F S_ .f32 := constant S_ .f32 0x7F800000#32
  let main_v20 : FVec F S400000x50 .f32 := broadcastInDim S400000x50 ![] bcast_S_S400000x50 main_cst_6
  let main_v21 : IVec S400000x50 1 := cmpf .olt main_v19 main_v20
  let main_c_7 : IVec S_ 1 := constantI S_ 1 1#1
  let main_v22 : IVec S_ 1 := (fun x v => Host.reduce IntOp.andi x v reducesTo_S400000x50_S_d0_1 h_S_) main_v21 main_c_7
  let main_v23 : IVec S_ 1 := andi main_v18 main_v22
  let main_v24 : FVec F S306x128 .f32 := Host.absf main_arg6
  let main_cst_8 : FVec F S_ .f32 := constant S_ .f32 0x7F800000#32
  let main_v25 : FVec F S306x128 .f32 := broadcastInDim S306x128 ![] bcast_S_S306x128 main_cst_8
  let main_v26 : IVec S306x128 1 := cmpf .olt main_v24 main_v25
  let main_c_9 : IVec S_ 1 := constantI S_ 1 1#1
  let main_v27 : IVec S_ 1 := (fun x v => Host.reduce IntOp.andi x v reducesTo_S306x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S25000x128 .f32) (main_arg1 : FVec F S25000x3x128 .f32) (main_arg2 : FVec F S400000x128 .f32) (main_arg3 : FVec F S25000x3 .f32) (main_arg4 : FVec F S400000x50 .f32) (main_arg5 : IVec S2x400000 32) (main_arg6 : FVec F S306x128 .f32) (main_arg7 : FVec F S128 .f32) (main_arg8 : FVec F S128x256 .f32) (main_arg9 : FVec F S256 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) : IVec S_ 1 :=
  let main_v0 : FVec F S25000x128 .f32 := Host.absf main_arg0
  let main_cst : FVec F S_ .f32 := constant S_ .f32 0x7F800000#32
  let main_v1 : FVec F S25000x128 .f32 := broadcastInDim S25000x128 ![] bcast_S_S25000x128 main_cst
  let main_v2 : IVec S25000x128 1 := cmpf .olt main_v0 main_v1
  let main_c : IVec S_ 1 := constantI S_ 1 1#1
  let main_v3 : IVec S_ 1 := (fun x v => Host.reduce IntOp.andi x v reducesTo_S25000x128_S_d0_1 h_S_) main_v2 main_c
  let main_v4 : FVec F S25000x3x128 .f32 := Host.absf main_arg1
  let main_cst_0 : FVec F S_ .f32 := constant S_ .f32 0x7F800000#32
  let main_v5 : FVec F S25000x3x128 .f32 := broadcastInDim S25000x3x128 ![] bcast_S_S25000x3x128 main_cst_0
  let main_v6 : IVec S25000x3x128 1 := cmpf .olt main_v4 main_v5
  let main_c_1 : IVec S_ 1 := constantI S_ 1 1#1
  let main_v7 : IVec S_ 1 := (fun x v => Host.reduce IntOp.andi x v reducesTo_S25000x3x128_S_d0_1_2 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S25000x3 .f32 := Host.absf main_arg3
  let main_cst_4 : FVec F S_ .f32 := constant S_ .f32 0x7F800000#32
  let main_v15 : FVec F S25000x3 .f32 := broadcastInDim S25000x3 ![] bcast_S_S25000x3 main_cst_4
  let main_v16 : IVec S25000x3 1 := cmpf .olt main_v14 main_v15
  fn_part1 (F := F) main_arg4 main_arg6 main_arg7 main_arg8 main_arg9 main_arg10 main_arg11 main_arg12 main_arg13 main_arg14 main_arg15 main_arg16 main_arg17 main_v13 main_v16
-- ==== Kernel.lean ====
abbrev S25000x128 : Shape := ⟨2, ![25000, 128]⟩
abbrev S25000x3x128 : Shape := ⟨3, ![25000, 3, 128]⟩
abbrev S400000x128 : Shape := ⟨2, ![400000, 128]⟩
abbrev S25000x3 : Shape := ⟨2, ![25000, 3]⟩
abbrev S400000x50 : Shape := ⟨2, ![400000, 50]⟩
abbrev S2x400000 : Shape := ⟨2, ![2, 400000]⟩
abbrev S306x128 : Shape := ⟨2, ![306, 128]⟩
abbrev S128 : Shape := ⟨1, ![128]⟩
abbrev S128x256 : Shape := ⟨2, ![128, 256]⟩
abbrev S256 : Shape := ⟨1, ![256]⟩
abbrev S128x128 : Shape := ⟨2, ![128, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x3 : Shape := ⟨2, ![400000, 3]⟩
abbrev S25000 : Shape := ⟨1, ![25000]⟩
abbrev S25000x1 : Shape := ⟨2, ![25000, 1]⟩
abbrev S25000x1x128 : Shape := ⟨3, ![25000, 1, 128]⟩
abbrev S50x128 : Shape := ⟨2, ![50, 128]⟩
abbrev S1x128 : Shape := ⟨2, ![1, 128]⟩
abbrev S1x256 : Shape := ⟨2, ![1, 256]⟩
abbrev S2000x128 : Shape := ⟨2, ![2000, 128]⟩
abbrev S2000x50 : Shape := ⟨2, ![2000, 50]⟩
abbrev S2000x1 : Shape := ⟨2, ![2000, 1]⟩
abbrev S2000x256 : Shape := ⟨2, ![2000, 256]⟩
abbrev S5000x128 : Shape := ⟨2, ![5000, 128]⟩
abbrev S5000x1 : Shape := ⟨2, ![5000, 1]⟩
abbrev S4000x128 : Shape := ⟨2, ![4000, 128]⟩
abbrev S4000x1 : Shape := ⟨2, ![4000, 1]⟩

abbrev nBuf : Space → Nat
  | .hbm => 220
  | .vmem => 56
  | .smem => 0
  | _ => 0

abbrev hbmTy0_0 (i : Nat) : BufTy := match i % 128 with
  | 0 => ⟨S25000x128, .f32⟩
  | 1 => ⟨S25000x3x128, .f32⟩
  | 2 => ⟨S400000x128, .f32⟩
  | 3 => ⟨S25000x3, .f32⟩
  | 4 => ⟨S400000x50, .f32⟩
  | 5 => ⟨S2x400000, .i32⟩
  | 6 => ⟨S306x128, .f32⟩
  | 7 => ⟨S128, .f32⟩
  | 8 => ⟨S128x256, .f32⟩
  | 9 => ⟨S256, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S1x400000, .i32⟩
  | 19 => ⟨S400000, .i32⟩
  | 20 => ⟨S1x400000, .i32⟩
  | 21 => ⟨S400000, .i32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000x3, .f32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x3, .f32⟩
  | 40 => ⟨S400000x3, .f32⟩
  | 41 => ⟨S400000x3, .f32⟩
  | 42 => ⟨S_, .f32⟩
  | 43 => ⟨S400000, .f32⟩
  | 44 => ⟨S400000x1, .f32⟩
  | 45 => ⟨S400000x1, .f32⟩
  | 46 => ⟨S_, .f32⟩
  | 47 => ⟨S400000x1, .f32⟩
  | 48 => ⟨S400000x1, .f32⟩
  | 49 => ⟨S400000x3, .f32⟩
  | 50 => ⟨S400000x3, .f32⟩
  | 51 => ⟨S_, .f32⟩
  | 52 => ⟨S25000x3, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S25000x3, .f32⟩
  | 62 => ⟨S400000x3, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S25000x3, .f32⟩
  | 72 => ⟨S25000x3, .f32⟩
  | 73 => ⟨S_, .f32⟩
  | 74 => ⟨S25000, .f32⟩
  | 75 => ⟨S25000x1, .f32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x3, .f32⟩
  | 85 => ⟨S_, .i32⟩
  | 86 => ⟨S400000, .i32⟩
  | 87 => ⟨S400000, .i1⟩
  | 88 => ⟨S_, .i32⟩
  | 89 => ⟨S400000, .i32⟩
  | 90 => ⟨S400000, .i32⟩
  | 91 => ⟨S400000, .i32⟩
  | 92 => ⟨S400000x1, .i32⟩
  | 93 => ⟨S400000x3, .f32⟩
  | 94 => ⟨S400000x3, .f32⟩
  | 95 => ⟨S_, .f32⟩
  | 96 => ⟨S400000, .f32⟩
  | 97 => ⟨S400000x1, .f32⟩
  | 98 => ⟨S400000x3, .f32⟩
  | 99 => ⟨S_, .f32⟩
  | 100 => ⟨S400000, .f32⟩
  | 101 => ⟨S400000x1, .f32⟩
  | 102 => ⟨S400000x3, .f32⟩
  | 103 => ⟨S400000x3, .f32⟩
  | 104 => ⟨S400000x3, .f32⟩
  | 105 => ⟨S400000x3, .f32⟩
  | 106 => ⟨S400000x3, .f32⟩
  | 107 => ⟨S400000x3, .f32⟩
  | 108 => ⟨S400000x3, .f32⟩
  | 109 => ⟨S_, .f32⟩
  | 110 => ⟨S400000, .f32⟩
  | 111 => ⟨S400000x1, .f32⟩
  | 112 => ⟨S400000, .f32⟩
  | 113 => ⟨S_, .f32⟩
  | 114 => ⟨S400000, .f32⟩
  | 115 => ⟨S400000, .f32⟩
  | 116 => ⟨S_, .f32⟩
  | 117 => ⟨S400000, .f32⟩
  | 118 => ⟨S400000, .f32⟩
  | 119 => ⟨S400000, .f32⟩
  | 120 => ⟨S_, .f32⟩
  | 121 => ⟨S400000, .f32⟩
  | 122 => ⟨S400000, .f32⟩
  | 123 => ⟨S_, .f32⟩
  | 124 => ⟨S400000, .f32⟩
  | 125 => ⟨S400000, .f32⟩
  | 126 => ⟨S400000, .f32⟩
  | 127 => ⟨S_, .f32⟩
  | _ => ⟨S25000x128, .f32⟩

abbrev hbmTy0_1 (i : Nat) : BufTy := match i % 128 with
  | 0 => ⟨S400000, .f32⟩
  | 1 => ⟨S400000, .i1⟩
  | 2 => ⟨S400000, .f32⟩
  | 3 => ⟨S400000, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x128, .f32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S400000x128, .f32⟩
  | 22 => ⟨S25000x1x128, .f32⟩
  | 23 => ⟨S25000x128, .f32⟩
  | 24 => ⟨S25000x1x128, .f32⟩
  | 25 => ⟨S25000x128, .f32⟩
  | 26 => ⟨S25000x1x128, .f32⟩
  | 27 => ⟨S25000x128, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x128, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000x128, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000x128, .f32⟩
  | 55 => ⟨S128x128, .f32⟩
  | 56 => ⟨S128x128, .f32⟩
  | 57 => ⟨S50x128, .f32⟩
  | 58 => ⟨S400000x1, .f32⟩
  | 59 => ⟨S400000x1, .f32⟩
  | 60 => ⟨S400000x1, .f32⟩
  | 61 => ⟨S400000x1, .f32⟩
  | 62 => ⟨S1x128, .f32⟩
  | 63 => ⟨S1x256, .f32⟩
  | 64 => ⟨S400000x128, .f32⟩
  | 65 => ⟨S400000x128, .f32⟩
  | 66 => ⟨S400000x128, .f32⟩
  | 67 => ⟨S_, .f32⟩
  | 68 => ⟨S25000x128, .f32⟩
  | 69 => ⟨S400000x1, .i32⟩
  | 70 => ⟨S25000x128, .f32⟩
  | 71 => ⟨S_, .f32⟩
  | 72 => ⟨S25000x128, .f32⟩
  | 73 => ⟨S400000x1, .i32⟩
  | 74 => ⟨S25000x128, .f32⟩
  | 75 => ⟨S_, .f32⟩
  | 76 => ⟨S25000x128, .f32⟩
  | 77 => ⟨S400000x1, .i32⟩
  | 78 => ⟨S25000x128, .f32⟩
  | 79 => ⟨S25000x1x128, .f32⟩
  | 80 => ⟨S25000x1x128, .f32⟩
  | 81 => ⟨S25000x1x128, .f32⟩
  | 82 => ⟨S25000x3x128, .f32⟩
  | 83 => ⟨S25000x3x128, .f32⟩
  | 84 => ⟨S1x128, .f32⟩
  | 85 => ⟨S1x128, .f32⟩
  | 86 => ⟨S25000x128, .f32⟩
  | 87 => ⟨S25000x128, .f32⟩
  | 88 => ⟨S1x128, .f32⟩
  | 89 => ⟨S1x128, .f32⟩
  | 90 => ⟨S400000x128, .f32⟩
  | 91 => ⟨S400000x128, .f32⟩
  | _ => ⟨S25000x128, .f32⟩

abbrev hbmTy (i : Nat) : BufTy := match i / 128 with
  | 0 => hbmTy0_0 i
  | 1 => hbmTy0_1 i
  | _ => ⟨S25000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x50, .f32⟩
  | .local _ .vmem, ⟨5, _⟩ => ⟨S2000x50, .f32⟩
  | .local _ .vmem, ⟨6, _⟩ => ⟨S2000x1, .f32⟩
  | .local _ .vmem, ⟨7, _⟩ => ⟨S2000x1, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S128x128, .f32⟩
  | .local _ .vmem, ⟨21, _⟩ => ⟨S128x128, .f32⟩
  | .local _ .vmem, ⟨22, _⟩ => ⟨S50x128, .f32⟩
  | .local _ .vmem, ⟨23, _⟩ => ⟨S1x128, .f32⟩
  | .local _ .vmem, ⟨24, _⟩ => ⟨S128x256, .f32⟩
  | .local _ .vmem, ⟨25, _⟩ => ⟨S1x256, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S4000x128, .f32⟩
  | .local _ .vmem, ⟨45, _⟩ => ⟨S4000x128, .f32⟩
  | .local _ .vmem, ⟨46, _⟩ => ⟨S4000x1, .f32⟩
  | .local _ .vmem, ⟨47, _⟩ => ⟨S4000x1, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | .local _ .vmem, ⟨55, _⟩ => ⟨S4000x128, .f32⟩
  | _, _ => ⟨S25000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_call0_v2 : Ref sig .tc := ⟨.hbm, 44, rfl⟩
abbrev main_v19 : Ref sig .tc := ⟨.hbm, 45, rfl⟩
abbrev main_cst : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_6 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_c_9 : Ref sig .tc := ⟨.hbm, 76, rfl⟩
abbrev main_v43 : Ref sig .tc := ⟨.hbm, 77, rfl⟩
abbrev main_v44 : Ref sig .tc := ⟨.hbm, 78, rfl⟩
abbrev main_c_10 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_11 : Ref sig .tc := ⟨.hbm, 85, rfl⟩
abbrev main_v50 : Ref sig .tc := ⟨.hbm, 86, rfl⟩
abbrev main_v51 : Ref sig .tc := ⟨.hbm, 87, rfl⟩
abbrev main_c_12 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_13 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_14 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_16 : Ref sig .tc := ⟨.hbm, 113, rfl⟩
abbrev main_v73 : Ref sig .tc := ⟨.hbm, 114, rfl⟩
abbrev main_v74 : Ref sig .tc := ⟨.hbm, 115, rfl⟩
abbrev main_cst_17 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_18 : Ref sig .tc := ⟨.hbm, 120, rfl⟩
abbrev main_v78 : Ref sig .tc := ⟨.hbm, 121, rfl⟩
abbrev main_v79 : Ref sig .tc := ⟨.hbm, 122, rfl⟩
abbrev main_cst_19 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_20 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_21 : Ref sig .tc := ⟨.hbm, 132, rfl⟩
abbrev main_v87 : Ref sig .tc := ⟨.hbm, 133, rfl⟩
abbrev main_v88 : Ref sig .tc := ⟨.hbm, 134, rfl⟩
abbrev main_c_22 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_c_23 : Ref sig .tc := ⟨.hbm, 141, rfl⟩
abbrev main_v94 : Ref sig .tc := ⟨.hbm, 142, rfl⟩
abbrev main_v95 : Ref sig .tc := ⟨.hbm, 143, rfl⟩
abbrev main_c_24 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_c_25 : Ref sig .tc := ⟨.hbm, 156, rfl⟩
abbrev main_v107 : Ref sig .tc := ⟨.hbm, 157, rfl⟩
abbrev main_v108 : Ref sig .tc := ⟨.hbm, 158, rfl⟩
abbrev main_c_26 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_c_27 : Ref sig .tc := ⟨.hbm, 165, rfl⟩
abbrev main_v114 : Ref sig .tc := ⟨.hbm, 166, rfl⟩
abbrev main_v115 : Ref sig .tc := ⟨.hbm, 167, rfl⟩
abbrev main_c_28 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_c_29 : Ref sig .tc := ⟨.hbm, 174, rfl⟩
abbrev main_v121 : Ref sig .tc := ⟨.hbm, 175, rfl⟩
abbrev main_v122 : Ref sig .tc := ⟨.hbm, 176, rfl⟩
abbrev main_c_30 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137_0 : Ref sig .tc := ⟨.hbm, 192, rfl⟩
abbrev main_v137_1 : Ref sig .tc := ⟨.hbm, 193, rfl⟩
abbrev main_v137_2 : Ref sig .tc := ⟨.hbm, 194, rfl⟩
abbrev main_cst_31 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_cst_32 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_33 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154_0 : Ref sig .tc := ⟨.hbm, 214, rfl⟩
abbrev main_v154_1 : Ref sig .tc := ⟨.hbm, 215, rfl⟩
abbrev main_v155 : Ref sig .tc := ⟨.hbm, 216, rfl⟩
abbrev main_v156 : Ref sig .tc := ⟨.hbm, 217, rfl⟩
abbrev main_v157_0 : Ref sig .tc := ⟨.hbm, 218, rfl⟩
abbrev main_v157_1 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc1_stg0_0 : Ref sig .tc := ⟨.vmem, 32, rfl⟩
abbrev cc1_stg0_1 : Ref sig .tc := ⟨.vmem, 33, rfl⟩
abbrev cc1_stg1_0 : Ref sig .tc := ⟨.vmem, 34, rfl⟩
abbrev cc1_stg1_1 : Ref sig .tc := ⟨.vmem, 35, rfl⟩
abbrev cc1_stg2_0 : Ref sig .tc := ⟨.vmem, 36, rfl⟩
abbrev cc1_stg3_0 : Ref sig .tc := ⟨.vmem, 37, rfl⟩
abbrev cc1_stg4_0 : Ref sig .tc := ⟨.vmem, 38, rfl⟩
abbrev cc1_stg5_0 : Ref sig .tc := ⟨.vmem, 39, rfl⟩
abbrev cc1_stg6_0 : Ref sig .tc := ⟨.vmem, 40, rfl⟩
abbrev cc1_stg6_1 : Ref sig .tc := ⟨.vmem, 41, rfl⟩
abbrev cc1_stg7_0 : Ref sig .tc := ⟨.vmem, 42, rfl⟩
abbrev cc1_stg7_1 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg3_0 : Ref sig .tc := ⟨.vmem, 49, rfl⟩
abbrev cc2_stg4_0 : Ref sig .tc := ⟨.vmem, 50, rfl⟩
abbrev cc2_stg5_0 : Ref sig .tc := ⟨.vmem, 51, rfl⟩
abbrev cc2_stg6_0 : Ref sig .tc := ⟨.vmem, 52, rfl⟩
abbrev cc2_stg6_1 : Ref sig .tc := ⟨.vmem, 53, rfl⟩
abbrev cc2_stg7_0 : Ref sig .tc := ⟨.vmem, 54, rfl⟩
abbrev cc2_stg7_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc1_sem0_0 : DmaSem sig := 32
abbrev cc1_sem0_1 : DmaSem sig := 33
abbrev cc1_sem1_0 : DmaSem sig := 34
abbrev cc1_sem1_1 : DmaSem sig := 35
abbrev cc1_sem2_0 : DmaSem sig := 36
abbrev cc1_sem3_0 : DmaSem sig := 37
abbrev cc1_sem4_0 : DmaSem sig := 38
abbrev cc1_sem5_0 : DmaSem sig := 39
abbrev cc1_sem6_0 : DmaSem sig := 40
abbrev cc1_sem6_1 : DmaSem sig := 41
abbrev cc1_sem7_0 : DmaSem sig := 42
abbrev cc1_sem7_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem3_0 : DmaSem sig := 49
abbrev cc2_sem4_0 : DmaSem sig := 50
abbrev cc2_sem5_0 : DmaSem sig := 51
abbrev cc2_sem6_0 : DmaSem sig := 52
abbrev cc2_sem6_1 : DmaSem sig := 53
abbrev cc2_sem7_0 : DmaSem sig := 54
abbrev cc2_sem7_1 : DmaSem sig := 55

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S50x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2000x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  reducesTo_S400000x3_S400000_d1 : S400000x3.ReducesTo [1] S400000
  h_S_ : 0 < S_.numel
  bcast_S_S400000x1 : S_.BroadcastsInDim S400000x1 (![] : Fin 0 → Fin S400000x1.rank)
  bcast_S400000x1_S400000x3_0_1 : S400000x1.BroadcastsInDim S400000x3 (![0, 1] : Fin 2 → Fin S400000x3.rank)
  bcast_S_S25000x3 : S_.BroadcastsInDim S25000x3 (![] : Fin 0 → Fin S25000x3.rank)
  reducesTo_S25000x3_S25000_d1 : S25000x3.ReducesTo [1] S25000
  bcast_S25000_S25000x1_0 : S25000.BroadcastsInDim S25000x1 (![0] : Fin 1 → Fin S25000x1.rank)
  shapeCasts_S400000x1_S400000 : S400000x1.ShapeCasts S400000
  slices_S25000x3x128_S25000x1x128_0_0_0 : S25000x3x128.Slices ![0, 0, 0] S25000x1x128
  shapeCasts_S25000x1x128_S25000x128 : S25000x1x128.ShapeCasts S25000x128
  slices_S25000x3x128_S25000x1x128_0_1_0 : S25000x3x128.Slices ![0, 1, 0] S25000x1x128
  slices_S25000x3x128_S25000x1x128_0_2_0 : S25000x3x128.Slices ![0, 2, 0] S25000x1x128
  slices_S306x128_S128x128_0_0 : S306x128.Slices ![0, 0] S128x128
  slices_S306x128_S128x128_128_0 : S306x128.Slices ![128, 0] S128x128
  slices_S306x128_S50x128_256_0 : S306x128.Slices ![256, 0] S50x128
  slices_S400000x3_S400000x1_0_0 : S400000x3.Slices ![0, 0] S400000x1
  slices_S400000x3_S400000x1_0_1 : S400000x3.Slices ![0, 1] S400000x1
  slices_S400000x3_S400000x1_0_2 : S400000x3.Slices ![0, 2] S400000x1
  shapeCasts_S400000_S400000x1 : S400000.ShapeCasts S400000x1
  shapeCasts_S128_S1x128 : S128.ShapeCasts S1x128
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S2000x50_S2000x50_0_0 : ∀ a, (![0, 0] : Fin 2 → Nat) a + S2000x50.size a ≤ S2000x50.size a
  h_S2000x50 : 0 < S2000x50.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x128 : S2000x256.Slices ![0, 0] S2000x128
  slices_S2000x256_o0_128_S2000x128 : S2000x256.Slices ![0, 128] S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S25000x128 : S_.BroadcastsInDim S25000x128 (![] : Fin 0 → Fin S25000x128.rank)
  bcast_S25000x128_S25000x1x128_0_2 : S25000x128.BroadcastsInDim S25000x1x128 (![0, 2] : Fin 2 → Fin S25000x1x128.rank)
  concatenates_S25000x1x128_S25000x1x128_S25000x1x128_S25000x3x128_d1 : Shape.Concatenates [S25000x1x128, S25000x1x128, S25000x1x128] S25000x3x128 1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  broadcasts_S1x128_S4000x128 : S1x128.Broadcasts S4000x128
  gather_S25000x3_S400000x1_S400000x3_1_0_n_n_0_1_13_wf : GatherDims.WF S25000x3 S400000x1 S400000x3 [1] [0] [] [0] [] 1 ![1, 3]
  scatter_S25000x3_S400000x1_S400000x3_1_0_0_1_wf : ScatterDims.WF S25000x3 S400000x1 S400000x3 [1] [0] [0] 1
  gather_S25000x128_S400000x1_S400000x128_1_0_n_n_0_1_1128_wf : GatherDims.WF S25000x128 S400000x1 S400000x128 [1] [0] [] [0] [] 1 ![1, 128]
  dot_S2000x128_S128x128_S2000x128_1_0_0_1_n_n_wf : DotDims.WF S2000x128 S128x128 S2000x128 [1] [0] [0] [1] [] []
  dot_S2000x50_S50x128_S2000x128_1_0_0_1_n_n_wf : DotDims.WF S2000x50 S50x128 S2000x128 [1] [0] [0] [1] [] []
  dot_S2000x128_S128x256_S2000x256_1_0_0_1_n_n_wf : DotDims.WF S2000x128 S128x256 S2000x256 [1] [0] [0] [1] [] []
  scatter_S25000x128_S400000x1_S400000x128_1_0_0_1_wf : ScatterDims.WF S25000x128 S400000x1 S400000x128 [1] [0] [0] 1
  dot_S5000x128_S128x128_S5000x128_1_0_0_1_n_n_wf : DotDims.WF S5000x128 S128x128 S5000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S400000x128.size a
  hwx0_0 : ∀ i : grid0.Coords, EltTy.bits .f32 = 32 ∨ (Rect.block (s := S400000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S400000x128.size a
  hwx0_1 : ∀ i : grid0.Coords, EltTy.bits .f32 = 32 ∨ (Rect.block (s := S400000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x50.size a ≤ S400000x50.size a
  hwx0_2 : ∀ i : grid0.Coords, EltTy.bits .f32 = 32 ∨ (Rect.block (s := S400000x50) S2000x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S400000x1.size a
  hwx0_3 : ∀ i : grid0.Coords, EltTy.bits .f32 = 32 ∨ (Rect.block (s := S400000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S400000x1.size a
  hwx0_4 : ∀ i : grid0.Coords, EltTy.bits .f32 = 32 ∨ (Rect.block (s := S400000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S400000x1.size a
  hwx0_5 : ∀ i : grid0.Coords, EltTy.bits .f32 = 32 ∨ (Rect.block (s := S400000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S400000x128.size a
  hwx0_6 : ∀ i : grid0.Coords, EltTy.bits .f32 = 32 ∨ (Rect.block (s := S400000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S400000x128.size a
  hwx0_7 : ∀ i : grid0.Coords, EltTy.bits .f32 = 32 ∨ (Rect.block (s := S400000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S400000x128.size a
  hwx0_8 : ∀ i : grid0.Coords, EltTy.bits .f32 = 32 ∨ (Rect.block (s := S400000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x1.size a ≤ S400000x1.size a
  hwx0_9 : ∀ i : grid0.Coords, EltTy.bits .f32 = 32 ∨ (Rect.block (s := S400000x1) S2000x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S50x128.size a ≤ S50x128.size a
  hwx0_12 : ∀ i : grid0.Coords, EltTy.bits .f32 = 32 ∨ (Rect.block (s := S50x128) S50x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x256.size a ≤ S128x256.size a
  hwx0_14 : ∀ i : grid0.Coords, EltTy.bits .f32 = 32 ∨ (Rect.block (s := S128x256) S128x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x128.size a ≤ S400000x128.size a
  hwx0_16 : ∀ i : grid0.Coords, EltTy.bits .f32 = 32 ∨ (Rect.block (s := S400000x128) S2000x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x128.size a ≤ S400000x128.size a
  hwx0_17 : ∀ i : grid0.Coords, EltTy.bits .f32 = 32 ∨ (Rect.block (s := S400000x128) S2000x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2000x128.size a ≤ S400000x128.size a
  hwx0_18 : ∀ i : grid0.Coords, EltTy.bits .f32 = 32 ∨ (Rect.block (s := S400000x128) S2000x128.size (cc0_transform_18 i) (hinb0_18 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S25000x1.size a
  hwx1_1 : ∀ i : grid1.Coords, EltTy.bits .f32 = 32 ∨ (Rect.block (s := S25000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S25000x128.size a
  hwx1_6 : ∀ i : grid1.Coords, EltTy.bits .f32 = 32 ∨ (Rect.block (s := S25000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S25000x128.size a
  hwx1_7 : ∀ i : grid1.Coords, EltTy.bits .f32 = 32 ∨ (Rect.block (s := S25000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S400000x128.size a
  hwx2_0 : ∀ i : grid2.Coords, EltTy.bits .f32 = 32 ∨ (Rect.block (s := S400000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S400000x1.size a
  hwx2_1 : ∀ i : grid2.Coords, EltTy.bits .f32 = 32 ∨ (Rect.block (s := S400000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S400000x128.size a
  hwx2_6 : ∀ i : grid2.Coords, EltTy.bits .f32 = 32 ∨ (Rect.block (s := S400000x128) S4000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S400000x128.size a
  hwx2_7 : ∀ i : grid2.Coords, EltTy.bits .f32 = 32 ∨ (Rect.block (s := S400000x128) S4000x128.size (cc2_transform_7 i) (hinb2_7 i)).WholeWords (EltTy.packing .f32)

variable [Facts₀]

def gather_S25000x3_S400000x1_S400000x3_1_0_n_n_0_1_13 : GatherDims S25000x3 S400000x1 S400000x3 where
  offsetDims := [1]
  collapsedSliceDims := [0]
  operandBatchingDims := []
  startIndicesBatchingDims := []
  startIndexMap := [0]
  indexVectorDim := 1
  sliceSizes := ![1, 3]
  wf := gather_S25000x3_S400000x1_S400000x3_1_0_n_n_0_1_13_wf
def scatter_S25000x3_S400000x1_S400000x3_1_0_0_1 : ScatterDims S25000x3 S400000x1 S400000x3 where
  updateWindowDims := [1]
  insertedWindowDims := [0]
  scatterDimsToOperandDims := [0]
  indexVectorDim := 1
  wf := scatter_S25000x3_S400000x1_S400000x3_1_0_0_1_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x50_S50x128_S2000x128_1_0_0_1_n_n : DotDims S2000x50 S50x128 S2000x128 where
  lhsContracting := [1]
  rhsContracting := [0]
  lhsNonContracting := [0]
  rhsNonContracting := [1]
  lhsBatch := []
  rhsBatch := []
  wf := dot_S2000x50_S50x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v93) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v100) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2000x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v131) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v132) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v133) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v113) S2000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v120) S2000x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v127) S2000x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v134) S2000x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v128) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v129) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v130) S50x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v135) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg8) S128x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v136) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v137_0) S2000x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v137_1) S2000x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v137_2) S2000x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v152) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v153) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v154_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v154_1) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg2) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v155) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v156) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v157_0) S4000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v157_1) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S25000x128 : Shape := ⟨2, ![25000, 128]⟩
abbrev S25000x3x128 : Shape := ⟨3, ![25000, 3, 128]⟩
abbrev S400000x128 : Shape := ⟨2, ![400000, 128]⟩
abbrev S25000x3 : Shape := ⟨2, ![25000, 3]⟩
abbrev S400000x50 : Shape := ⟨2, ![400000, 50]⟩
abbrev S2x400000 : Shape := ⟨2, ![2, 400000]⟩
abbrev S306x128 : Shape := ⟨2, ![306, 128]⟩
abbrev S128 : Shape := ⟨1, ![128]⟩
abbrev S128x256 : Shape := ⟨2, ![128, 256]⟩
abbrev S256 : Shape := ⟨1, ![256]⟩
abbrev S128x128 : Shape := ⟨2, ![128, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x3 : Shape := ⟨2, ![400000, 3]⟩
abbrev S25000 : Shape := ⟨1, ![25000]⟩
abbrev S25000x1 : Shape := ⟨2, ![25000, 1]⟩
abbrev S400000x306 : Shape := ⟨2, ![400000, 306]⟩
abbrev S1x128 : Shape := ⟨2, ![1, 128]⟩
abbrev S400000x256 : Shape := ⟨2, ![400000, 256]⟩
abbrev S1x256 : Shape := ⟨2, ![1, 256]⟩
abbrev S400000x1x128 : Shape := ⟨3, ![400000, 1, 128]⟩
abbrev S400000x3x1 : Shape := ⟨3, ![400000, 3, 1]⟩
abbrev S400000x3x128 : Shape := ⟨3, ![400000, 3, 128]⟩
abbrev S400000x1x1 : Shape := ⟨3, ![400000, 1, 1]⟩

abbrev nBuf : Space → Nat
  | .hbm => 225
  | .vmem => 0
  | .smem => 0
  | _ => 0

abbrev hbmTy0_0 (i : Nat) : BufTy := match i % 128 with
  | 0 => ⟨S25000x128, .f32⟩
  | 1 => ⟨S25000x3x128, .f32⟩
  | 2 => ⟨S400000x128, .f32⟩
  | 3 => ⟨S25000x3, .f32⟩
  | 4 => ⟨S400000x50, .f32⟩
  | 5 => ⟨S2x400000, .i32⟩
  | 6 => ⟨S306x128, .f32⟩
  | 7 => ⟨S128, .f32⟩
  | 8 => ⟨S128x256, .f32⟩
  | 9 => ⟨S256, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S1x400000, .i32⟩
  | 19 => ⟨S400000, .i32⟩
  | 20 => ⟨S1x400000, .i32⟩
  | 21 => ⟨S400000, .i32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000x3, .f32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x3, .f32⟩
  | 40 => ⟨S400000x3, .f32⟩
  | 41 => ⟨S400000x3, .f32⟩
  | 42 => ⟨S_, .f32⟩
  | 43 => ⟨S400000, .f32⟩
  | 44 => ⟨S400000x1, .f32⟩
  | 45 => ⟨S400000x1, .f32⟩
  | 46 => ⟨S_, .f32⟩
  | 47 => ⟨S400000x1, .f32⟩
  | 48 => ⟨S400000x1, .f32⟩
  | 49 => ⟨S400000x3, .f32⟩
  | 50 => ⟨S400000x3, .f32⟩
  | 51 => ⟨S_, .f32⟩
  | 52 => ⟨S25000x3, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S25000x3, .f32⟩
  | 62 => ⟨S400000x3, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S25000x3, .f32⟩
  | 72 => ⟨S25000x3, .f32⟩
  | 73 => ⟨S_, .f32⟩
  | 74 => ⟨S25000, .f32⟩
  | 75 => ⟨S25000x1, .f32⟩
  | 76 => ⟨S25000x128, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000x3, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x3, .f32⟩
  | 95 => ⟨S400000x3, .f32⟩
  | 96 => ⟨S_, .f32⟩
  | 97 => ⟨S400000, .f32⟩
  | 98 => ⟨S400000x1, .f32⟩
  | 99 => ⟨S400000x3, .f32⟩
  | 100 => ⟨S_, .f32⟩
  | 101 => ⟨S400000, .f32⟩
  | 102 => ⟨S400000x1, .f32⟩
  | 103 => ⟨S400000x3, .f32⟩
  | 104 => ⟨S400000x3, .f32⟩
  | 105 => ⟨S400000x3, .f32⟩
  | 106 => ⟨S400000x3, .f32⟩
  | 107 => ⟨S400000x3, .f32⟩
  | 108 => ⟨S400000x3, .f32⟩
  | 109 => ⟨S400000x3, .f32⟩
  | 110 => ⟨S_, .f32⟩
  | 111 => ⟨S400000, .f32⟩
  | 112 => ⟨S400000x1, .f32⟩
  | 113 => ⟨S400000x128, .f32⟩
  | 114 => ⟨S400000, .f32⟩
  | 115 => ⟨S_, .f32⟩
  | 116 => ⟨S400000, .f32⟩
  | 117 => ⟨S400000, .f32⟩
  | 118 => ⟨S_, .f32⟩
  | 119 => ⟨S400000, .f32⟩
  | 120 => ⟨S400000, .f32⟩
  | 121 => ⟨S400000, .f32⟩
  | 122 => ⟨S_, .f32⟩
  | 123 => ⟨S400000, .f32⟩
  | 124 => ⟨S400000, .f32⟩
  | 125 => ⟨S_, .f32⟩
  | 126 => ⟨S400000, .f32⟩
  | 127 => ⟨S400000, .f32⟩
  | _ => ⟨S25000x128, .f32⟩

abbrev hbmTy0_1 (i : Nat) : BufTy := match i % 128 with
  | 0 => ⟨S400000, .f32⟩
  | 1 => ⟨S_, .f32⟩
  | 2 => ⟨S400000, .f32⟩
  | 3 => ⟨S400000, .i1⟩
  | 4 => ⟨S400000, .f32⟩
  | 5 => ⟨S400000, .f32⟩
  | 6 => ⟨S_, .i32⟩
  | 7 => ⟨S400000, .i32⟩
  | 8 => ⟨S400000, .i1⟩
  | 9 => ⟨S_, .i32⟩
  | 10 => ⟨S400000, .i32⟩
  | 11 => ⟨S400000, .i32⟩
  | 12 => ⟨S400000, .i32⟩
  | 13 => ⟨S400000x1, .i32⟩
  | 14 => ⟨S400000x128, .f32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S400000x128, .f32⟩
  | 24 => ⟨S400000x306, .f32⟩
  | 25 => ⟨S400000x128, .f32⟩
  | 26 => ⟨S1x128, .f32⟩
  | 27 => ⟨S400000x128, .f32⟩
  | 28 => ⟨S400000x128, .f32⟩
  | 29 => ⟨S400000x256, .f32⟩
  | 30 => ⟨S1x256, .f32⟩
  | 31 => ⟨S400000x256, .f32⟩
  | 32 => ⟨S400000x256, .f32⟩
  | 33 => ⟨S400000x128, .f32⟩
  | 34 => ⟨S400000x128, .f32⟩
  | 35 => ⟨S400000x1x128, .f32⟩
  | 36 => ⟨S400000x3x1, .f32⟩
  | 37 => ⟨S400000x3x128, .f32⟩
  | 38 => ⟨S400000x3x128, .f32⟩
  | 39 => ⟨S400000x3x128, .f32⟩
  | 40 => ⟨S400000x1x128, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000x3x128, .f32⟩
  | 50 => ⟨S400000x3x128, .f32⟩
  | 51 => ⟨S400000x3x128, .f32⟩
  | 52 => ⟨S400000x3x128, .f32⟩
  | 53 => ⟨S400000x1x1, .f32⟩
  | 54 => ⟨S400000x3x128, .f32⟩
  | 55 => ⟨S400000x3x128, .f32⟩
  | 56 => ⟨S_, .f32⟩
  | 57 => ⟨S25000x3x128, .f32⟩
  | 58 => ⟨S400000x1, .i32⟩
  | 59 => ⟨S25000x3x128, .f32⟩
  | 60 => ⟨S25000x3x128, .f32⟩
  | 61 => ⟨S25000x128, .f32⟩
  | 62 => ⟨S1x128, .f32⟩
  | 63 => ⟨S25000x128, .f32⟩
  | 64 => ⟨S25000x128, .f32⟩
  | 65 => ⟨S25000x128, .f32⟩
  | 66 => ⟨S25000x128, .f32⟩
  | 67 => ⟨S_, .f32⟩
  | 68 => ⟨S25000x128, .f32⟩
  | 69 => ⟨S25000x128, .f32⟩
  | 70 => ⟨S_, .f32⟩
  | 71 => ⟨S25000x128, .f32⟩
  | 72 => ⟨S25000x128, .f32⟩
  | 73 => ⟨S25000x128, .f32⟩
  | 74 => ⟨S1x128, .f32⟩
  | 75 => ⟨S25000x128, .f32⟩
  | 76 => ⟨S25000x128, .f32⟩
  | 77 => ⟨S25000x128, .f32⟩
  | 78 => ⟨S25000x128, .f32⟩
  | 79 => ⟨S400000x128, .f32⟩
  | 80 => ⟨S1x128, .f32⟩
  | 81 => ⟨S400000x128, .f32⟩
  | 82 => ⟨S400000x128, .f32⟩
  | 83 => ⟨S400000x128, .f32⟩
  | 84 => ⟨S400000x128, .f32⟩
  | 85 => ⟨S_, .f32⟩
  | 86 => ⟨S400000x128, .f32⟩
  | 87 => ⟨S400000x128, .f32⟩
  | 88 => ⟨S_, .f32⟩
  | 89 => ⟨S400000x128, .f32⟩
  | 90 => ⟨S400000x128, .f32⟩
  | 91 => ⟨S400000x128, .f32⟩
  | 92 => ⟨S1x128, .f32⟩
  | 93 => ⟨S400000x128, .f32⟩
  | 94 => ⟨S400000x128, .f32⟩
  | 95 => ⟨S400000x128, .f32⟩
  | 96 => ⟨S400000x128, .f32⟩
  | _ => ⟨S25000x128, .f32⟩

abbrev hbmTy (i : Nat) : BufTy := match i / 128 with
  | 0 => hbmTy0_0 i
  | 1 => hbmTy0_1 i
  | _ => ⟨S25000x128, .f32⟩

abbrev bufTy : (tb : Table) → Fin (tcTables nBuf tb) → BufTy
  | .hbm, ⟨i, _⟩ => hbmTy i
  | _, _ => ⟨S25000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_call0_v2 : Ref sig .tc := ⟨.hbm, 44, rfl⟩
abbrev main_v19 : Ref sig .tc := ⟨.hbm, 45, rfl⟩
abbrev main_cst : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_6 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_9 : Ref sig .tc := ⟨.hbm, 77, rfl⟩
abbrev main_v44 : Ref sig .tc := ⟨.hbm, 78, rfl⟩
abbrev main_v45 : Ref sig .tc := ⟨.hbm, 79, rfl⟩
abbrev main_c_10 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_11 : Ref sig .tc := ⟨.hbm, 86, rfl⟩
abbrev main_v51 : Ref sig .tc := ⟨.hbm, 87, rfl⟩
abbrev main_v52 : Ref sig .tc := ⟨.hbm, 88, rfl⟩
abbrev main_c_12 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_13 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_14 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_15 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_16 : Ref sig .tc := ⟨.hbm, 115, rfl⟩
abbrev main_v75 : Ref sig .tc := ⟨.hbm, 116, rfl⟩
abbrev main_v76 : Ref sig .tc := ⟨.hbm, 117, rfl⟩
abbrev main_cst_17 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_18 : Ref sig .tc := ⟨.hbm, 122, rfl⟩
abbrev main_v80 : Ref sig .tc := ⟨.hbm, 123, rfl⟩
abbrev main_v81 : Ref sig .tc := ⟨.hbm, 124, rfl⟩
abbrev main_cst_19 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_20 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_21 : Ref sig .tc := ⟨.hbm, 134, rfl⟩
abbrev main_v89 : Ref sig .tc := ⟨.hbm, 135, rfl⟩
abbrev main_v90 : Ref sig .tc := ⟨.hbm, 136, rfl⟩
abbrev main_c_22 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_c_23 : Ref sig .tc := ⟨.hbm, 143, rfl⟩
abbrev main_v96 : Ref sig .tc := ⟨.hbm, 144, rfl⟩
abbrev main_v97 : Ref sig .tc := ⟨.hbm, 145, rfl⟩
abbrev main_c_24 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_c_25 : Ref sig .tc := ⟨.hbm, 169, rfl⟩
abbrev main_v120 : Ref sig .tc := ⟨.hbm, 170, rfl⟩
abbrev main_v121 : Ref sig .tc := ⟨.hbm, 171, rfl⟩
abbrev main_c_26 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_27 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_28 : Ref sig .tc := ⟨.hbm, 195, rfl⟩
abbrev main_v143 : Ref sig .tc := ⟨.hbm, 196, rfl⟩
abbrev main_v144 : Ref sig .tc := ⟨.hbm, 197, rfl⟩
abbrev main_cst_29 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_cst_30 : Ref sig .tc := ⟨.hbm, 213, rfl⟩
abbrev main_v159 : Ref sig .tc := ⟨.hbm, 214, rfl⟩
abbrev main_v160 : Ref sig .tc := ⟨.hbm, 215, rfl⟩
abbrev main_cst_31 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  reducesTo_S400000x3_S400000_d1 : S400000x3.ReducesTo [1] S400000
  h_S_ : 0 < S_.numel
  bcast_S_S400000x1 : S_.BroadcastsInDim S400000x1 (![] : Fin 0 → Fin S400000x1.rank)
  bcast_S400000x1_S400000x3_0_1 : S400000x1.BroadcastsInDim S400000x3 (![0, 1] : Fin 2 → Fin S400000x3.rank)
  bcast_S_S25000x3 : S_.BroadcastsInDim S25000x3 (![] : Fin 0 → Fin S25000x3.rank)
  reducesTo_S25000x3_S25000_d1 : S25000x3.ReducesTo [1] S25000
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S400000x1_S400000x128_0_1 : S400000x1.BroadcastsInDim S400000x128 (![0, 1] : Fin 2 → Fin S400000x128.rank)
  shapeCasts_S400000x1_S400000 : S400000x1.ShapeCasts S400000
  concatenates_S400000x128_S400000x128_S400000x50_S400000x306_d1 : Shape.Concatenates [S400000x128, S400000x128, S400000x50] S400000x306 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  slices_S400000x256_S400000x128_0_0 : S400000x256.Slices ![0, 0] S400000x128
  slices_S400000x256_S400000x128_0_128 : S400000x256.Slices ![0, 128] S400000x128
  bcast_S400000x128_S400000x1x128_0_2 : S400000x128.BroadcastsInDim S400000x1x128 (![0, 2] : Fin 2 → Fin S400000x1x128.rank)
  bcast_S400000x3_S400000x3x1_0_1 : S400000x3.BroadcastsInDim S400000x3x1 (![0, 1] : Fin 2 → Fin S400000x3x1.rank)
  bcast_S400000x1x128_S400000x3x128_0_1_2 : S400000x1x128.BroadcastsInDim S400000x3x128 (![0, 1, 2] : Fin 3 → Fin S400000x3x128.rank)
  bcast_S400000x3x1_S400000x3x128_0_1_2 : S400000x3x1.BroadcastsInDim S400000x3x128 (![0, 1, 2] : Fin 3 → Fin S400000x3x128.rank)
  bcast_S400000_S400000x1x1_0 : S400000.BroadcastsInDim S400000x1x1 (![0] : Fin 1 → Fin S400000x1x1.rank)
  bcast_S400000x1x1_S400000x3x128_0_1_2 : S400000x1x1.BroadcastsInDim S400000x3x128 (![0, 1, 2] : Fin 3 → Fin S400000x3x128.rank)
  bcast_S_S25000x3x128 : S_.BroadcastsInDim S25000x3x128 (![] : Fin 0 → Fin S25000x3x128.rank)
  bcast_S1x128_S25000x128_0_1 : S1x128.BroadcastsInDim S25000x128 (![0, 1] : Fin 2 → Fin S25000x128.rank)
  bcast_S_S25000x128 : S_.BroadcastsInDim S25000x128 (![] : Fin 0 → Fin S25000x128.rank)
  bcast_S_S400000x128 : S_.BroadcastsInDim S400000x128 (![] : Fin 0 → Fin S400000x128.rank)
  gather_S25000x3_S400000x1_S400000x3_1_0_n_n_0_1_13_wf : GatherDims.WF S25000x3 S400000x1 S400000x3 [1] [0] [] [0] [] 1 ![1, 3]
  scatter_S25000x3_S400000x1_S400000x3_1_0_0_1_wf : ScatterDims.WF S25000x3 S400000x1 S400000x3 [1] [0] [0] 1
  gather_S25000x128_S400000x1_S400000x128_1_0_n_n_0_1_1128_wf : GatherDims.WF S25000x128 S400000x1 S400000x128 [1] [0] [] [0] [] 1 ![1, 128]
  dot_S400000x306_S306x128_S400000x128_1_0_0_1_n_n_wf : DotDims.WF S400000x306 S306x128 S400000x128 [1] [0] [0] [1] [] []
  dot_S400000x128_S128x256_S400000x256_1_0_0_1_n_n_wf : DotDims.WF S400000x128 S128x256 S400000x256 [1] [0] [0] [1] [] []
  gather_S25000x3x128_S400000x1_S400000x3x128_12_0_n_n_0_1_13128_wf : GatherDims.WF S25000x3x128 S400000x1 S400000x3x128 [1, 2] [0] [] [0] [] 1 ![1, 3, 128]
  scatter_S25000x3x128_S400000x1_S400000x3x128_12_0_0_1_wf : ScatterDims.WF S25000x3x128 S400000x1 S400000x3x128 [1, 2] [0] [0] 1
  dot_S25000x128_S128x128_S25000x128_1_0_0_1_n_n_wf : DotDims.WF S25000x128 S128x128 S25000x128 [1] [0] [0] [1] [] []
  dot_S400000x128_S128x128_S400000x128_1_0_0_1_n_n_wf : DotDims.WF S400000x128 S128x128 S400000x128 [1] [0] [0] [1] [] []

variable [Facts₀]

def gather_S25000x3_S400000x1_S400000x3_1_0_n_n_0_1_13 : GatherDims S25000x3 S400000x1 S400000x3 where
  offsetDims := [1]
  collapsedSliceDims := [0]
  operandBatchingDims := []
  startIndicesBatchingDims := []
  startIndexMap := [0]
  indexVectorDim := 1
  sliceSizes := ![1, 3]
  wf := gather_S25000x3_S400000x1_S400000x3_1_0_n_n_0_1_13_wf
def scatter_S25000x3_S400000x1_S400000x3_1_0_0_1 : ScatterDims S25000x3 S400000x1 S400000x3 where
  updateWindowDims := [1]
  insertedWindowDims := [0]
  scatterDimsToOperandDims := [0]
  indexVectorDim := 1
  wf := scatter_S25000x3_S400000x1_S400000x3_1_0_0_1_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def dot_S400000x306_S306x128_S400000x128_1_0_0_1_n_n : DotDims S400000x306 S306x128 S400000x128 where
  lhsContracting := [1]
  rhsContracting := [0]
  lhsNonContracting := [0]
  rhsNonContracting := [1]
  lhsBatch := []
  rhsBatch := []
  wf := dot_S400000x306_S306x128_S400000x128_1_0_0_1_n_n_wf
def dot_S400000x128_S128x256_S400000x256_1_0_0_1_n_n : DotDims S400000x128 S128x256 S400000x256 where
  lhsContracting := [1]
  rhsContracting := [0]
  lhsNonContracting := [0]
  rhsNonContracting := [1]
  lhsBatch := []
  rhsBatch := []
  wf := dot_S400000x128_S128x256_S400000x256_1_0_0_1_n_n_wf
def gather_S25000x3x128_S400000x1_S400000x3x128_12_0_n_n_0_1_13128 : GatherDims S25000x3x128 S400000x1 S400000x3x128 where
  offsetDims := [1, 2]
  collapsedSliceDims := [0]
  operandBatchingDims := []
  startIndicesBatchingDims := []
  startIndexMap := [0]
  indexVectorDim := 1
  sliceSizes := ![1, 3, 128]
  wf := gather_S25000x3x128_S400000x1_S400000x3x128_12_0_n_n_0_1_13128_wf
def scatter_S25000x3x128_S400000x1_S400000x3x128_12_0_0_1 : ScatterDims S25000x3x128 S400000x1 S400000x3x128 where
  updateWindowDims := [1, 2]
  insertedWindowDims := [0]
  scatterDimsToOperandDims := [0]
  indexVectorDim := 1
  wf := scatter_S25000x3x128_S400000x1_S400000x3x128_12_0_0_1_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf

class Facts : Prop extends Facts₀ where

variable [Facts]
-- ==== Proof.K.R0.lean ====
import proofs.«138558_j25314537242668_1_alg».proof.Proof.Gen.Kernel.Launch
import proofs.«138558_j25314537242668_1_alg».proof.Proof.Gen.Kernel.Skeleton
import proofs.«138558_j25314537242668_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An f32 memref of shape `sh`, and core `c` owning it whole with contents `X`. -/
private abbrev Stg (sh : Shape) := Memref sig .tc .vmem sh .f32
private abbrev own (c : Dev nD) {sh : Shape} (a : Stg sh) (X : Vec F sh .f32) : sProp 𝕄 := owns (c : Thread nD τ) a fullShare X

/-- Window `w`'s block at grid point `t`, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S2000x128 := Rect.unit (s := S2000x128) ![0, 0] S2000x128.size inb_S2000x128_S2000x128_0_0
abbrev r0_b : Rect S2000x50 := Rect.unit (s := S2000x50) ![0, 0] S2000x50.size inb_S2000x50_S2000x50_0_0
abbrev r0_c : Rect S2000x1 := Rect.unit (s := S2000x1) ![0, 0] S2000x1.size inb_S2000x1_S2000x1_0_0
abbrev r0_d : Rect S128x128 := Rect.unit (s := S128x128) ![0, 0] S128x128.size inb_S128x128_S128x128_0_0
abbrev r0_e : Rect S50x128 := Rect.unit (s := S50x128) ![0, 0] S50x128.size inb_S50x128_S50x128_0_0
abbrev r0_f : Rect S1x128 := Rect.unit (s := S1x128) ![0, 0] S1x128.size inb_S1x128_S1x128_0_0
abbrev r0_g : Rect S128x256 := Rect.unit (s := S128x256) ![0, 0] S128x256.size inb_S128x256_S128x256_0_0
abbrev r0_h : Rect S1x256 := Rect.unit (s := S1x256) ![0, 0] S1x256.size inb_S1x256_S1x256_0_0

/-- Each message block: one whole-block store of the body's arithmetic on the twelve input blocks it reads. -/
def out0_16 (x0 x1 : Vec F S2000x128 .f32) (x2 : Vec F S2000x50 .f32) (x3 : Vec F S2000x1 .f32) (x6 : Vec F S2000x128 .f32) (x9 : Vec F S2000x1 .f32)
    (x10 x11 : Vec F S128x128 .f32) (x12 : Vec F S50x128 .f32) (x13 : Vec F S1x128 .f32) (x14 : Vec F S128x256 .f32) (x15 : Vec F S1x256 .f32) : Vec F S2000x128 .f32 :=
  View.canon [⟨r0_a, k0_pay2 (k0_pay6 (View.ld x0 r0_a) (View.ld x1 r0_a) (View.ld x2 r0_b) (View.ld x10 r0_d) (View.ld x11 r0_d) (View.ld x12 r0_e) (View.ld x13 r0_f) (View.ld x14 r0_g) (View.ld x15 r0_h)) (k0_pay7 (View.ld x0 r0_a) (View.ld x1 r0_a) (View.ld x2 r0_b) (View.ld x10 r0_d) (View.ld x11 r0_d) (View.ld x12 r0_e) (View.ld x13 r0_f) (View.ld x14 r0_g) (View.ld x15 r0_h))
    (View.ld x9 r0_c) (View.ld x3 r0_c) (View.ld x6 r0_a)⟩]

def out0_17 (x0 x1 : Vec F S2000x128 .f32) (x2 : Vec F S2000x50 .f32) (x4 : Vec F S2000x1 .f32) (x7 : Vec F S2000x128 .f32) (x9 : Vec F S2000x1 .f32)
    (x10 x11 : Vec F S128x128 .f32) (x12 : Vec F S50x128 .f32) (x13 : Vec F S1x128 .f32) (x14 : Vec F S128x256 .f32) (x15 : Vec F S1x256 .f32) : Vec F S2000x128 .f32 :=
  View.canon [⟨r0_a, k0_pay3 (k0_pay6 (View.ld x0 r0_a) (View.ld x1 r0_a) (View.ld x2 r0_b) (View.ld x10 r0_d) (View.ld x11 r0_d) (View.ld x12 r0_e) (View.ld x13 r0_f) (View.ld x14 r0_g) (View.ld x15 r0_h)) (k0_pay7 (View.ld x0 r0_a) (View.ld x1 r0_a) (View.ld x2 r0_b) (View.ld x10 r0_d) (View.ld x11 r0_d) (View.ld x12 r0_e) (View.ld x13 r0_f) (View.ld x14 r0_g) (View.ld x15 r0_h))
    (View.ld x9 r0_c) (View.ld x4 r0_c) (View.ld x7 r0_a)⟩]

def out0_18 (x0 x1 : Vec F S2000x128 .f32) (x2 : Vec F S2000x50 .f32) (x5 : Vec F S2000x1 .f32) (x8 : Vec F S2000x128 .f32) (x9 : Vec F S2000x1 .f32)
    (x10 x11 : Vec F S128x128 .f32) (x12 : Vec F S50x128 .f32) (x13 : Vec F S1x128 .f32) (x14 : Vec F S128x256 .f32) (x15 : Vec F S1x256 .f32) : Vec F S2000x128 .f32 :=
  View.canon [⟨r0_a, k0_pay4 (k0_pay6 (View.ld x0 r0_a) (View.ld x1 r0_a) (View.ld x2 r0_b) (View.ld x10 r0_d) (View.ld x11 r0_d) (View.ld x12 r0_e) (View.ld x13 r0_f) (View.ld x14 r0_g) (View.ld x15 r0_h)) (k0_pay7 (View.ld x0 r0_a) (View.ld x1 r0_a) (View.ld x2 r0_b) (View.ld x10 r0_d) (View.ld x11 r0_d) (View.ld x12 r0_e) (View.ld x13 r0_f) (View.ld x14 r0_g) (View.ld x15 r0_h))
    (View.ld x9 r0_c) (View.ld x5 r0_c) (View.ld x8 r0_a)⟩]

theorem cover0_a (p0 : Vec F S2000x128 .f32) (y : S2000x128.Idx) :
    ∃ pc ∈ ([⟨r0_a, p0⟩] : List (View.Piece (Elt F) S2000x128 .f32)), y ∈ pc.1.set :=
  View.cover_of_tiled [⟨r0_a, p0⟩] S2000x128.size (by rfl) y

set_option maxHeartbeats 4000000 in
/-- The body only loads its inputs and overwrites each output whole, so it returns the inputs as found and each output at its payload. -/
theorem sound_kernel0 (c : Dev nD) (E : Set ℕ) (i : grid0.Coords)
    (arg1 : Stg S2000x128) (harg1 : arg1.IsWhole) (arg2 : Stg S2000x128) (harg2 : arg2.IsWhole)
    (arg3 : Stg S2000x50) (harg3 : arg3.IsWhole) (arg4 : Stg S2000x1) (harg4 : arg4.IsWhole)
    (arg5 : Stg S2000x1) (harg5 : arg5.IsWhole) (arg6 : Stg S2000x1) (harg6 : arg6.IsWhole)
    (arg7 : Stg S2000x128) (harg7 : arg7.IsWhole) (arg8 : Stg S2000x128) (harg8 : arg8.IsWhole)
    (arg9 : Stg S2000x128) (harg9 : arg9.IsWhole) (arg10 : Stg S2000x1) (harg10 : arg10.IsWhole)
    (arg11 : Stg S128x128) (harg11 : arg11.IsWhole) (arg12 : Stg S128x128) (harg12 : arg12.IsWhole)
    (arg13 : Stg S50x128) (harg13 : arg13.IsWhole) (arg14 : Stg S1x128) (harg14 : arg14.IsWhole)
    (arg15 : Stg S128x256) (harg15 : arg15.IsWhole) (arg16 : Stg S1x256) (harg16 : arg16.IsWhole)
    (arg17 : Stg S2000x128) (harg17 : arg17.IsWhole) (arg18 : Stg S2000x128) (harg18 : arg18.IsWhole)
    (arg19 : Stg S2000x128) (harg19 : arg19.IsWhole)
    (x0 : Vec F S2000x128 .f32) (x1 : Vec F S2000x128 .f32) (x2 : Vec F S2000x50 .f32) (x3 : Vec F S2000x1 .f32)
    (x4 : Vec F S2000x1 .f32) (x5 : Vec F S2000x1 .f32) (x6 : Vec F S2000x128 .f32) (x7 : Vec F S2000x128 .f32)
    (x8 : Vec F S2000x128 .f32) (x9 : Vec F S2000x1 .f32) (x10 : Vec F S128x128 .f32) (x11 : Vec F S128x128 .f32)
    (x12 : Vec F S50x128 .f32) (x13 : Vec F S1x128 .f32) (x14 : Vec F S128x256 .f32) (x15 : Vec F S1x256 .f32) (K : PUnit → sProp 𝕄) :
    iprop(own c arg1 x0 ∗ own c arg2 x1 ∗ own c arg3 x2
        ∗ own c arg4 x3 ∗ own c arg5 x4 ∗ own c arg6 x5
        ∗ own c arg7 x6 ∗ own c arg8 x7 ∗ own c arg9 x8
        ∗ own c arg10 x9 ∗ own c arg11 x10 ∗ own c arg12 x11
        ∗ own c arg13 x12 ∗ own c arg14 x13 ∗ own c arg15 x14
        ∗ own c arg16 x15
        ∗ (∃ d, own c arg17 d) ∗ (∃ d, own c arg18 d) ∗ (∃ d, own c arg19 d)
        ∗ (iprop(own c arg1 x0 ∗ own c arg2 x1 ∗ own c arg3 x2
            ∗ own c arg4 x3 ∗ own c arg5 x4 ∗ own c arg6 x5
            ∗ own c arg7 x6 ∗ own c arg8 x7 ∗ own c arg9 x8
            ∗ own c arg10 x9 ∗ own c arg11 x10 ∗ own c arg12 x11
            ∗ own c arg13 x12 ∗ own c arg14 x13 ∗ own c arg15 x14
            ∗ own c arg16 x15
            ∗ own c arg17 (out0_16 x0 x1 x2 x3 x6 x9 x10 x11 x12 x13 x14 x15)
            ∗ own c arg18 (out0_17 x0 x1 x2 x4 x7 x9 x10 x11 x12 x13 x14 x15)
            ∗ own c arg19 (out0_18 x0 x1 x2 x5 x8 x9 x10 x11 x12 x13 x14 x15)) -∗ K ⟨⟩))
      ⊢ wp frame (wpE (defs₀ (F := F)) Variants.none c none) E (cc0__edge_msg_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__edge_msg_kernel_eq_skeleton]; unfold cc0__edge_msg_kernel_skel
  simp only [k0_part1_eq_skeleton]; unfold k0_part1_skel
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro; exact View.read_writes_eq_canon _ _ _ (cover0_a _)
  isplitl [H17]
  · iexists _; isplitr
    swap; · iexact H17
    ipureintro; exact View.read_writes_eq_canon _ _ _ (cover0_a _)
  iexists _; isplitr
  swap; · iexact H18
  ipureintro; exact View.read_writes_eq_canon _ _ _ (cover0_a _)

/-- Region 0's proof data: the arrays as entered; at each point an input window's value is its block, an output window's its payload of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => out0_16 (iblk0 V c 0 t) (iblk0 V c 1 t) (iblk0 V c 2 t) (iblk0 V c 3 t) (iblk0 V c 6 t) (iblk0 V c 9 t) (iblk0 V c 10 t) (iblk0 V c 11 t) (iblk0 V c 12 t) (iblk0 V c 13 t) (iblk0 V c 14 t) (iblk0 V c 15 t)
    | ⟨17, _⟩ => out0_17 (iblk0 V c 0 t) (iblk0 V c 1 t) (iblk0 V c 2 t) (iblk0 V c 4 t) (iblk0 V c 7 t) (iblk0 V c 9 t) (iblk0 V c 10 t) (iblk0 V c 11 t) (iblk0 V c 12 t) (iblk0 V c 13 t) (iblk0 V c 14 t) (iblk0 V c 15 t)
    | ⟨18, _⟩ => out0_18 (iblk0 V c 0 t) (iblk0 V c 1 t) (iblk0 V c 2 t) (iblk0 V c 5 t) (iblk0 V c 8 t) (iblk0 V c 9 t) (iblk0 V c 10 t) (iblk0 V c 11 t) (iblk0 V c 12 t) (iblk0 V c 13 t) (iblk0 V c 14 t) (iblk0 V c 15 t)
    | ⟨_ + 19, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_16 (c : Dev nD) (t : Fin cfg0.N) : (dat0 V c).after 16 t = out0_16 (iblk0 V c 0 t) (iblk0 V c 1 t) (iblk0 V c 2 t) (iblk0 V c 3 t) (iblk0 V c 6 t) (iblk0 V c 9 t) (iblk0 V c 10 t) (iblk0 V c 11 t) (iblk0 V c 12 t) (iblk0 V c 13 t) (iblk0 V c 14 t) (iblk0 V c 15 t) := by dsimp only [dat0]
theorem after0_17 (c : Dev nD) (t : Fin cfg0.N) : (dat0 V c).after 17 t = out0_17 (iblk0 V c 0 t) (iblk0 V c 1 t) (iblk0 V c 2 t) (iblk0 V c 4 t) (iblk0 V c 7 t) (iblk0 V c 9 t) (iblk0 V c 10 t) (iblk0 V c 11 t) (iblk0 V c 12 t) (iblk0 V c 13 t) (iblk0 V c 14 t) (iblk0 V c 15 t) := by dsimp only [dat0]
theorem after0_18 (c : Dev nD) (t : Fin cfg0.N) : (dat0 V c).after 18 t = out0_18 (iblk0 V c 0 t) (iblk0 V c 1 t) (iblk0 V c 2 t) (iblk0 V c 5 t) (iblk0 V c 8 t) (iblk0 V c 9 t) (iblk0 V c 10 t) (iblk0 V c 11 t) (iblk0 V c 12 t) (iblk0 V c 13 t) (iblk0 V c 14 t) (iblk0 V c 15 t) := by dsimp only [dat0]

/-- What the body meets in an input window at point `t` is that window's block of the entry array. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl
theorem before0_8 (c : Dev nD) (t : Fin cfg0.N) (d) : (dat0 V c).before 8 t d = iblk0 V c 8 t :=
  ((dat0 V c).before_in_eq_fetched 8 rfl (fun _ => rfl) (fun _ _ _ => rfl) (fun _ => rfl) t d).trans rfl
theorem before0_9 (c : Dev nD) (t : Fin cfg0.N) (d) : (dat0 V c).before 9 t d = iblk0 V c 9 t :=
  ((dat0 V c).before_in_eq_fetched 9 rfl (fun _ => rfl) (fun _ _ _ => rfl) (fun _ => rfl) t d).trans rfl
theorem before0_10 (c : Dev nD) (t : Fin cfg0.N) (d) : (dat0 V c).before 10 t d = iblk0 V c 10 t :=
  ((dat0 V c).before_in_eq_fetched 10 rfl (fun _ => rfl) (fun _ _ _ => rfl) (fun _ => rfl) t d).trans rfl
theorem before0_11 (c : Dev nD) (t : Fin cfg0.N) (d) : (dat0 V c).before 11 t d = iblk0 V c 11 t :=
  ((dat0 V c).before_in_eq_fetched 11 rfl (fun _ => rfl) (fun _ _ _ => rfl) (fun _ => rfl) t d).trans rfl
theorem before0_12 (c : Dev nD) (t : Fin cfg0.N) (d) : (dat0 V c).before 12 t d = iblk0 V c 12 t :=
  ((dat0 V c).before_in_eq_fetched 12 rfl (fun _ => rfl) (fun _ _ _ => rfl) (fun _ => rfl) t d).trans rfl
theorem before0_13 (c : Dev nD) (t : Fin cfg0.N) (d) : (dat0 V c).before 13 t d = iblk0 V c 13 t :=
  ((dat0 V c).before_in_eq_fetched 13 rfl (fun _ => rfl) (fun _ _ _ => rfl) (fun _ => rfl) t d).trans rfl
theorem before0_14 (c : Dev nD) (t : Fin cfg0.N) (d) : (dat0 V c).before 14 t d = iblk0 V c 14 t :=
  ((dat0 V c).before_in_eq_fetched 14 rfl (fun _ => rfl) (fun _ _ _ => rfl) (fun _ => rfl) t d).trans rfl
theorem before0_15 (c : Dev nD) (t : Fin cfg0.N) (d) : (dat0 V c).before 15 t d = iblk0 V c 15 t :=
  ((dat0 V c).before_in_eq_fetched 15 rfl (fun _ => rfl) (fun _ _ _ => rfl) (fun _ => rfl) t d).trans rfl

/-- The body's triple at each grid point, instantiated at the input windows' blocks. -/
theorem body_obligation0 (c : Dev nD) : BodyObligation (dat0 (F := F) V c) (defs₀ (F := F)) Variants.none () Set.univ := fun t => by
  rw [bigSep_W0, bigSep_W0]
  simp only [before0_0, before0_1, before0_2, before0_3, before0_4, before0_5, before0_6, before0_7, before0_8, before0_9, before0_10, before0_11, before0_12, before0_13, before0_14, before0_15]
  rw [show (dat0 V c).Φ t.succ = (dat0 V c).Φ t.castSucc from rfl,
    show (dat0 V c).owesAt () t.succ = (dat0 V c).owesAt () t.castSucc from rfl, after0_16, after0_17, after0_18]
  refine (?_ : (_ : sProp 𝕄) ⊢ wp frame (wpE (defs₀ (F := F)) Variants.none c none) Set.univ (bodyAt0 t) _)
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, H17, H18⟩
  iapply (sound_kernel0 c Set.univ (grid0.coords t) _ _ _ _ _ _ _ _ _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · icases H16 with ⟨%d16, H16⟩; iexists _; iexact H16
  isplitl [H17]; · icases H17 with ⟨%d17, H17⟩; iexists _; iexact H17
  isplitl [H18]; · icases H18 with ⟨%d18, H18⟩; iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.Kernel.Hand

end
-- ==== Proof.K.R1.lean ====
import proofs.«138558_j25314537242668_1_alg».proof.Proof.Gen.Kernel.Launch
import proofs.«138558_j25314537242668_1_alg».proof.Proof.Gen.Kernel.Skeleton
import proofs.«138558_j25314537242668_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An f32 memref of shape `sh`, and core `c` owning it whole with contents `X`. -/
private abbrev Stg (sh : Shape) := Memref sig .tc .vmem sh .f32
private abbrev own (c : Dev nD) {sh : Shape} (a : Stg sh) (X : Vec F sh .f32) : sProp 𝕄 := owns (c : Thread nD τ) a fullShare X

/-- Window `w`'s block at grid point `t`, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x128 := Rect.unit (s := S5000x128) ![0, 0] S5000x128.size inb_S5000x128_S5000x128_0_0
abbrev r1_b : Rect S5000x1 := Rect.unit (s := S5000x1) ![0, 0] S5000x1.size inb_S5000x1_S5000x1_0_0
abbrev r1_c : Rect S128x128 := Rect.unit (s := S128x128) ![0, 0] S128x128.size inb_S128x128_S128x128_0_0
abbrev r1_d : Rect S1x128 := Rect.unit (s := S1x128) ![0, 0] S1x128.size inb_S1x128_S1x128_0_0

/-- The updated features: one whole-block store of the body's arithmetic on the six input blocks. -/
def out1_6 (x0 : Vec F S5000x128 .f32) (x1 : Vec F S5000x1 .f32) (x2 : Vec F S128x128 .f32) (x3 : Vec F S1x128 .f32)
    (x4 : Vec F S128x128 .f32) (x5 : Vec F S1x128 .f32) : Vec F S5000x128 .f32 :=
  View.canon [⟨r1_a, k1_pay2 (View.ld x0 r1_a) (View.ld x1 r1_b) (View.ld x4 r1_c) (View.ld x5 r1_d) (View.ld x2 r1_c) (View.ld x3 r1_d)⟩]

/-- The column broadcast along the lanes: one whole-block store. -/
def out1_7 (x1 : Vec F S5000x1 .f32) : Vec F S5000x128 .f32 :=
  View.canon [⟨r1_a, k1_pay1 (View.ld x1 r1_b)⟩]

theorem cover1_a (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

set_option maxHeartbeats 1000000 in
/-- The body only loads its inputs and overwrites each output whole, so it returns the inputs as found and each output at its payload. -/
theorem sound_kernel1 (c : Dev nD) (E : Set ℕ) (i : grid1.Coords)
    (arg1 : Stg S5000x128) (harg1 : arg1.IsWhole) (arg2 : Stg S5000x1) (harg2 : arg2.IsWhole)
    (arg3 : Stg S128x128) (harg3 : arg3.IsWhole) (arg4 : Stg S1x128) (harg4 : arg4.IsWhole)
    (arg5 : Stg S128x128) (harg5 : arg5.IsWhole) (arg6 : Stg S1x128) (harg6 : arg6.IsWhole)
    (arg7 : Stg S5000x128) (harg7 : arg7.IsWhole) (arg8 : Stg S5000x128) (harg8 : arg8.IsWhole)
    (x0 : Vec F S5000x128 .f32) (x1 : Vec F S5000x1 .f32) (x2 : Vec F S128x128 .f32) (x3 : Vec F S1x128 .f32)
    (x4 : Vec F S128x128 .f32) (x5 : Vec F S1x128 .f32) (K : PUnit → sProp 𝕄) :
    iprop(own c arg1 x0 ∗ own c arg2 x1 ∗ own c arg3 x2
        ∗ own c arg4 x3 ∗ own c arg5 x4 ∗ own c arg6 x5
        ∗ (∃ d, own c arg7 d) ∗ (∃ d, own c arg8 d)
        ∗ (iprop(own c arg1 x0 ∗ own c arg2 x1 ∗ own c arg3 x2
            ∗ own c arg4 x3 ∗ own c arg5 x4 ∗ own c arg6 x5
            ∗ own c arg7 (out1_6 x0 x1 x2 x3 x4 x5) ∗ own c arg8 (out1_7 x1)) -∗ K ⟨⟩))
      ⊢ wp frame (wpE (defs₀ (F := F)) Variants.none c none) E (cc1__gated_update_kernel i arg1 harg1 arg2 harg2 arg3 harg3 arg4 harg4 arg5 harg5 arg6 harg6 arg7 harg7 arg8 harg8) K := by
  simp only [cc1__gated_update_kernel_eq_skeleton]; unfold cc1__gated_update_kernel_skel
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (cover1_a _)
  iexists _; isplitr
  swap; · iexact H7
  ipureintro; exact View.read_writes_eq_canon _ _ _ (cover1_a _)

/-- Region 1's proof data: the arrays as entered; at each point an input window's value is its block, an output window's its payload of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 1 t) := by dsimp only [dat1]

/-- What the body meets in an input window at point `t` is that window's block of the entry array. -/
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

/-- The body's triple at each grid point, instantiated at the input windows' blocks. -/
theorem body_obligation1 (c : Dev nD) : BodyObligation (dat1 (F := F) V c) (defs₀ (F := F)) Variants.none () Set.univ := fun t => by
  rw [bigSep_W1, bigSep_W1]
  simp only [before1_0, before1_1, before1_2, before1_3, before1_4, before1_5]
  rw [show (dat1 V c).Φ t.succ = (dat1 V c).Φ t.castSucc from rfl,
    show (dat1 V c).owesAt () t.succ = (dat1 V c).owesAt () t.castSucc from rfl, after1_6, after1_7]
  refine (?_ : (_ : sProp 𝕄) ⊢ wp frame (wpE (defs₀ (F := F)) Variants.none c none) Set.univ (bodyAt1 t) _)
  unfold bodyAt1
  iintro ⟨HΦ, Ho, ⟨%d0, H0⟩, ⟨%d1, H1⟩, ⟨%d2, H2⟩, ⟨%d3, H3⟩, ⟨%d4, H4⟩, ⟨%d5, H5⟩, H6, H7⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · icases H6 with ⟨%d6, H6⟩; iexists _; iexact H6
  isplitl [H7]; · icases H7 with ⟨%d7, H7⟩; iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Kernel.Hand

end
-- ==== Proof.K.R2.lean ====
import proofs.«138558_j25314537242668_1_alg».proof.Proof.Gen.Kernel.Launch
import proofs.«138558_j25314537242668_1_alg».proof.Proof.Gen.Kernel.Skeleton
import proofs.«138558_j25314537242668_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An f32 memref of shape `sh`, and core `c` owning it whole with contents `X`. -/
private abbrev Stg (sh : Shape) := Memref sig .tc .vmem sh .f32
private abbrev own (c : Dev nD) {sh : Shape} (a : Stg sh) (X : Vec F sh .f32) : sProp 𝕄 := owns (c : Thread nD τ) a fullShare X

/-- Window `w`'s block at grid point `t`, read off the array the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S4000x128 := Rect.unit (s := S4000x128) ![0, 0] S4000x128.size inb_S4000x128_S4000x128_0_0
abbrev r2_b : Rect S4000x1 := Rect.unit (s := S4000x1) ![0, 0] S4000x1.size inb_S4000x1_S4000x1_0_0
abbrev r2_c : Rect S128x128 := Rect.unit (s := S128x128) ![0, 0] S128x128.size inb_S128x128_S128x128_0_0
abbrev r2_d : Rect S1x128 := Rect.unit (s := S1x128) ![0, 0] S1x128.size inb_S1x128_S1x128_0_0

/-- The updated features: one whole-block store of the body's arithmetic on the six input blocks. -/
def out2_6 (x0 : Vec F S4000x128 .f32) (x1 : Vec F S4000x1 .f32) (x2 : Vec F S128x128 .f32) (x3 : Vec F S1x128 .f32)
    (x4 : Vec F S128x128 .f32) (x5 : Vec F S1x128 .f32) : Vec F S4000x128 .f32 :=
  View.canon [⟨r2_a, k2_pay2 (View.ld x0 r2_a) (View.ld x1 r2_b) (View.ld x4 r2_c) (View.ld x5 r2_d) (View.ld x2 r2_c) (View.ld x3 r2_d)⟩]

/-- The column broadcast along the lanes: one whole-block store. -/
def out2_7 (x1 : Vec F S4000x1 .f32) : Vec F S4000x128 .f32 :=
  View.canon [⟨r2_a, k2_pay1 (View.ld x1 r2_b)⟩]

theorem cover2_a (p0 : Vec F S4000x128 .f32) (y : S4000x128.Idx) :
    ∃ pc ∈ ([⟨r2_a, p0⟩] : List (View.Piece (Elt F) S4000x128 .f32)), y ∈ pc.1.set :=
  View.cover_of_tiled [⟨r2_a, p0⟩] S4000x128.size (by rfl) y

set_option maxHeartbeats 1000000 in
/-- The body only loads its inputs and overwrites each output whole, so it returns the inputs as found and each output at its payload. -/
theorem sound_kernel2 (c : Dev nD) (E : Set ℕ) (i : grid2.Coords)
    (arg1 : Stg S4000x128) (harg1 : arg1.IsWhole) (arg2 : Stg S4000x1) (harg2 : arg2.IsWhole)
    (arg3 : Stg S128x128) (harg3 : arg3.IsWhole) (arg4 : Stg S1x128) (harg4 : arg4.IsWhole)
    (arg5 : Stg S128x128) (harg5 : arg5.IsWhole) (arg6 : Stg S1x128) (harg6 : arg6.IsWhole)
    (arg7 : Stg S4000x128) (harg7 : arg7.IsWhole) (arg8 : Stg S4000x128) (harg8 : arg8.IsWhole)
    (x0 : Vec F S4000x128 .f32) (x1 : Vec F S4000x1 .f32) (x2 : Vec F S128x128 .f32) (x3 : Vec F S1x128 .f32)
    (x4 : Vec F S128x128 .f32) (x5 : Vec F S1x128 .f32) (K : PUnit → sProp 𝕄) :
    iprop(own c arg1 x0 ∗ own c arg2 x1 ∗ own c arg3 x2
        ∗ own c arg4 x3 ∗ own c arg5 x4 ∗ own c arg6 x5
        ∗ (∃ d, own c arg7 d) ∗ (∃ d, own c arg8 d)
        ∗ (iprop(own c arg1 x0 ∗ own c arg2 x1 ∗ own c arg3 x2
            ∗ own c arg4 x3 ∗ own c arg5 x4 ∗ own c arg6 x5
            ∗ own c arg7 (out2_6 x0 x1 x2 x3 x4 x5) ∗ own c arg8 (out2_7 x1)) -∗ K ⟨⟩))
      ⊢ wp frame (wpE (defs₀ (F := F)) Variants.none c none) E (cc2__gated_update_kernel i arg1 harg1 arg2 harg2 arg3 harg3 arg4 harg4 arg5 harg5 arg6 harg6 arg7 harg7 arg8 harg8) K := by
  simp only [cc2__gated_update_kernel_eq_skeleton]; unfold cc2__gated_update_kernel_skel
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (cover2_a _)
  iexists _; isplitr
  swap; · iexact H7
  ipureintro; exact View.read_writes_eq_canon _ _ _ (cover2_a _)

/-- Region 2's proof data: the arrays as entered; at each point an input window's value is its block, an output window's its payload of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 1 t) := by dsimp only [dat2]

/-- What the body meets in an input window at point `t` is that window's block of the entry array. -/
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

/-- The body's triple at each grid point, instantiated at the input windows' blocks. -/
theorem body_obligation2 (c : Dev nD) : BodyObligation (dat2 (F := F) V c) (defs₀ (F := F)) Variants.none () Set.univ := fun t => by
  rw [bigSep_W2, bigSep_W2]
  simp only [before2_0, before2_1, before2_2, before2_3, before2_4, before2_5]
  rw [show (dat2 V c).Φ t.succ = (dat2 V c).Φ t.castSucc from rfl,
    show (dat2 V c).owesAt () t.succ = (dat2 V c).owesAt () t.castSucc from rfl, after2_6, after2_7]
  refine (?_ : (_ : sProp 𝕄) ⊢ wp frame (wpE (defs₀ (F := F)) Variants.none c none) Set.univ (bodyAt2 t) _)
  unfold bodyAt2
  iintro ⟨HΦ, Ho, ⟨%d0, H0⟩, ⟨%d1, H1⟩, ⟨%d2, H2⟩, ⟨%d3, H3⟩, ⟨%d4, H4⟩, ⟨%d5, H5⟩, H6, H7⟩
  iapply (sound_kernel2 c Set.univ (grid2.coords t) _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · icases H6 with ⟨%d6, H6⟩; iexists _; iexact H6
  isplitl [H7]; · icases H7 with ⟨%d7, H7⟩; iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Kernel.Hand

end
-- ==== Proof.K.Run.lean ====
import proofs.«138558_j25314537242668_1_alg».proof.Proof.K.R0
import proofs.«138558_j25314537242668_1_alg».proof.Proof.K.R1
import proofs.«138558_j25314537242668_1_alg».proof.Proof.K.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents at each segment boundary, folded from the launch memory: a host stretch applies its operations,
    a region replaces its arrays by what its points leave. -/
abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part0_ops1 (W1 m ρ c)
abbrev W3 : Dev nD → Valuation τ sig (Elt F) := fun c => StableHlo.after main_part0_ops2 (W2 m ρ c)
abbrev W4 : Dev nD → Valuation τ sig (Elt F) := fun c => StableHlo.after main_part1_ops0 (W3 m ρ c)
abbrev W5 : Dev nD → Valuation τ sig (Elt F) := fun c => StableHlo.after main_part2_ops0 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb

abbrev W7 : Dev nD → Valuation τ sig (Elt F) := fun c => StableHlo.after main_part2_ops1 (W6 m ρ c)
abbrev W8 : Dev nD → Valuation τ sig (Elt F) := fun c => StableHlo.after main_part3_ops0 (W7 m ρ c)
abbrev V8 : (c : Dev nD) → (b : Ref sig .tc) → Buf (Elt F) ((c : Thread nD τ).loc b) := fun c b => W8 m ρ c b

def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb

abbrev W10 : Dev nD → Valuation τ sig (Elt F) := fun c => StableHlo.after main_part3_ops1 (W9 m ρ c)
abbrev V10 : (c : Dev nD) → (b : Ref sig .tc) → Buf (Elt F) ((c : Thread nD τ).loc b) := fun c b => W10 m ρ c b

def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V8 m ρ) c
  | ⟨2, _⟩ => fun c => dat2 (V10 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (W : Dev nD → Valuation τ sig (Elt F))
    (hfresh : ops.Forall (fun op => op.fresh = ∅) := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

set_option backward.isDefEq.respectTransparency.types false in
/-- Region `p` as a segment between the contents `Wi` and `Wo`: it changes only its own arrays, to their final contents. -/
def regOf (p : Fin 3) (launch : Pipeline.LaunchFacts (nD := nD) (τ := τ) cfgs p) (Wi Wo : Dev nD → Valuation τ sig (Elt F))
    (hbody : ∀ c, BodyObligation (pdats m ρ p c) (defs₀ (F := F)) 𝒱₀ () Set.univ)
    (hq : ∀ c w, (pdats m ρ p c).q w = fullShare) (howed : ∀ c t, (pdats m ρ p c).owed t = 0)
    (hrec : ∀ c t, (pdats m ρ p c).recorded t = Set.univ)
    (hΦ : ∀ c t, (pdats m ρ p c).Φ t = Pipeline.ΦA (cfgs p).spec c)
    (hA : ∀ c w, (pdats m ρ p c).A w = Wi c (Proc.devRef .tc (Pipeline.arrRef (cfgs p).spec w)))
    (hF : ∀ c w, Wo c (Proc.devRef .tc (Pipeline.arrRef (cfgs p).spec w)) = (pdats m ρ p c).arrAt w (cfgs p).N)
    (hne : ∀ c (b : Ref sig .tc), (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m ρ) launch.win launch.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => Wi c b) (fun b => Wo c b) ((pdats m ρ p c).arrAt · (cfgs p).N) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

set_option backward.isDefEq.respectTransparency.types false in
def reg0 := regOf m ρ 0 launch0 (W5 m ρ) (W6 m ρ) (body_obligation0 (V5 m ρ)) (fun _ _ => rfl) (fun _ _ => rfl) (fun _ _ => rfl)
  (fun _ _ => rfl) (fun _ _ => rfl) (W6_arr m ρ) (W6_of_ne m ρ)
set_option backward.isDefEq.respectTransparency.types false in
def reg1 := regOf m ρ 1 launch1 (W8 m ρ) (W9 m ρ) (body_obligation1 (V8 m ρ)) (fun _ _ => rfl) (fun _ _ => rfl) (fun _ _ => rfl)
  (fun _ _ => rfl) (fun _ _ => rfl) (W9_arr m ρ) (W9_of_ne m ρ)
set_option backward.isDefEq.respectTransparency.types false in
def reg2 := regOf m ρ 2 launch2 (W10 m ρ) (W11 m ρ) (body_obligation2 (V10 m ρ)) (fun _ _ => rfl) (fun _ _ => rfl) (fun _ _ => rfl)
  (fun _ _ => rfl) (fun _ _ => rfl) (W11_arr m ρ) (W11_of_ne m ρ)

abbrev segs : List (Pipeline.Seg (pcfgs (F := F)) adm (pdats m ρ) () defs₀ 𝒱₀ L lv) :=
  [ .host (hseg main_part0_ops0 main_part0_ops0_sub (W0 m ρ)),
    .host (hseg main_part0_ops1 main_part0_ops1_sub (W1 m ρ)),
    .host (hseg main_part0_ops2 main_part0_ops2_sub (W2 m ρ)),
    .host (hseg main_part1_ops0 main_part1_ops0_sub (W3 m ρ)),
    .host (hseg main_part2_ops0 main_part2_ops0_sub (W4 m ρ)),
    .region (reg0 m ρ),
    .host (hseg main_part2_ops1 main_part2_ops1_sub (W6 m ρ)),
    .host (hseg main_part3_ops0 main_part3_ops0_sub (W7 m ρ)),
    .region (reg1 m ρ),
    .host (hseg main_part3_ops1 main_part3_ops1_sub (W9 m ρ)),
    .region (reg2 m ρ) ]
theorem main_run (c : Dev nD) : main (F := F) c = Pipeline.Seg.run (segs m ρ) := (main_chain_windows c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.Kernel.Hand

end
-- ==== Proof.K.Frame.lean ====
import proofs.«138558_j25314537242668_1_alg».proof.Proof.K.Run
import proofs.«138558_j25314537242668_1_alg».proof.Defs
import proofs.«138558_j25314537242668_1_alg».proof.Proof.Gen.Kernel
import proofs.«138558_j25314537242668_1_alg».proof.Proof.Gen.Pre_finite_inputs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem single_sub {wr : List (Ref sig .tc)} {y : Ref sig .tc} (h : y ∈ wr) :
    ({Proc.devRef (τ := τ) .tc y} : Finset (DevRef τ sig)) ⊆ (wr.map (Proc.devRef (τ := τ) .tc)).toFinset :=
  Finset.singleton_subset_iff.mpr (List.mem_toFinset.mpr (List.mem_map.mpr ⟨y, h, rfl⟩))

/-- Operations that write, one each and in order, the listed references write within the list. -/
theorem sub_of_map_eq (ops : List (HloOp τ sig (Elt F))) (wr : List (Ref sig .tc))
    (h : ops.map (fun op => op.writes) = wr.map fun y => ({Proc.devRef (τ := τ) .tc y} : Finset (DevRef τ sig))) :
    ops.Forall fun op => op.writes ⊆ (wr.map (Proc.devRef (τ := τ) .tc)).toFinset := by
  rw [List.forall_iff_forall_mem]
  intro op hop
  have hm : op.writes ∈ ops.map (fun op => op.writes) := List.mem_map.mpr ⟨op, hop, rfl⟩
  rw [h] at hm
  obtain ⟨y, hy, e⟩ := List.mem_map.mp hm
  rw [← e]; exact single_sub hy

abbrev p0o0_W : List (Ref sig .tc) :=
  [main_v0, main_v1, main_v2, main_v3, main_c, main_v4, main_v5, main_c_0, main_v6, main_v7, main_v8, main_v9, main_v10,
   main_c_1, main_v11, main_v12, main_c_2, main_v13, main_v14, main_v15, main_v16, main_v17, main_v18]
theorem p0o0_writes : (main_part0_ops0 : List (HloOp τ sig (Elt F))).Forall fun op =>
    op.writes ⊆ (p0o0_W.map (Proc.devRef (τ := τ) .tc)).toFinset :=
  sub_of_map_eq _ _ rfl
abbrev p0o1_W : List (Ref sig .tc) :=
  [main_call0_v0, main_call0_cst, main_call0_v1, main_call0_v2, main_v19]
theorem p0o1_writes : (main_part0_ops1 : List (HloOp τ sig (Elt F))).Forall fun op =>
    op.writes ⊆ (p0o1_W.map (Proc.devRef (τ := τ) .tc)).toFinset :=
  sub_of_map_eq _ _ rfl
abbrev p0o2_W : List (Ref sig .tc) :=
  [main_cst, main_v20, main_v21, main_v22, main_v23, main_cst_3, main_v24, main_c_4, main_v25, main_v26, main_c_5, main_v27,
   main_v28, main_v29, main_v30, main_v31, main_v32, main_c_6, main_v33, main_v34, main_c_7, main_v35, main_v36, main_v37,
   main_v38, main_v39, main_v40, main_cst_8, main_v41, main_v42, main_c_9, main_v43, main_v44, main_c_10, main_v45, main_v46]
theorem p0o2_writes : (main_part0_ops2 : List (HloOp τ sig (Elt F))).Forall fun op =>
    op.writes ⊆ (p0o2_W.map (Proc.devRef (τ := τ) .tc)).toFinset :=
  sub_of_map_eq _ _ rfl
abbrev p1o0_W : List (Ref sig .tc) :=
  [main_v47, main_v48, main_v49, main_c_11, main_v50, main_v51, main_c_12, main_v52, main_v53, main_v54, main_v55, main_v56,
   main_v57, main_cst_13, main_v58, main_v59, main_v60, main_cst_14, main_v61, main_v62, main_v63, main_v64, main_v65,
   main_v66, main_v67, main_v68, main_v69, main_cst_15, main_v70, main_v71, main_v72, main_cst_16, main_v73, main_v74,
   main_cst_17, main_v75, main_v76, main_v77, main_cst_18, main_v78, main_v79, main_cst_19, main_v80, main_v81, main_v82,
   main_cst_20, main_v83, main_v84, main_v85, main_v86, main_c_21, main_v87, main_v88, main_c_22, main_v89, main_v90,
   main_v91, main_v92, main_v93, main_c_23]
theorem p1o0_writes : (main_part1_ops0 : List (HloOp τ sig (Elt F))).Forall fun op =>
    op.writes ⊆ (p1o0_W.map (Proc.devRef (τ := τ) .tc)).toFinset :=
  sub_of_map_eq _ _ rfl
abbrev p2o0_W : List (Ref sig .tc) :=
  [main_v94, main_v95, main_c_24, main_v96, main_v97, main_v98, main_v99, main_v100, main_v101, main_v102, main_v103,
   main_v104, main_v105, main_v106, main_c_25, main_v107, main_v108, main_c_26, main_v109, main_v110, main_v111, main_v112,
   main_v113, main_c_27, main_v114, main_v115, main_c_28, main_v116, main_v117, main_v118, main_v119, main_v120, main_c_29,
   main_v121, main_v122, main_c_30, main_v123, main_v124, main_v125, main_v126, main_v127, main_v128, main_v129, main_v130,
   main_v131, main_v132, main_v133, main_v134, main_v135, main_v136]
theorem p2o0_writes : (main_part2_ops0 : List (HloOp τ sig (Elt F))).Forall fun op =>
    op.writes ⊆ (p2o0_W.map (Proc.devRef (τ := τ) .tc)).toFinset :=
  sub_of_map_eq _ _ rfl
abbrev p2o1_W : List (Ref sig .tc) :=
  [main_cst_31, main_v138, main_v139, main_v140, main_cst_32, main_v141, main_v142, main_v143, main_cst_33]
theorem p2o1_writes : (main_part2_ops1 : List (HloOp τ sig (Elt F))).Forall fun op =>
    op.writes ⊆ (p2o1_W.map (Proc.devRef (τ := τ) .tc)).toFinset :=
  sub_of_map_eq _ _ rfl
abbrev p3o0_W : List (Ref sig .tc) :=
  [main_v144, main_v145, main_v146, main_v147, main_v148, main_v149, main_v150, main_v151, main_v152, main_v153]
theorem p3o0_writes : (main_part3_ops0 : List (HloOp τ sig (Elt F))).Forall fun op =>
    op.writes ⊆ (p3o0_W.map (Proc.devRef (τ := τ) .tc)).toFinset :=
  sub_of_map_eq _ _ rfl
abbrev p3o1_W : List (Ref sig .tc) := [main_v155, main_v156]
theorem p3o1_writes : (main_part3_ops1 : List (HloOp τ sig (Elt F))).Forall fun op =>
    op.writes ⊆ (p3o1_W.map (Proc.devRef (τ := τ) .tc)).toFinset :=
  sub_of_map_eq _ _ rfl

variable (m : (ℓ : Loc nD τ sig) → Buf (Elt F) ℓ) (ρ : Dev nD → PrngReg)

theorem in_R0 : ∀ w : Fin 19, Pipeline.arrRef spec0 w ≠ main_v137_0 → Pipeline.arrRef spec0 w ≠ main_v137_1 →
    Pipeline.arrRef spec0 w ≠ main_v137_2 → (cfg0.win w).isOut = false := by decide
theorem in_R1 : ∀ w : Fin 8, Pipeline.arrRef spec1 w ≠ main_v154_0 → Pipeline.arrRef spec1 w ≠ main_v154_1 →
    (cfg1.win w).isOut = false := by decide
theorem in_R2 : ∀ w : Fin 8, Pipeline.arrRef spec2 w ≠ main_v157_0 → Pipeline.arrRef spec2 w ≠ main_v157_1 →
    (cfg2.win w).isOut = false := by decide

theorem keep_R0 (c : Dev nD) (b : Ref sig .tc) (h0 : b ≠ main_v137_0) (h1 : b ≠ main_v137_1) (h2 : b ≠ main_v137_2) :
    W6 m ρ c (Proc.devRef .tc b) = W5 m ρ c (Proc.devRef .tc b) := by
  by_cases h : ∃ w, Pipeline.arrRef spec0 w = b
  · obtain ⟨w, rfl⟩ := h
    exact (W6_arr m ρ c w).trans (((dat0 (V5 m ρ) c).arrAt_in w (in_R0 w h0 h1 h2) _).trans (A_eq0 (V5 m ρ) c w))
  · exact W6_of_ne m ρ c b fun w e => h ⟨w, e⟩

theorem keep_R1 (c : Dev nD) (b : Ref sig .tc) (h0 : b ≠ main_v154_0) (h1 : b ≠ main_v154_1) :
    W9 m ρ c (Proc.devRef .tc b) = W8 m ρ c (Proc.devRef .tc b) := by
  by_cases h : ∃ w, Pipeline.arrRef spec1 w = b
  · obtain ⟨w, rfl⟩ := h
    exact (W9_arr m ρ c w).trans (((dat1 (V8 m ρ) c).arrAt_in w (in_R1 w h0 h1) _).trans (A_eq1 (V8 m ρ) c w))
  · exact W9_of_ne m ρ c b fun w e => h ⟨w, e⟩

theorem keep_R2 (c : Dev nD) (b : Ref sig .tc) (h0 : b ≠ main_v157_0) (h1 : b ≠ main_v157_1) :
    W11 m ρ c (Proc.devRef .tc b) = W10 m ρ c (Proc.devRef .tc b) := by
  by_cases h : ∃ w, Pipeline.arrRef spec2 w = b
  · obtain ⟨w, rfl⟩ := h
    exact (W11_arr m ρ c w).trans (((dat2 (V10 m ρ) c).arrAt_in w (in_R2 w h0 h1) _).trans (A_eq2 (V10 m ρ) c w))
  · exact W11_of_ne m ρ c b fun w e => h ⟨w, e⟩

/-- A reference outside every stretch's results and no region's output. -/
abbrev Unwritten (b : Ref sig .tc) : Prop :=
  b ∉ p0o0_W ∧ b ∉ p0o1_W ∧ b ∉ p0o2_W ∧ b ∉ p1o0_W ∧ b ∉ p2o0_W ∧ b ∉ p2o1_W ∧ b ∉ p3o0_W ∧ b ∉ p3o1_W
    ∧ b ≠ main_v137_0 ∧ b ≠ main_v137_1 ∧ b ≠ main_v137_2 ∧ b ≠ main_v154_0 ∧ b ≠ main_v154_1 ∧ b ≠ main_v157_0 ∧ b ≠ main_v157_1

/-- Such a reference holds at the end what it held at launch: each of the eleven segments passes it on unchanged. -/
theorem W11_of_unwritten (c : Dev nD) (b : Ref sig .tc) (h : Unwritten b) :
    W11 m ρ c (Proc.devRef .tc b) = m ((c : Thread nD τ).loc b) := by
  obtain ⟨a0, a1, a2, a3, a4, a5, a6, a7, r00, r01, r02, r10, r11, r20, r21⟩ := h
  exact (keep_R2 m ρ c b r20 r21).trans <| (StableHlo.after_of_writes_sub _ _ p3o1_writes a7).trans <|
    (keep_R1 m ρ c b r10 r11).trans <| (StableHlo.after_of_writes_sub _ _ p3o0_writes a6).trans <|
    (StableHlo.after_of_writes_sub _ _ p2o1_writes a5).trans <| (keep_R0 m ρ c b r00 r01 r02).trans <|
    (StableHlo.after_of_writes_sub _ _ p2o0_writes a4).trans <| (StableHlo.after_of_writes_sub _ _ p1o0_writes a3).trans <|
    (StableHlo.after_of_writes_sub _ _ p0o2_writes a2).trans <| (StableHlo.after_of_writes_sub _ _ p0o1_writes a1).trans <|
    StableHlo.after_of_writes_sub _ _ p0o0_writes a0

/-- A final memory that agrees with the last boundary's contents holds such a reference as launched. -/
theorem arg_kept {mem : (ℓ : Loc nD τ sig) → Buf (Elt F) ℓ} {c : Dev nD}
    (h : ∀ b ∈ Pipeline.ucRefs τ sig, mem (((c : Thread nD τ)).1, b) = W11 m ρ c b)
    (b : Ref sig .tc) (hs : ¬ (Proc.devRef .tc b : DevRef τ sig).isScoped) (hu : Unwritten b) :
    mem ((c : Thread nD τ).loc b) = m ((c : Thread nD τ).loc b) :=
  (h _ (mem_uc b hs)).trans (W11_of_unwritten m ρ c b hu)

/-- Every weakly fair execution ends, nothing faulting, with the eighteen arguments as launched. -/
theorem frame_run : Cert.frame_Kernel := fun m ρ _ =>
  (θ_run defs _ _).mono (fun r h c =>
    ⟨arg_kept m ρ (h c) main_arg0 (by decide) (by decide), arg_kept m ρ (h c) main_arg1 (by decide) (by decide),
      arg_kept m ρ (h c) main_arg2 (by decide) (by decide), arg_kept m ρ (h c) main_arg3 (by decide) (by decide),
      arg_kept m ρ (h c) main_arg4 (by decide) (by decide), arg_kept m ρ (h c) main_arg5 (by decide) (by decide),
      arg_kept m ρ (h c) main_arg6 (by decide) (by decide), arg_kept m ρ (h c) main_arg7 (by decide) (by decide),
      arg_kept m ρ (h c) main_arg8 (by decide) (by decide), arg_kept m ρ (h c) main_arg9 (by decide) (by decide),
      arg_kept m ρ (h c) main_arg10 (by decide) (by decide), arg_kept m ρ (h c) main_arg11 (by decide) (by decide),
      arg_kept m ρ (h c) main_arg12 (by decide) (by decide), arg_kept m ρ (h c) main_arg13 (by decide) (by decide),
      arg_kept m ρ (h c) main_arg14 (by decide) (by decide), arg_kept m ρ (h c) main_arg15 (by decide) (by decide),
      arg_kept m ρ (h c) main_arg16 (by decide) (by decide), arg_kept m ρ (h c) main_arg17 (by decide) (by decide)⟩) (run_all m ρ)

end Cert.Kernel.Hand

end
-- ==== Proof.KI.R0.lean ====
import proofs.«138558_j25314537242668_1_alg».proof.Proof.Gen.KernelIdeal.Launch
import proofs.«138558_j25314537242668_1_alg».proof.Proof.Gen.KernelIdeal.Skeleton
import proofs.«138558_j25314537242668_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An f32 memref of shape `sh`, and core `c` owning it whole with contents `X`. -/
private abbrev Stg (sh : Shape) := Memref sig .tc .vmem sh .f32
private abbrev own (c : Dev nD) {sh : Shape} (a : Stg sh) (X : Vec F sh .f32) : sProp 𝕄 := owns (c : Thread nD τ) a fullShare X

/-- Window `w`'s block at grid point `t`, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S2000x128 := Rect.unit (s := S2000x128) ![0, 0] S2000x128.size inb_S2000x128_S2000x128_0_0
abbrev r0_b : Rect S2000x50 := Rect.unit (s := S2000x50) ![0, 0] S2000x50.size inb_S2000x50_S2000x50_0_0
abbrev r0_c : Rect S2000x1 := Rect.unit (s := S2000x1) ![0, 0] S2000x1.size inb_S2000x1_S2000x1_0_0
abbrev r0_d : Rect S128x128 := Rect.unit (s := S128x128) ![0, 0] S128x128.size inb_S128x128_S128x128_0_0
abbrev r0_e : Rect S50x128 := Rect.unit (s := S50x128) ![0, 0] S50x128.size inb_S50x128_S50x128_0_0
abbrev r0_f : Rect S1x128 := Rect.unit (s := S1x128) ![0, 0] S1x128.size inb_S1x128_S1x128_0_0
abbrev r0_g : Rect S128x256 := Rect.unit (s := S128x256) ![0, 0] S128x256.size inb_S128x256_S128x256_0_0
abbrev r0_h : Rect S1x256 := Rect.unit (s := S1x256) ![0, 0] S1x256.size inb_S1x256_S1x256_0_0

/-- Each message block: one whole-block store of the body's arithmetic on the twelve input blocks it reads. -/
def out0_16 (x0 x1 : Vec F S2000x128 .f32) (x2 : Vec F S2000x50 .f32) (x3 : Vec F S2000x1 .f32) (x6 : Vec F S2000x128 .f32) (x9 : Vec F S2000x1 .f32)
    (x10 x11 : Vec F S128x128 .f32) (x12 : Vec F S50x128 .f32) (x13 : Vec F S1x128 .f32) (x14 : Vec F S128x256 .f32) (x15 : Vec F S1x256 .f32) : Vec F S2000x128 .f32 :=
  View.canon [⟨r0_a, k0_pay2 (k0_pay6 (View.ld x0 r0_a) (View.ld x1 r0_a) (View.ld x2 r0_b) (View.ld x10 r0_d) (View.ld x11 r0_d) (View.ld x12 r0_e) (View.ld x13 r0_f) (View.ld x14 r0_g) (View.ld x15 r0_h)) (k0_pay7 (View.ld x0 r0_a) (View.ld x1 r0_a) (View.ld x2 r0_b) (View.ld x10 r0_d) (View.ld x11 r0_d) (View.ld x12 r0_e) (View.ld x13 r0_f) (View.ld x14 r0_g) (View.ld x15 r0_h))
    (View.ld x9 r0_c) (View.ld x3 r0_c) (View.ld x6 r0_a)⟩]

def out0_17 (x0 x1 : Vec F S2000x128 .f32) (x2 : Vec F S2000x50 .f32) (x4 : Vec F S2000x1 .f32) (x7 : Vec F S2000x128 .f32) (x9 : Vec F S2000x1 .f32)
    (x10 x11 : Vec F S128x128 .f32) (x12 : Vec F S50x128 .f32) (x13 : Vec F S1x128 .f32) (x14 : Vec F S128x256 .f32) (x15 : Vec F S1x256 .f32) : Vec F S2000x128 .f32 :=
  View.canon [⟨r0_a, k0_pay3 (k0_pay6 (View.ld x0 r0_a) (View.ld x1 r0_a) (View.ld x2 r0_b) (View.ld x10 r0_d) (View.ld x11 r0_d) (View.ld x12 r0_e) (View.ld x13 r0_f) (View.ld x14 r0_g) (View.ld x15 r0_h)) (k0_pay7 (View.ld x0 r0_a) (View.ld x1 r0_a) (View.ld x2 r0_b) (View.ld x10 r0_d) (View.ld x11 r0_d) (View.ld x12 r0_e) (View.ld x13 r0_f) (View.ld x14 r0_g) (View.ld x15 r0_h))
    (View.ld x9 r0_c) (View.ld x4 r0_c) (View.ld x7 r0_a)⟩]

def out0_18 (x0 x1 : Vec F S2000x128 .f32) (x2 : Vec F S2000x50 .f32) (x5 : Vec F S2000x1 .f32) (x8 : Vec F S2000x128 .f32) (x9 : Vec F S2000x1 .f32)
    (x10 x11 : Vec F S128x128 .f32) (x12 : Vec F S50x128 .f32) (x13 : Vec F S1x128 .f32) (x14 : Vec F S128x256 .f32) (x15 : Vec F S1x256 .f32) : Vec F S2000x128 .f32 :=
  View.canon [⟨r0_a, k0_pay4 (k0_pay6 (View.ld x0 r0_a) (View.ld x1 r0_a) (View.ld x2 r0_b) (View.ld x10 r0_d) (View.ld x11 r0_d) (View.ld x12 r0_e) (View.ld x13 r0_f) (View.ld x14 r0_g) (View.ld x15 r0_h)) (k0_pay7 (View.ld x0 r0_a) (View.ld x1 r0_a) (View.ld x2 r0_b) (View.ld x10 r0_d) (View.ld x11 r0_d) (View.ld x12 r0_e) (View.ld x13 r0_f) (View.ld x14 r0_g) (View.ld x15 r0_h))
    (View.ld x9 r0_c) (View.ld x5 r0_c) (View.ld x8 r0_a)⟩]

theorem cover0_a (p0 : Vec F S2000x128 .f32) (y : S2000x128.Idx) :
    ∃ pc ∈ ([⟨r0_a, p0⟩] : List (View.Piece (Elt F) S2000x128 .f32)), y ∈ pc.1.set :=
  View.cover_of_tiled [⟨r0_a, p0⟩] S2000x128.size (by rfl) y

set_option maxHeartbeats 4000000 in
/-- The body only loads its inputs and overwrites each output whole, so it returns the inputs as found and each output at its payload. -/
theorem sound_kernel0 (c : Dev nD) (E : Set ℕ) (i : grid0.Coords)
    (arg1 : Stg S2000x128) (harg1 : arg1.IsWhole) (arg2 : Stg S2000x128) (harg2 : arg2.IsWhole)
    (arg3 : Stg S2000x50) (harg3 : arg3.IsWhole) (arg4 : Stg S2000x1) (harg4 : arg4.IsWhole)
    (arg5 : Stg S2000x1) (harg5 : arg5.IsWhole) (arg6 : Stg S2000x1) (harg6 : arg6.IsWhole)
    (arg7 : Stg S2000x128) (harg7 : arg7.IsWhole) (arg8 : Stg S2000x128) (harg8 : arg8.IsWhole)
    (arg9 : Stg S2000x128) (harg9 : arg9.IsWhole) (arg10 : Stg S2000x1) (harg10 : arg10.IsWhole)
    (arg11 : Stg S128x128) (harg11 : arg11.IsWhole) (arg12 : Stg S128x128) (harg12 : arg12.IsWhole)
    (arg13 : Stg S50x128) (harg13 : arg13.IsWhole) (arg14 : Stg S1x128) (harg14 : arg14.IsWhole)
    (arg15 : Stg S128x256) (harg15 : arg15.IsWhole) (arg16 : Stg S1x256) (harg16 : arg16.IsWhole)
    (arg17 : Stg S2000x128) (harg17 : arg17.IsWhole) (arg18 : Stg S2000x128) (harg18 : arg18.IsWhole)
    (arg19 : Stg S2000x128) (harg19 : arg19.IsWhole)
    (x0 : Vec F S2000x128 .f32) (x1 : Vec F S2000x128 .f32) (x2 : Vec F S2000x50 .f32) (x3 : Vec F S2000x1 .f32)
    (x4 : Vec F S2000x1 .f32) (x5 : Vec F S2000x1 .f32) (x6 : Vec F S2000x128 .f32) (x7 : Vec F S2000x128 .f32)
    (x8 : Vec F S2000x128 .f32) (x9 : Vec F S2000x1 .f32) (x10 : Vec F S128x128 .f32) (x11 : Vec F S128x128 .f32)
    (x12 : Vec F S50x128 .f32) (x13 : Vec F S1x128 .f32) (x14 : Vec F S128x256 .f32) (x15 : Vec F S1x256 .f32) (K : PUnit → sProp 𝕄) :
    iprop(own c arg1 x0 ∗ own c arg2 x1 ∗ own c arg3 x2
        ∗ own c arg4 x3 ∗ own c arg5 x4 ∗ own c arg6 x5
        ∗ own c arg7 x6 ∗ own c arg8 x7 ∗ own c arg9 x8
        ∗ own c arg10 x9 ∗ own c arg11 x10 ∗ own c arg12 x11
        ∗ own c arg13 x12 ∗ own c arg14 x13 ∗ own c arg15 x14
        ∗ own c arg16 x15
        ∗ (∃ d, own c arg17 d) ∗ (∃ d, own c arg18 d) ∗ (∃ d, own c arg19 d)
        ∗ (iprop(own c arg1 x0 ∗ own c arg2 x1 ∗ own c arg3 x2
            ∗ own c arg4 x3 ∗ own c arg5 x4 ∗ own c arg6 x5
            ∗ own c arg7 x6 ∗ own c arg8 x7 ∗ own c arg9 x8
            ∗ own c arg10 x9 ∗ own c arg11 x10 ∗ own c arg12 x11
            ∗ own c arg13 x12 ∗ own c arg14 x13 ∗ own c arg15 x14
            ∗ own c arg16 x15
            ∗ own c arg17 (out0_16 x0 x1 x2 x3 x6 x9 x10 x11 x12 x13 x14 x15)
            ∗ own c arg18 (out0_17 x0 x1 x2 x4 x7 x9 x10 x11 x12 x13 x14 x15)
            ∗ own c arg19 (out0_18 x0 x1 x2 x5 x8 x9 x10 x11 x12 x13 x14 x15)) -∗ K ⟨⟩))
      ⊢ wp frame (wpE (defs₀ (F := F)) Variants.none c none) E (cc0__edge_msg_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__edge_msg_kernel_eq_skeleton]; unfold cc0__edge_msg_kernel_skel
  simp only [k0_part1_eq_skeleton]; unfold k0_part1_skel
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro; exact View.read_writes_eq_canon _ _ _ (cover0_a _)
  isplitl [H17]
  · iexists _; isplitr
    swap; · iexact H17
    ipureintro; exact View.read_writes_eq_canon _ _ _ (cover0_a _)
  iexists _; isplitr
  swap; · iexact H18
  ipureintro; exact View.read_writes_eq_canon _ _ _ (cover0_a _)

/-- Region 0's proof data: the arrays as entered; at each point an input window's value is its block, an output window's its payload of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => out0_16 (iblk0 V c 0 t) (iblk0 V c 1 t) (iblk0 V c 2 t) (iblk0 V c 3 t) (iblk0 V c 6 t) (iblk0 V c 9 t) (iblk0 V c 10 t) (iblk0 V c 11 t) (iblk0 V c 12 t) (iblk0 V c 13 t) (iblk0 V c 14 t) (iblk0 V c 15 t)
    | ⟨17, _⟩ => out0_17 (iblk0 V c 0 t) (iblk0 V c 1 t) (iblk0 V c 2 t) (iblk0 V c 4 t) (iblk0 V c 7 t) (iblk0 V c 9 t) (iblk0 V c 10 t) (iblk0 V c 11 t) (iblk0 V c 12 t) (iblk0 V c 13 t) (iblk0 V c 14 t) (iblk0 V c 15 t)
    | ⟨18, _⟩ => out0_18 (iblk0 V c 0 t) (iblk0 V c 1 t) (iblk0 V c 2 t) (iblk0 V c 5 t) (iblk0 V c 8 t) (iblk0 V c 9 t) (iblk0 V c 10 t) (iblk0 V c 11 t) (iblk0 V c 12 t) (iblk0 V c 13 t) (iblk0 V c 14 t) (iblk0 V c 15 t)
    | ⟨_ + 19, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_16 (c : Dev nD) (t : Fin cfg0.N) : (dat0 V c).after 16 t = out0_16 (iblk0 V c 0 t) (iblk0 V c 1 t) (iblk0 V c 2 t) (iblk0 V c 3 t) (iblk0 V c 6 t) (iblk0 V c 9 t) (iblk0 V c 10 t) (iblk0 V c 11 t) (iblk0 V c 12 t) (iblk0 V c 13 t) (iblk0 V c 14 t) (iblk0 V c 15 t) := by dsimp only [dat0]
theorem after0_17 (c : Dev nD) (t : Fin cfg0.N) : (dat0 V c).after 17 t = out0_17 (iblk0 V c 0 t) (iblk0 V c 1 t) (iblk0 V c 2 t) (iblk0 V c 4 t) (iblk0 V c 7 t) (iblk0 V c 9 t) (iblk0 V c 10 t) (iblk0 V c 11 t) (iblk0 V c 12 t) (iblk0 V c 13 t) (iblk0 V c 14 t) (iblk0 V c 15 t) := by dsimp only [dat0]
theorem after0_18 (c : Dev nD) (t : Fin cfg0.N) : (dat0 V c).after 18 t = out0_18 (iblk0 V c 0 t) (iblk0 V c 1 t) (iblk0 V c 2 t) (iblk0 V c 5 t) (iblk0 V c 8 t) (iblk0 V c 9 t) (iblk0 V c 10 t) (iblk0 V c 11 t) (iblk0 V c 12 t) (iblk0 V c 13 t) (iblk0 V c 14 t) (iblk0 V c 15 t) := by dsimp only [dat0]

/-- What the body meets in an input window at point `t` is that window's block of the entry array. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl
theorem before0_8 (c : Dev nD) (t : Fin cfg0.N) (d) : (dat0 V c).before 8 t d = iblk0 V c 8 t :=
  ((dat0 V c).before_in_eq_fetched 8 rfl (fun _ => rfl) (fun _ _ _ => rfl) (fun _ => rfl) t d).trans rfl
theorem before0_9 (c : Dev nD) (t : Fin cfg0.N) (d) : (dat0 V c).before 9 t d = iblk0 V c 9 t :=
  ((dat0 V c).before_in_eq_fetched 9 rfl (fun _ => rfl) (fun _ _ _ => rfl) (fun _ => rfl) t d).trans rfl
theorem before0_10 (c : Dev nD) (t : Fin cfg0.N) (d) : (dat0 V c).before 10 t d = iblk0 V c 10 t :=
  ((dat0 V c).before_in_eq_fetched 10 rfl (fun _ => rfl) (fun _ _ _ => rfl) (fun _ => rfl) t d).trans rfl
theorem before0_11 (c : Dev nD) (t : Fin cfg0.N) (d) : (dat0 V c).before 11 t d = iblk0 V c 11 t :=
  ((dat0 V c).before_in_eq_fetched 11 rfl (fun _ => rfl) (fun _ _ _ => rfl) (fun _ => rfl) t d).trans rfl
theorem before0_12 (c : Dev nD) (t : Fin cfg0.N) (d) : (dat0 V c).before 12 t d = iblk0 V c 12 t :=
  ((dat0 V c).before_in_eq_fetched 12 rfl (fun _ => rfl) (fun _ _ _ => rfl) (fun _ => rfl) t d).trans rfl
theorem before0_13 (c : Dev nD) (t : Fin cfg0.N) (d) : (dat0 V c).before 13 t d = iblk0 V c 13 t :=
  ((dat0 V c).before_in_eq_fetched 13 rfl (fun _ => rfl) (fun _ _ _ => rfl) (fun _ => rfl) t d).trans rfl
theorem before0_14 (c : Dev nD) (t : Fin cfg0.N) (d) : (dat0 V c).before 14 t d = iblk0 V c 14 t :=
  ((dat0 V c).before_in_eq_fetched 14 rfl (fun _ => rfl) (fun _ _ _ => rfl) (fun _ => rfl) t d).trans rfl
theorem before0_15 (c : Dev nD) (t : Fin cfg0.N) (d) : (dat0 V c).before 15 t d = iblk0 V c 15 t :=
  ((dat0 V c).before_in_eq_fetched 15 rfl (fun _ => rfl) (fun _ _ _ => rfl) (fun _ => rfl) t d).trans rfl

/-- The body's triple at each grid point, instantiated at the input windows' blocks. -/
theorem body_obligation0 (c : Dev nD) : BodyObligation (dat0 (F := F) V c) (defs₀ (F := F)) Variants.none () Set.univ := fun t => by
  rw [bigSep_W0, bigSep_W0]
  simp only [before0_0, before0_1, before0_2, before0_3, before0_4, before0_5, before0_6, before0_7, before0_8, before0_9, before0_10, before0_11, before0_12, before0_13, before0_14, before0_15]
  rw [show (dat0 V c).Φ t.succ = (dat0 V c).Φ t.castSucc from rfl,
    show (dat0 V c).owesAt () t.succ = (dat0 V c).owesAt () t.castSucc from rfl, after0_16, after0_17, after0_18]
  refine (?_ : (_ : sProp 𝕄) ⊢ wp frame (wpE (defs₀ (F := F)) Variants.none c none) Set.univ (bodyAt0 t) _)
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, H17, H18⟩
  iapply (sound_kernel0 c Set.univ (grid0.coords t) _ _ _ _ _ _ _ _ _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · icases H16 with ⟨%d16, H16⟩; iexists _; iexact H16
  isplitl [H17]; · icases H17 with ⟨%d17, H17⟩; iexists _; iexact H17
  isplitl [H18]; · icases H18 with ⟨%d18, H18⟩; iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.KernelIdeal.Hand

end
-- ==== Proof.KI.R1.lean ====
import proofs.«138558_j25314537242668_1_alg».proof.Proof.Gen.KernelIdeal.Launch
import proofs.«138558_j25314537242668_1_alg».proof.Proof.Gen.KernelIdeal.Skeleton
import proofs.«138558_j25314537242668_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An f32 memref of shape `sh`, and core `c` owning it whole with contents `X`. -/
private abbrev Stg (sh : Shape) := Memref sig .tc .vmem sh .f32
private abbrev own (c : Dev nD) {sh : Shape} (a : Stg sh) (X : Vec F sh .f32) : sProp 𝕄 := owns (c : Thread nD τ) a fullShare X

/-- Window `w`'s block at grid point `t`, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x128 := Rect.unit (s := S5000x128) ![0, 0] S5000x128.size inb_S5000x128_S5000x128_0_0
abbrev r1_b : Rect S5000x1 := Rect.unit (s := S5000x1) ![0, 0] S5000x1.size inb_S5000x1_S5000x1_0_0
abbrev r1_c : Rect S128x128 := Rect.unit (s := S128x128) ![0, 0] S128x128.size inb_S128x128_S128x128_0_0
abbrev r1_d : Rect S1x128 := Rect.unit (s := S1x128) ![0, 0] S1x128.size inb_S1x128_S1x128_0_0

/-- The updated features: one whole-block store of the body's arithmetic on the six input blocks. -/
def out1_6 (x0 : Vec F S5000x128 .f32) (x1 : Vec F S5000x1 .f32) (x2 : Vec F S128x128 .f32) (x3 : Vec F S1x128 .f32)
    (x4 : Vec F S128x128 .f32) (x5 : Vec F S1x128 .f32) : Vec F S5000x128 .f32 :=
  View.canon [⟨r1_a, k1_pay2 (View.ld x0 r1_a) (View.ld x1 r1_b) (View.ld x4 r1_c) (View.ld x5 r1_d) (View.ld x2 r1_c) (View.ld x3 r1_d)⟩]

/-- The column broadcast along the lanes: one whole-block store. -/
def out1_7 (x1 : Vec F S5000x1 .f32) : Vec F S5000x128 .f32 :=
  View.canon [⟨r1_a, k1_pay1 (View.ld x1 r1_b)⟩]

theorem cover1_a (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

set_option maxHeartbeats 1000000 in
/-- The body only loads its inputs and overwrites each output whole, so it returns the inputs as found and each output at its payload. -/
theorem sound_kernel1 (c : Dev nD) (E : Set ℕ) (i : grid1.Coords)
    (arg1 : Stg S5000x128) (harg1 : arg1.IsWhole) (arg2 : Stg S5000x1) (harg2 : arg2.IsWhole)
    (arg3 : Stg S128x128) (harg3 : arg3.IsWhole) (arg4 : Stg S1x128) (harg4 : arg4.IsWhole)
    (arg5 : Stg S128x128) (harg5 : arg5.IsWhole) (arg6 : Stg S1x128) (harg6 : arg6.IsWhole)
    (arg7 : Stg S5000x128) (harg7 : arg7.IsWhole) (arg8 : Stg S5000x128) (harg8 : arg8.IsWhole)
    (x0 : Vec F S5000x128 .f32) (x1 : Vec F S5000x1 .f32) (x2 : Vec F S128x128 .f32) (x3 : Vec F S1x128 .f32)
    (x4 : Vec F S128x128 .f32) (x5 : Vec F S1x128 .f32) (K : PUnit → sProp 𝕄) :
    iprop(own c arg1 x0 ∗ own c arg2 x1 ∗ own c arg3 x2
        ∗ own c arg4 x3 ∗ own c arg5 x4 ∗ own c arg6 x5
        ∗ (∃ d, own c arg7 d) ∗ (∃ d, own c arg8 d)
        ∗ (iprop(own c arg1 x0 ∗ own c arg2 x1 ∗ own c arg3 x2
            ∗ own c arg4 x3 ∗ own c arg5 x4 ∗ own c arg6 x5
            ∗ own c arg7 (out1_6 x0 x1 x2 x3 x4 x5) ∗ own c arg8 (out1_7 x1)) -∗ K ⟨⟩))
      ⊢ wp frame (wpE (defs₀ (F := F)) Variants.none c none) E (cc1__gated_update_kernel i arg1 harg1 arg2 harg2 arg3 harg3 arg4 harg4 arg5 harg5 arg6 harg6 arg7 harg7 arg8 harg8) K := by
  simp only [cc1__gated_update_kernel_eq_skeleton]; unfold cc1__gated_update_kernel_skel
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (cover1_a _)
  iexists _; isplitr
  swap; · iexact H7
  ipureintro; exact View.read_writes_eq_canon _ _ _ (cover1_a _)

/-- Region 1's proof data: the arrays as entered; at each point an input window's value is its block, an output window's its payload of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 1 t) := by dsimp only [dat1]

/-- What the body meets in an input window at point `t` is that window's block of the entry array. -/
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

/-- The body's triple at each grid point, instantiated at the input windows' blocks. -/
theorem body_obligation1 (c : Dev nD) : BodyObligation (dat1 (F := F) V c) (defs₀ (F := F)) Variants.none () Set.univ := fun t => by
  rw [bigSep_W1, bigSep_W1]
  simp only [before1_0, before1_1, before1_2, before1_3, before1_4, before1_5]
  rw [show (dat1 V c).Φ t.succ = (dat1 V c).Φ t.castSucc from rfl,
    show (dat1 V c).owesAt () t.succ = (dat1 V c).owesAt () t.castSucc from rfl, after1_6, after1_7]
  refine (?_ : (_ : sProp 𝕄) ⊢ wp frame (wpE (defs₀ (F := F)) Variants.none c none) Set.univ (bodyAt1 t) _)
  unfold bodyAt1
  iintro ⟨HΦ, Ho, ⟨%d0, H0⟩, ⟨%d1, H1⟩, ⟨%d2, H2⟩, ⟨%d3, H3⟩, ⟨%d4, H4⟩, ⟨%d5, H5⟩, H6, H7⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · icases H6 with ⟨%d6, H6⟩; iexists _; iexact H6
  isplitl [H7]; · icases H7 with ⟨%d7, H7⟩; iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Hand

end
-- ==== Proof.KI.R2.lean ====
import proofs.«138558_j25314537242668_1_alg».proof.Proof.Gen.KernelIdeal.Launch
import proofs.«138558_j25314537242668_1_alg».proof.Proof.Gen.KernelIdeal.Skeleton
import proofs.«138558_j25314537242668_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An f32 memref of shape `sh`, and core `c` owning it whole with contents `X`. -/
private abbrev Stg (sh : Shape) := Memref sig .tc .vmem sh .f32
private abbrev own (c : Dev nD) {sh : Shape} (a : Stg sh) (X : Vec F sh .f32) : sProp 𝕄 := owns (c : Thread nD τ) a fullShare X

/-- Window `w`'s block at grid point `t`, read off the array the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S4000x128 := Rect.unit (s := S4000x128) ![0, 0] S4000x128.size inb_S4000x128_S4000x128_0_0
abbrev r2_b : Rect S4000x1 := Rect.unit (s := S4000x1) ![0, 0] S4000x1.size inb_S4000x1_S4000x1_0_0
abbrev r2_c : Rect S128x128 := Rect.unit (s := S128x128) ![0, 0] S128x128.size inb_S128x128_S128x128_0_0
abbrev r2_d : Rect S1x128 := Rect.unit (s := S1x128) ![0, 0] S1x128.size inb_S1x128_S1x128_0_0

/-- The updated features: one whole-block store of the body's arithmetic on the six input blocks. -/
def out2_6 (x0 : Vec F S4000x128 .f32) (x1 : Vec F S4000x1 .f32) (x2 : Vec F S128x128 .f32) (x3 : Vec F S1x128 .f32)
    (x4 : Vec F S128x128 .f32) (x5 : Vec F S1x128 .f32) : Vec F S4000x128 .f32 :=
  View.canon [⟨r2_a, k2_pay2 (View.ld x0 r2_a) (View.ld x1 r2_b) (View.ld x4 r2_c) (View.ld x5 r2_d) (View.ld x2 r2_c) (View.ld x3 r2_d)⟩]

/-- The column broadcast along the lanes: one whole-block store. -/
def out2_7 (x1 : Vec F S4000x1 .f32) : Vec F S4000x128 .f32 :=
  View.canon [⟨r2_a, k2_pay1 (View.ld x1 r2_b)⟩]

theorem cover2_a (p0 : Vec F S4000x128 .f32) (y : S4000x128.Idx) :
    ∃ pc ∈ ([⟨r2_a, p0⟩] : List (View.Piece (Elt F) S4000x128 .f32)), y ∈ pc.1.set :=
  View.cover_of_tiled [⟨r2_a, p0⟩] S4000x128.size (by rfl) y

set_option maxHeartbeats 1000000 in
/-- The body only loads its inputs and overwrites each output whole, so it returns the inputs as found and each output at its payload. -/
theorem sound_kernel2 (c : Dev nD) (E : Set ℕ) (i : grid2.Coords)
    (arg1 : Stg S4000x128) (harg1 : arg1.IsWhole) (arg2 : Stg S4000x1) (harg2 : arg2.IsWhole)
    (arg3 : Stg S128x128) (harg3 : arg3.IsWhole) (arg4 : Stg S1x128) (harg4 : arg4.IsWhole)
    (arg5 : Stg S128x128) (harg5 : arg5.IsWhole) (arg6 : Stg S1x128) (harg6 : arg6.IsWhole)
    (arg7 : Stg S4000x128) (harg7 : arg7.IsWhole) (arg8 : Stg S4000x128) (harg8 : arg8.IsWhole)
    (x0 : Vec F S4000x128 .f32) (x1 : Vec F S4000x1 .f32) (x2 : Vec F S128x128 .f32) (x3 : Vec F S1x128 .f32)
    (x4 : Vec F S128x128 .f32) (x5 : Vec F S1x128 .f32) (K : PUnit → sProp 𝕄) :
    iprop(own c arg1 x0 ∗ own c arg2 x1 ∗ own c arg3 x2
        ∗ own c arg4 x3 ∗ own c arg5 x4 ∗ own c arg6 x5
        ∗ (∃ d, own c arg7 d) ∗ (∃ d, own c arg8 d)
        ∗ (iprop(own c arg1 x0 ∗ own c arg2 x1 ∗ own c arg3 x2
            ∗ own c arg4 x3 ∗ own c arg5 x4 ∗ own c arg6 x5
            ∗ own c arg7 (out2_6 x0 x1 x2 x3 x4 x5) ∗ own c arg8 (out2_7 x1)) -∗ K ⟨⟩))
      ⊢ wp frame (wpE (defs₀ (F := F)) Variants.none c none) E (cc2__gated_update_kernel i arg1 harg1 arg2 harg2 arg3 harg3 arg4 harg4 arg5 harg5 arg6 harg6 arg7 harg7 arg8 harg8) K := by
  simp only [cc2__gated_update_kernel_eq_skeleton]; unfold cc2__gated_update_kernel_skel
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (cover2_a _)
  iexists _; isplitr
  swap; · iexact H7
  ipureintro; exact View.read_writes_eq_canon _ _ _ (cover2_a _)

/-- Region 2's proof data: the arrays as entered; at each point an input window's value is its block, an output window's its payload of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 1 t) := by dsimp only [dat2]

/-- What the body meets in an input window at point `t` is that window's block of the entry array. -/
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

/-- The body's triple at each grid point, instantiated at the input windows' blocks. -/
theorem body_obligation2 (c : Dev nD) : BodyObligation (dat2 (F := F) V c) (defs₀ (F := F)) Variants.none () Set.univ := fun t => by
  rw [bigSep_W2, bigSep_W2]
  simp only [before2_0, before2_1, before2_2, before2_3, before2_4, before2_5]
  rw [show (dat2 V c).Φ t.succ = (dat2 V c).Φ t.castSucc from rfl,
    show (dat2 V c).owesAt () t.succ = (dat2 V c).owesAt () t.castSucc from rfl, after2_6, after2_7]
  refine (?_ : (_ : sProp 𝕄) ⊢ wp frame (wpE (defs₀ (F := F)) Variants.none c none) Set.univ (bodyAt2 t) _)
  unfold bodyAt2
  iintro ⟨HΦ, Ho, ⟨%d0, H0⟩, ⟨%d1, H1⟩, ⟨%d2, H2⟩, ⟨%d3, H3⟩, ⟨%d4, H4⟩, ⟨%d5, H5⟩, H6, H7⟩
  iapply (sound_kernel2 c Set.univ (grid2.coords t) _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · icases H6 with ⟨%d6, H6⟩; iexists _; iexact H6
  isplitl [H7]; · icases H7 with ⟨%d7, H7⟩; iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Hand

end
-- ==== Proof.KI.Run.lean ====
import proofs.«138558_j25314537242668_1_alg».proof.Proof.KI.R0
import proofs.«138558_j25314537242668_1_alg».proof.Proof.KI.R1
import proofs.«138558_j25314537242668_1_alg».proof.Proof.KI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents at each segment boundary, folded from the launch memory: a host stretch applies its operations,
    a region replaces its arrays by what its points leave. -/
abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part0_ops1 (W1 m ρ c)
abbrev W3 : Dev nD → Valuation τ sig (Elt F) := fun c => StableHlo.after main_part0_ops2 (W2 m ρ c)
abbrev W4 : Dev nD → Valuation τ sig (Elt F) := fun c => StableHlo.after main_part1_ops0 (W3 m ρ c)
abbrev W5 : Dev nD → Valuation τ sig (Elt F) := fun c => StableHlo.after main_part2_ops0 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb

abbrev W7 : Dev nD → Valuation τ sig (Elt F) := fun c => StableHlo.after main_part2_ops1 (W6 m ρ c)
abbrev W8 : Dev nD → Valuation τ sig (Elt F) := fun c => StableHlo.after main_part3_ops0 (W7 m ρ c)
abbrev V8 : (c : Dev nD) → (b : Ref sig .tc) → Buf (Elt F) ((c : Thread nD τ).loc b) := fun c b => W8 m ρ c b

def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb

abbrev W10 : Dev nD → Valuation τ sig (Elt F) := fun c => StableHlo.after main_part3_ops1 (W9 m ρ c)
abbrev V10 : (c : Dev nD) → (b : Ref sig .tc) → Buf (Elt F) ((c : Thread nD τ).loc b) := fun c b => W10 m ρ c b

def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V8 m ρ) c
  | ⟨2, _⟩ => fun c => dat2 (V10 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (W : Dev nD → Valuation τ sig (Elt F))
    (hfresh : ops.Forall (fun op => op.fresh = ∅) := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

set_option backward.isDefEq.respectTransparency.types false in
/-- Region `p` as a segment between the contents `Wi` and `Wo`: it changes only its own arrays, to their final contents. -/
def regOf (p : Fin 3) (launch : Pipeline.LaunchFacts (nD := nD) (τ := τ) cfgs p) (Wi Wo : Dev nD → Valuation τ sig (Elt F))
    (hbody : ∀ c, BodyObligation (pdats m ρ p c) (defs₀ (F := F)) 𝒱₀ () Set.univ)
    (hq : ∀ c w, (pdats m ρ p c).q w = fullShare) (howed : ∀ c t, (pdats m ρ p c).owed t = 0)
    (hrec : ∀ c t, (pdats m ρ p c).recorded t = Set.univ)
    (hΦ : ∀ c t, (pdats m ρ p c).Φ t = Pipeline.ΦA (cfgs p).spec c)
    (hA : ∀ c w, (pdats m ρ p c).A w = Wi c (Proc.devRef .tc (Pipeline.arrRef (cfgs p).spec w)))
    (hF : ∀ c w, Wo c (Proc.devRef .tc (Pipeline.arrRef (cfgs p).spec w)) = (pdats m ρ p c).arrAt w (cfgs p).N)
    (hne : ∀ c (b : Ref sig .tc), (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m ρ) launch.win launch.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => Wi c b) (fun b => Wo c b) ((pdats m ρ p c).arrAt · (cfgs p).N) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

set_option backward.isDefEq.respectTransparency.types false in
def reg0 := regOf m ρ 0 launch0 (W5 m ρ) (W6 m ρ) (body_obligation0 (V5 m ρ)) (fun _ _ => rfl) (fun _ _ => rfl) (fun _ _ => rfl)
  (fun _ _ => rfl) (fun _ _ => rfl) (W6_arr m ρ) (W6_of_ne m ρ)
set_option backward.isDefEq.respectTransparency.types false in
def reg1 := regOf m ρ 1 launch1 (W8 m ρ) (W9 m ρ) (body_obligation1 (V8 m ρ)) (fun _ _ => rfl) (fun _ _ => rfl) (fun _ _ => rfl)
  (fun _ _ => rfl) (fun _ _ => rfl) (W9_arr m ρ) (W9_of_ne m ρ)
set_option backward.isDefEq.respectTransparency.types false in
def reg2 := regOf m ρ 2 launch2 (W10 m ρ) (W11 m ρ) (body_obligation2 (V10 m ρ)) (fun _ _ => rfl) (fun _ _ => rfl) (fun _ _ => rfl)
  (fun _ _ => rfl) (fun _ _ => rfl) (W11_arr m ρ) (W11_of_ne m ρ)

abbrev segs : List (Pipeline.Seg (pcfgs (F := F)) adm (pdats m ρ) () defs₀ 𝒱₀ L lv) :=
  [ .host (hseg main_part0_ops0 main_part0_ops0_sub (W0 m ρ)),
    .host (hseg main_part0_ops1 main_part0_ops1_sub (W1 m ρ)),
    .host (hseg main_part0_ops2 main_part0_ops2_sub (W2 m ρ)),
    .host (hseg main_part1_ops0 main_part1_ops0_sub (W3 m ρ)),
    .host (hseg main_part2_ops0 main_part2_ops0_sub (W4 m ρ)),
    .region (reg0 m ρ),
    .host (hseg main_part2_ops1 main_part2_ops1_sub (W6 m ρ)),
    .host (hseg main_part3_ops0 main_part3_ops0_sub (W7 m ρ)),
    .region (reg1 m ρ),
    .host (hseg main_part3_ops1 main_part3_ops1_sub (W9 m ρ)),
    .region (reg2 m ρ) ]
theorem main_run (c : Dev nD) : main (F := F) c = Pipeline.Seg.run (segs m ρ) := (main_chain_windows c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Hand

end
-- ==== Proof.KI.Frame.lean ====
import proofs.«138558_j25314537242668_1_alg».proof.Proof.KI.Run
import proofs.«138558_j25314537242668_1_alg».proof.Defs
import proofs.«138558_j25314537242668_1_alg».proof.Proof.Gen.KernelIdeal
import proofs.«138558_j25314537242668_1_alg».proof.Proof.Gen.Pre_finite_inputs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem single_sub {wr : List (Ref sig .tc)} {y : Ref sig .tc} (h : y ∈ wr) :
    ({Proc.devRef (τ := τ) .tc y} : Finset (DevRef τ sig)) ⊆ (wr.map (Proc.devRef (τ := τ) .tc)).toFinset :=
  Finset.singleton_subset_iff.mpr (List.mem_toFinset.mpr (List.mem_map.mpr ⟨y, h, rfl⟩))

/-- Operations that write, one each and in order, the listed references write within the list. -/
theorem sub_of_map_eq (ops : List (HloOp τ sig (Elt F))) (wr : List (Ref sig .tc))
    (h : ops.map (fun op => op.writes) = wr.map fun y => ({Proc.devRef (τ := τ) .tc y} : Finset (DevRef τ sig))) :
    ops.Forall fun op => op.writes ⊆ (wr.map (Proc.devRef (τ := τ) .tc)).toFinset := by
  rw [List.forall_iff_forall_mem]
  intro op hop
  have hm : op.writes ∈ ops.map (fun op => op.writes) := List.mem_map.mpr ⟨op, hop, rfl⟩
  rw [h] at hm
  obtain ⟨y, hy, e⟩ := List.mem_map.mp hm
  rw [← e]; exact single_sub hy

abbrev p0o0_W : List (Ref sig .tc) :=
  [main_v0, main_v1, main_v2, main_v3, main_c, main_v4, main_v5, main_c_0, main_v6, main_v7, main_v8, main_v9, main_v10,
   main_c_1, main_v11, main_v12, main_c_2, main_v13, main_v14, main_v15, main_v16, main_v17, main_v18]
theorem p0o0_writes : (main_part0_ops0 : List (HloOp τ sig (Elt F))).Forall fun op =>
    op.writes ⊆ (p0o0_W.map (Proc.devRef (τ := τ) .tc)).toFinset :=
  sub_of_map_eq _ _ rfl
abbrev p0o1_W : List (Ref sig .tc) :=
  [main_call0_v0, main_call0_cst, main_call0_v1, main_call0_v2, main_v19]
theorem p0o1_writes : (main_part0_ops1 : List (HloOp τ sig (Elt F))).Forall fun op =>
    op.writes ⊆ (p0o1_W.map (Proc.devRef (τ := τ) .tc)).toFinset :=
  sub_of_map_eq _ _ rfl
abbrev p0o2_W : List (Ref sig .tc) :=
  [main_cst, main_v20, main_v21, main_v22, main_v23, main_cst_3, main_v24, main_c_4, main_v25, main_v26, main_c_5, main_v27,
   main_v28, main_v29, main_v30, main_v31, main_v32, main_c_6, main_v33, main_v34, main_c_7, main_v35, main_v36, main_v37,
   main_v38, main_v39, main_v40, main_cst_8, main_v41, main_v42, main_c_9, main_v43, main_v44, main_c_10, main_v45, main_v46]
theorem p0o2_writes : (main_part0_ops2 : List (HloOp τ sig (Elt F))).Forall fun op =>
    op.writes ⊆ (p0o2_W.map (Proc.devRef (τ := τ) .tc)).toFinset :=
  sub_of_map_eq _ _ rfl
abbrev p1o0_W : List (Ref sig .tc) :=
  [main_v47, main_v48, main_v49, main_c_11, main_v50, main_v51, main_c_12, main_v52, main_v53, main_v54, main_v55, main_v56,
   main_v57, main_cst_13, main_v58, main_v59, main_v60, main_cst_14, main_v61, main_v62, main_v63, main_v64, main_v65,
   main_v66, main_v67, main_v68, main_v69, main_cst_15, main_v70, main_v71, main_v72, main_cst_16, main_v73, main_v74,
   main_cst_17, main_v75, main_v76, main_v77, main_cst_18, main_v78, main_v79, main_cst_19, main_v80, main_v81, main_v82,
   main_cst_20, main_v83, main_v84, main_v85, main_v86, main_c_21, main_v87, main_v88, main_c_22, main_v89, main_v90,
   main_v91, main_v92, main_v93, main_c_23]
theorem p1o0_writes : (main_part1_ops0 : List (HloOp τ sig (Elt F))).Forall fun op =>
    op.writes ⊆ (p1o0_W.map (Proc.devRef (τ := τ) .tc)).toFinset :=
  sub_of_map_eq _ _ rfl
abbrev p2o0_W : List (Ref sig .tc) :=
  [main_v94, main_v95, main_c_24, main_v96, main_v97, main_v98, main_v99, main_v100, main_v101, main_v102, main_v103,
   main_v104, main_v105, main_v106, main_c_25, main_v107, main_v108, main_c_26, main_v109, main_v110, main_v111, main_v112,
   main_v113, main_c_27, main_v114, main_v115, main_c_28, main_v116, main_v117, main_v118, main_v119, main_v120, main_c_29,
   main_v121, main_v122, main_c_30, main_v123, main_v124, main_v125, main_v126, main_v127, main_v128, main_v129, main_v130,
   main_v131, main_v132, main_v133, main_v134, main_v135, main_v136]
theorem p2o0_writes : (main_part2_ops0 : List (HloOp τ sig (Elt F))).Forall fun op =>
    op.writes ⊆ (p2o0_W.map (Proc.devRef (τ := τ) .tc)).toFinset :=
  sub_of_map_eq _ _ rfl
abbrev p2o1_W : List (Ref sig .tc) :=
  [main_cst_31, main_v138, main_v139, main_v140, main_cst_32, main_v141, main_v142, main_v143, main_cst_33]
theorem p2o1_writes : (main_part2_ops1 : List (HloOp τ sig (Elt F))).Forall fun op =>
    op.writes ⊆ (p2o1_W.map (Proc.devRef (τ := τ) .tc)).toFinset :=
  sub_of_map_eq _ _ rfl
abbrev p3o0_W : List (Ref sig .tc) :=
  [main_v144, main_v145, main_v146, main_v147, main_v148, main_v149, main_v150, main_v151, main_v152, main_v153]
theorem p3o0_writes : (main_part3_ops0 : List (HloOp τ sig (Elt F))).Forall fun op =>
    op.writes ⊆ (p3o0_W.map (Proc.devRef (τ := τ) .tc)).toFinset :=
  sub_of_map_eq _ _ rfl
abbrev p3o1_W : List (Ref sig .tc) := [main_v155, main_v156]
theorem p3o1_writes : (main_part3_ops1 : List (HloOp τ sig (Elt F))).Forall fun op =>
    op.writes ⊆ (p3o1_W.map (Proc.devRef (τ := τ) .tc)).toFinset :=
  sub_of_map_eq _ _ rfl

variable (m : (ℓ : Loc nD τ sig) → Buf (Elt F) ℓ) (ρ : Dev nD → PrngReg)

theorem in_R0 : ∀ w : Fin 19, Pipeline.arrRef spec0 w ≠ main_v137_0 → Pipeline.arrRef spec0 w ≠ main_v137_1 →
    Pipeline.arrRef spec0 w ≠ main_v137_2 → (cfg0.win w).isOut = false := by decide
theorem in_R1 : ∀ w : Fin 8, Pipeline.arrRef spec1 w ≠ main_v154_0 → Pipeline.arrRef spec1 w ≠ main_v154_1 →
    (cfg1.win w).isOut = false := by decide
theorem in_R2 : ∀ w : Fin 8, Pipeline.arrRef spec2 w ≠ main_v157_0 → Pipeline.arrRef spec2 w ≠ main_v157_1 →
    (cfg2.win w).isOut = false := by decide

theorem keep_R0 (c : Dev nD) (b : Ref sig .tc) (h0 : b ≠ main_v137_0) (h1 : b ≠ main_v137_1) (h2 : b ≠ main_v137_2) :
    W6 m ρ c (Proc.devRef .tc b) = W5 m ρ c (Proc.devRef .tc b) := by
  by_cases h : ∃ w, Pipeline.arrRef spec0 w = b
  · obtain ⟨w, rfl⟩ := h
    exact (W6_arr m ρ c w).trans (((dat0 (V5 m ρ) c).arrAt_in w (in_R0 w h0 h1 h2) _).trans (A_eq0 (V5 m ρ) c w))
  · exact W6_of_ne m ρ c b fun w e => h ⟨w, e⟩

theorem keep_R1 (c : Dev nD) (b : Ref sig .tc) (h0 : b ≠ main_v154_0) (h1 : b ≠ main_v154_1) :
    W9 m ρ c (Proc.devRef .tc b) = W8 m ρ c (Proc.devRef .tc b) := by
  by_cases h : ∃ w, Pipeline.arrRef spec1 w = b
  · obtain ⟨w, rfl⟩ := h
    exact (W9_arr m ρ c w).trans (((dat1 (V8 m ρ) c).arrAt_in w (in_R1 w h0 h1) _).trans (A_eq1 (V8 m ρ) c w))
  · exact W9_of_ne m ρ c b fun w e => h ⟨w, e⟩

theorem keep_R2 (c : Dev nD) (b : Ref sig .tc) (h0 : b ≠ main_v157_0) (h1 : b ≠ main_v157_1) :
    W11 m ρ c (Proc.devRef .tc b) = W10 m ρ c (Proc.devRef .tc b) := by
  by_cases h : ∃ w, Pipeline.arrRef spec2 w = b
  · obtain ⟨w, rfl⟩ := h
    exact (W11_arr m ρ c w).trans (((dat2 (V10 m ρ) c).arrAt_in w (in_R2 w h0 h1) _).trans (A_eq2 (V10 m ρ) c w))
  · exact W11_of_ne m ρ c b fun w e => h ⟨w, e⟩

/-- A reference outside every stretch's results and no region's output. -/
abbrev Unwritten (b : Ref sig .tc) : Prop :=
  b ∉ p0o0_W ∧ b ∉ p0o1_W ∧ b ∉ p0o2_W ∧ b ∉ p1o0_W ∧ b ∉ p2o0_W ∧ b ∉ p2o1_W ∧ b ∉ p3o0_W ∧ b ∉ p3o1_W
    ∧ b ≠ main_v137_0 ∧ b ≠ main_v137_1 ∧ b ≠ main_v137_2 ∧ b ≠ main_v154_0 ∧ b ≠ main_v154_1 ∧ b ≠ main_v157_0 ∧ b ≠ main_v157_1

/-- Such a reference holds at the end what it held at launch: each of the eleven segments passes it on unchanged. -/
theorem W11_of_unwritten (c : Dev nD) (b : Ref sig .tc) (h : Unwritten b) :
    W11 m ρ c (Proc.devRef .tc b) = m ((c : Thread nD τ).loc b) := by
  obtain ⟨a0, a1, a2, a3, a4, a5, a6, a7, r00, r01, r02, r10, r11, r20, r21⟩ := h
  exact (keep_R2 m ρ c b r20 r21).trans <| (StableHlo.after_of_writes_sub _ _ p3o1_writes a7).trans <|
    (keep_R1 m ρ c b r10 r11).trans <| (StableHlo.after_of_writes_sub _ _ p3o0_writes a6).trans <|
    (StableHlo.after_of_writes_sub _ _ p2o1_writes a5).trans <| (keep_R0 m ρ c b r00 r01 r02).trans <|
    (StableHlo.after_of_writes_sub _ _ p2o0_writes a4).trans <| (StableHlo.after_of_writes_sub _ _ p1o0_writes a3).trans <|
    (StableHlo.after_of_writes_sub _ _ p0o2_writes a2).trans <| (StableHlo.after_of_writes_sub _ _ p0o1_writes a1).trans <|
    StableHlo.after_of_writes_sub _ _ p0o0_writes a0

/-- A final memory that agrees with the last boundary's contents holds such a reference as launched. -/
theorem arg_kept {mem : (ℓ : Loc nD τ sig) → Buf (Elt F) ℓ} {c : Dev nD}
    (h : ∀ b ∈ Pipeline.ucRefs τ sig, mem (((c : Thread nD τ)).1, b) = W11 m ρ c b)
    (b : Ref sig .tc) (hs : ¬ (Proc.devRef .tc b : DevRef τ sig).isScoped) (hu : Unwritten b) :
    mem ((c : Thread nD τ).loc b) = m ((c : Thread nD τ).loc b) :=
  (h _ (mem_uc b hs)).trans (W11_of_unwritten m ρ c b hu)

/-- Every weakly fair execution ends, nothing faulting, with the eighteen arguments as launched. -/
theorem frame_run : Cert.frame_KernelIdeal := fun m ρ _ =>
  (θ_run defs _ _).mono (fun r h c =>
    ⟨arg_kept m ρ (h c) main_arg0 (by decide) (by decide), arg_kept m ρ (h c) main_arg1 (by decide) (by decide),
      arg_kept m ρ (h c) main_arg2 (by decide) (by decide), arg_kept m ρ (h c) main_arg3 (by decide) (by decide),
      arg_kept m ρ (h c) main_arg4 (by decide) (by decide), arg_kept m ρ (h c) main_arg5 (by decide) (by decide),
      arg_kept m ρ (h c) main_arg6 (by decide) (by decide), arg_kept m ρ (h c) main_arg7 (by decide) (by decide),
      arg_kept m ρ (h c) main_arg8 (by decide) (by decide), arg_kept m ρ (h c) main_arg9 (by decide) (by decide),
      arg_kept m ρ (h c) main_arg10 (by decide) (by decide), arg_kept m ρ (h c) main_arg11 (by decide) (by decide),
      arg_kept m ρ (h c) main_arg12 (by decide) (by decide), arg_kept m ρ (h c) main_arg13 (by decide) (by decide),
      arg_kept m ρ (h c) main_arg14 (by decide) (by decide), arg_kept m ρ (h c) main_arg15 (by decide) (by decide),
      arg_kept m ρ (h c) main_arg16 (by decide) (by decide), arg_kept m ρ (h c) main_arg17 (by decide) (by decide)⟩) (run_all m ρ)

end Cert.KernelIdeal.Hand

end
-- ==== Proof.KI.ThreadOut.lean ====
import proofs.«138558_j25314537242668_1_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

macro "not_written " l:ident : tactic => `(tactic| (
  refine StableHlo.after_of_forall_not_mem _ _ (List.forall_iff_forall_mem.mp ?_)
  simp only [$l:ident, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

theorem out_h (c : Dev nD) : W11 m ρ c (Proc.devRef .tc main_v154_0) = (dat1 (V8 m ρ) c).arrAt 6 cfg1.N :=
  calc W11 m ρ c (Proc.devRef .tc main_v154_0)
    _ = W10 m ρ c (Proc.devRef .tc main_v154_0) := W11_of_ne m ρ c main_v154_0 (by decide)
    _ = W9 m ρ c (Proc.devRef .tc main_v154_0) := by not_written main_part3_ops1
    _ = (dat1 (V8 m ρ) c).arrAt 6 cfg1.N := W9_arr m ρ c 6

theorem out_ang (c : Dev nD) : W11 m ρ c (Proc.devRef .tc main_v154_1) = (dat1 (V8 m ρ) c).arrAt 7 cfg1.N :=
  calc W11 m ρ c (Proc.devRef .tc main_v154_1)
    _ = W10 m ρ c (Proc.devRef .tc main_v154_1) := W11_of_ne m ρ c main_v154_1 (by decide)
    _ = W9 m ρ c (Proc.devRef .tc main_v154_1) := by not_written main_part3_ops1
    _ = (dat1 (V8 m ρ) c).arrAt 7 cfg1.N := W9_arr m ρ c 7

theorem out_f (c : Dev nD) : W11 m ρ c (Proc.devRef .tc main_v157_0) = (dat2 (V10 m ρ) c).arrAt 6 cfg2.N :=
  W11_arr m ρ c 6

theorem out_dih (c : Dev nD) : W11 m ρ c (Proc.devRef .tc main_v157_1) = (dat2 (V10 m ρ) c).arrAt 7 cfg2.N :=
  W11_arr m ρ c 7

theorem out_dir (c : Dev nD) : W11 m ρ c (Proc.devRef .tc main_v39) = W3 m ρ c (Proc.devRef .tc main_v39) :=
  calc W11 m ρ c (Proc.devRef .tc main_v39)
    _ = W10 m ρ c (Proc.devRef .tc main_v39) := W11_of_ne m ρ c main_v39 (by decide)
    _ = W9 m ρ c (Proc.devRef .tc main_v39) := by not_written main_part3_ops1
    _ = W8 m ρ c (Proc.devRef .tc main_v39) := W9_of_ne m ρ c main_v39 (by decide)
    _ = W7 m ρ c (Proc.devRef .tc main_v39) := by not_written main_part3_ops0
    _ = W6 m ρ c (Proc.devRef .tc main_v39) := by not_written main_part2_ops1
    _ = W5 m ρ c (Proc.devRef .tc main_v39) := W6_of_ne m ρ c main_v39 (by decide)
    _ = W4 m ρ c (Proc.devRef .tc main_v39) := by not_written main_part2_ops0
    _ = W3 m ρ c (Proc.devRef .tc main_v39) := by not_written main_part1_ops0

theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

theorem nary3_result' {x a b y : Ref sig .tc}
    (f : ((k : Fin 3) → ((![x, a, b] : Fin 3 → Ref sig .tc) k).ty.Contents (Elt F)) → y.ty.Contents (Elt F)) (hxs hy)
    (G : Valuation τ sig (Elt F)) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

macro "after_results3" : tactic =>
  `(tactic| (simp (disch := decide) only [StableHlo.after_cons, StableHlo.after_nil,
      StableHlo.nullary_result', StableHlo.unary_result', StableHlo.binary_result', StableHlo.ternary_result',
      StableHlo.reshape_result', nary3_result',
      StableHlo.nullary_result_ne', StableHlo.unary_result_ne', StableHlo.binary_result_ne', StableHlo.ternary_result_ne',
      StableHlo.reshape_result_ne', StableHlo.nary_result_ne']))

theorem arg1_W7 (c : Dev nD) : W7 m ρ c (Proc.devRef .tc main_arg1) = m ((c : Thread nD τ).loc main_arg1) :=
  calc W7 m ρ c (Proc.devRef .tc main_arg1)
    _ = W6 m ρ c (Proc.devRef .tc main_arg1) := by not_written main_part2_ops1
    _ = W5 m ρ c (Proc.devRef .tc main_arg1) := W6_of_ne m ρ c main_arg1 (by decide)
    _ = W4 m ρ c (Proc.devRef .tc main_arg1) := by not_written main_part2_ops0
    _ = W3 m ρ c (Proc.devRef .tc main_arg1) := by not_written main_part1_ops0
    _ = W2 m ρ c (Proc.devRef .tc main_arg1) := by not_written main_part0_ops2
    _ = W1 m ρ c (Proc.devRef .tc main_arg1) := by not_written main_part0_ops1
    _ = W0 m ρ c (Proc.devRef .tc main_arg1) := by not_written main_part0_ops0
    _ = m ((c : Thread nD τ).loc main_arg1) := rfl

theorem v3_W6 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by not_written main_part2_ops0
    _ = W3 m ρ c (Proc.devRef .tc main_v3) := by not_written main_part1_ops0
    _ = W2 m ρ c (Proc.devRef .tc main_v3) := by not_written main_part0_ops2
    _ = W1 m ρ c (Proc.devRef .tc main_v3) := by not_written main_part0_ops1

theorem v140_W7 (c : Dev nD) : W7 m ρ c (Proc.devRef .tc main_v140)
    = Host.scatterAdd scatter_S25000x128_S400000x1_S400000x128_1_0_0_1 (broadcastInDim S25000x128 ![] bcast_S_S25000x128 (constant S_ .f32 0x00000000#32)) (broadcastInDim S400000x1 ![0] bcast_S400000_S400000x1_0 (W6 m ρ c (Proc.devRef .tc main_v3))) (W6 m ρ c (Proc.devRef .tc main_v137_0)) := by
  dsimp only [W7, main_part2_ops1]; after_results <;> rfl
theorem v143_W7 (c : Dev nD) : W7 m ρ c (Proc.devRef .tc main_v143)
    = Host.scatterAdd scatter_S25000x128_S400000x1_S400000x128_1_0_0_1 (broadcastInDim S25000x128 ![] bcast_S_S25000x128 (constant S_ .f32 0x00000000#32)) (broadcastInDim S400000x1 ![0] bcast_S400000_S400000x1_0 (W6 m ρ c (Proc.devRef .tc main_v3))) (W6 m ρ c (Proc.devRef .tc main_v137_1)) := by
  dsimp only [W7, main_part2_ops1]; after_results <;> rfl

theorem cst33_W7 (c : Dev nD) : W7 m ρ c (Proc.devRef .tc main_cst_33) = constant S_ .f32 0x00000000#32 := by
  dsimp only [W7, main_part2_ops1]; after_results <;> rfl
theorem v3_W7 (c : Dev nD) : W7 m ρ c (Proc.devRef .tc main_v3) = W6 m ρ c (Proc.devRef .tc main_v3) := by
  not_written main_part2_ops1
theorem v137_2_W7 (c : Dev nD) : W7 m ρ c (Proc.devRef .tc main_v137_2) = W6 m ρ c (Proc.devRef .tc main_v137_2) := by
  not_written main_part2_ops1

theorem v151_W8 (c : Dev nD) : W8 m ρ c (Proc.devRef .tc main_v151)
    = addf (W7 m ρ c (Proc.devRef .tc main_arg1)) (concatenate S25000x3x128 1 [⟨S25000x1x128, broadcastInDim S25000x1x128 ![0, 2] bcast_S25000x128_S25000x1x128_0_2 (W7 m ρ c (Proc.devRef .tc main_v140))⟩,
        ⟨S25000x1x128, broadcastInDim S25000x1x128 ![0, 2] bcast_S25000x128_S25000x1x128_0_2 (W7 m ρ c (Proc.devRef .tc main_v143))⟩,
        ⟨S25000x1x128, broadcastInDim S25000x1x128 ![0, 2] bcast_S25000x128_S25000x1x128_0_2 (Host.scatterAdd scatter_S25000x128_S400000x1_S400000x128_1_0_0_1 (broadcastInDim S25000x128 ![] bcast_S_S25000x128 (W7 m ρ c (Proc.devRef .tc main_cst_33))) (broadcastInDim S400000x1 ![0] bcast_S400000_S400000x1_0 (W7 m ρ c (Proc.devRef .tc main_v3))) (W7 m ρ c (Proc.devRef .tc main_v137_2)))⟩] concatenates_S25000x1x128_S25000x1x128_S25000x1x128_S25000x3x128_d1) := by
  dsimp only [W8, main_part3_ops0]; after_results3 <;> rfl

theorem out_v (c : Dev nD) : W11 m ρ c (Proc.devRef .tc main_v151)
    = addf (m ((c : Thread nD τ).loc main_arg1)) (concatenate S25000x3x128 1 [⟨S25000x1x128, broadcastInDim S25000x1x128 ![0, 2] bcast_S25000x128_S25000x1x128_0_2 (Host.scatterAdd scatter_S25000x128_S400000x1_S400000x128_1_0_0_1 (broadcastInDim S25000x128 ![] bcast_S_S25000x128 (constant S_ .f32 0x00000000#32)) (broadcastInDim S400000x1 ![0] bcast_S400000_S400000x1_0 (W1 m ρ c (Proc.devRef .tc main_v3))) ((dat0 (V5 m ρ) c).arrAt 16 cfg0.N))⟩,
        ⟨S25000x1x128, broadcastInDim S25000x1x128 ![0, 2] bcast_S25000x128_S25000x1x128_0_2 (Host.scatterAdd scatter_S25000x128_S400000x1_S400000x128_1_0_0_1 (broadcastInDim S25000x128 ![] bcast_S_S25000x128 (constant S_ .f32 0x00000000#32)) (broadcastInDim S400000x1 ![0] bcast_S400000_S400000x1_0 (W1 m ρ c (Proc.devRef .tc main_v3))) ((dat0 (V5 m ρ) c).arrAt 17 cfg0.N))⟩,
        ⟨S25000x1x128, broadcastInDim S25000x1x128 ![0, 2] bcast_S25000x128_S25000x1x128_0_2 (Host.scatterAdd scatter_S25000x128_S400000x1_S400000x128_1_0_0_1 (broadcastInDim S25000x128 ![] bcast_S_S25000x128 (constant S_ .f32 0x00000000#32)) (broadcastInDim S400000x1 ![0] bcast_S400000_S400000x1_0 (W1 m ρ c (Proc.devRef .tc main_v3))) ((dat0 (V5 m ρ) c).arrAt 18 cfg0.N))⟩] concatenates_S25000x1x128_S25000x1x128_S25000x1x128_S25000x3x128_d1) := by
  have h11 : W11 m ρ c (Proc.devRef .tc main_v151) = W8 m ρ c (Proc.devRef .tc main_v151) :=
    calc W11 m ρ c (Proc.devRef .tc main_v151)
      _ = W10 m ρ c (Proc.devRef .tc main_v151) := W11_of_ne m ρ c main_v151 (by decide)
      _ = W9 m ρ c (Proc.devRef .tc main_v151) := by not_written main_part3_ops1
      _ = W8 m ρ c (Proc.devRef .tc main_v151) := W9_of_ne m ρ c main_v151 (by decide)
  rw [h11, v151_W8, arg1_W7, v140_W7, v143_W7, cst33_W7, v3_W7, v137_2_W7, v3_W6]
  rw [show W6 m ρ c (Proc.devRef .tc main_v137_0) = (dat0 (V5 m ρ) c).arrAt 16 cfg0.N from W6_arr m ρ c 16,
    show W6 m ρ c (Proc.devRef .tc main_v137_1) = (dat0 (V5 m ρ) c).arrAt 17 cfg0.N from W6_arr m ρ c 17,
    show W6 m ρ c (Proc.devRef .tc main_v137_2) = (dat0 (V5 m ρ) c).arrAt 18 cfg0.N from W6_arr m ρ c 18]

end Cert.KernelIdeal.Hand

end
-- ==== Proof.KI.Keep.lean ====
import proofs.«138558_j25314537242668_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ) (ρ : Dev nD → PrngReg)

/-- Running two lists of host operations one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem W0_eq (c : Dev nD) (b : Ref sig .tc) : W0 m ρ c (Proc.devRef .tc b) = m ((c : Thread nD τ).loc b) := rfl

/-- A reference a stretch does not write holds after the stretch what it held before it. -/
theorem W1_of (c : Dev nD) (r : Ref sig .tc) (h : r ∉ p0o0_W) : W1 m ρ c (Proc.devRef .tc r) = W0 m ρ c (Proc.devRef .tc r) :=
  StableHlo.after_of_writes_sub _ _ p0o0_writes h
theorem W2_of (c : Dev nD) (r : Ref sig .tc) (h : r ∉ p0o1_W) : W2 m ρ c (Proc.devRef .tc r) = W1 m ρ c (Proc.devRef .tc r) :=
  StableHlo.after_of_writes_sub _ _ p0o1_writes h
theorem W3_of (c : Dev nD) (r : Ref sig .tc) (h : r ∉ p0o2_W) : W3 m ρ c (Proc.devRef .tc r) = W2 m ρ c (Proc.devRef .tc r) :=
  StableHlo.after_of_writes_sub _ _ p0o2_writes h
theorem W4_of (c : Dev nD) (r : Ref sig .tc) (h : r ∉ p1o0_W) : W4 m ρ c (Proc.devRef .tc r) = W3 m ρ c (Proc.devRef .tc r) :=
  StableHlo.after_of_writes_sub _ _ p1o0_writes h
theorem W5_of (c : Dev nD) (r : Ref sig .tc) (h : r ∉ p2o0_W) : W5 m ρ c (Proc.devRef .tc r) = W4 m ρ c (Proc.devRef .tc r) :=
  StableHlo.after_of_writes_sub _ _ p2o0_writes h
theorem W7_of (c : Dev nD) (r : Ref sig .tc) (h : r ∉ p2o1_W) : W7 m ρ c (Proc.devRef .tc r) = W6 m ρ c (Proc.devRef .tc r) :=
  StableHlo.after_of_writes_sub _ _ p2o1_writes h
theorem W8_of (c : Dev nD) (r : Ref sig .tc) (h : r ∉ p3o0_W) : W8 m ρ c (Proc.devRef .tc r) = W7 m ρ c (Proc.devRef .tc r) :=
  StableHlo.after_of_writes_sub _ _ p3o0_writes h
theorem W10_of (c : Dev nD) (r : Ref sig .tc) (h : r ∉ p3o1_W) : W10 m ρ c (Proc.devRef .tc r) = W9 m ρ c (Proc.devRef .tc r) :=
  StableHlo.after_of_writes_sub _ _ p3o1_writes h

abbrev arrs0 : List (Ref sig .tc) := List.ofFn (Pipeline.arrRef spec0)
abbrev arrs1 : List (Ref sig .tc) := List.ofFn (Pipeline.arrRef spec1)
abbrev arrs2 : List (Ref sig .tc) := List.ofFn (Pipeline.arrRef spec2)

/-- A region rewrites only its own arrays. -/
theorem W6_of (c : Dev nD) (r : Ref sig .tc) (h : r ∉ arrs0) : W6 m ρ c (Proc.devRef .tc r) = W5 m ρ c (Proc.devRef .tc r) :=
  W6_of_ne m ρ c r fun w e => h (List.mem_ofFn.mpr ⟨w, e⟩)
theorem W9_of (c : Dev nD) (r : Ref sig .tc) (h : r ∉ arrs1) : W9 m ρ c (Proc.devRef .tc r) = W8 m ρ c (Proc.devRef .tc r) :=
  W9_of_ne m ρ c r fun w e => h (List.mem_ofFn.mpr ⟨w, e⟩)
end Cert.KernelIdeal.Hand

end
-- ==== Proof.KI.ThreadIn.lean ====
import proofs.«138558_j25314537242668_1_alg».proof.Proof.KI.Keep
import proofs.«138558_j25314537242668_1_alg».proof.Proof.Gen.ReferenceIdeal.Read
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem
open Cert.ReferenceIdeal.Read

variable (m : (ℓ : Loc nD τ sig) → Buf (Elt Ideal) ℓ) (ρ : Dev nD → PrngReg)

abbrev A0 (c : Dev nD) : (⟨S25000x128, .f32⟩ : BufTy).Contents (Elt Ideal) := m ((c : Thread nD τ).loc main_arg0)

abbrev A1 (c : Dev nD) : (⟨S25000x3x128, .f32⟩ : BufTy).Contents (Elt Ideal) := m ((c : Thread nD τ).loc main_arg1)

abbrev A3 (c : Dev nD) : (⟨S25000x3, .f32⟩ : BufTy).Contents (Elt Ideal) := m ((c : Thread nD τ).loc main_arg3)

abbrev A5 (c : Dev nD) : (⟨S2x400000, .i32⟩ : BufTy).Contents (Elt Ideal) := m ((c : Thread nD τ).loc main_arg5)

theorem after_keep_sub {ops sub : List (HloOp τ sig (Elt Ideal))} {W : List (Ref sig .tc)}
    (hW : ops.Forall fun op => op.writes ⊆ (W.map (Proc.devRef (τ := τ) .tc)).toFinset)
    (hsub : ∀ op ∈ sub, op ∈ ops) (V : Valuation τ sig (Elt Ideal)) {r : Ref sig .tc} (hr : r ∉ W) :
    StableHlo.after sub V (Proc.devRef .tc r) = V (Proc.devRef .tc r) :=
  StableHlo.after_of_forall_not_mem sub V fun op hop hb => by
    obtain ⟨y, hy, he⟩ := List.mem_map.mp (List.mem_toFinset.mp ((List.forall_iff_forall_mem.mp hW) op (hsub op hop) hb))
    exact hr (Proc.devRef_injective _ he ▸ hy)

theorem w1_v1 (c : Dev nD) : W1 m ρ c (Proc.devRef .tc main_v1) = val_main_v1 (F := Ideal) (A5 m c) := by
  dsimp only [W1, main_part0_ops0]
  after_results_simp
  unfold val_main_v1 val_main_v0
  rfl

theorem w1_v3 (c : Dev nD) : W1 m ρ c (Proc.devRef .tc main_v3) = val_main_v3 (F := Ideal) (A5 m c) := by
  dsimp only [W1, main_part0_ops0]
  after_results_simp
  unfold val_main_v3 val_main_v2
  rfl

theorem w1_v18 (c : Dev nD) : W1 m ρ c (Proc.devRef .tc main_v18) = val_main_v18 (F := Ideal) (A3 m c) (A5 m c) := by
  dsimp only [W1, main_part0_ops0]
  after_results_simp
  unfold val_main_v18 val_main_v17 val_main_v16 val_main_v15 val_main_v14 val_main_v13 val_main_c_2 val_main_v12 val_main_v11
    val_main_c_1 val_main_v10 val_main_v9 val_main_v8 val_main_v7 val_main_v6 val_main_c_0 val_main_v5 val_main_v4 val_main_c
    val_main_v3 val_main_v2 val_main_v1 val_main_v0
  rfl

theorem tref_ofBuf_toBuf {T : BufTy} (x : StableHlo.TRef sig T) (v : T.Contents (Elt Ideal)) : x.ofBuf (x.toBuf v) = v := by
  obtain ⟨r, h, _, _⟩ := x
  subst h
  rfl

theorem tref_ofBuf_cast {T : BufTy} (x : StableHlo.TRef sig T) (v : x.ref.ty.Contents (Elt Ideal)) (w : T.Contents (Elt Ideal))
    (hvw : HEq v w) : x.ofBuf v = w := by
  obtain ⟨r, h, _, _⟩ := x
  subst h
  exact eq_of_heq hvw

theorem tref_toBuf_cast {T : BufTy} (x : StableHlo.TRef sig T) (v : T.Contents (Elt Ideal)) (w : x.ref.ty.Contents (Elt Ideal))
    (hvw : HEq v w) : x.toBuf v = w := by
  obtain ⟨r, h, _, _⟩ := x
  subst h
  exact eq_of_heq hvw

theorem w2_v1 (c : Dev nD) : W2 m ρ c (Proc.devRef .tc main_v1) = val_main_v1 (F := Ideal) (A5 m c) :=
  (W2_of m ρ c main_v1 (by decide)).trans (w1_v1 m ρ c)
theorem w2_v3 (c : Dev nD) : W2 m ρ c (Proc.devRef .tc main_v3) = val_main_v3 (F := Ideal) (A5 m c) :=
  (W2_of m ρ c main_v3 (by decide)).trans (w1_v3 m ρ c)
theorem w2_v18 (c : Dev nD) : W2 m ρ c (Proc.devRef .tc main_v18) = val_main_v18 (F := Ideal) (A3 m c) (A5 m c) :=
  (W2_of m ρ c main_v18 (by decide)).trans (w1_v18 m ρ c)

theorem w2_v19 (c : Dev nD) : W2 m ρ c (Proc.devRef .tc main_v19) = val_main_v19 (F := Ideal) (A3 m c) (A5 m c) := by
  have h18 := w1_v18 m ρ c
  dsimp only [W2, main_part0_ops1]
  generalize W1 m ρ c = V at h18 ⊢
  after_results_simp
  simp only [tref_ofBuf_toBuf]
  rw [tref_ofBuf_cast _ _ _ (heq_of_eq h18)]
  refine tref_toBuf_cast _ _ _ (heq_of_eq ?_)
  unfold val_main_v19 val_main_call0_v2 val_main_call0_v1 val_main_call0_cst val_main_call0_v0
  rfl

abbrev p0o2_a : List (HloOp τ sig (Elt Ideal)) := main_part0_ops2.take 5
abbrev p0o2_b : List (HloOp τ sig (Elt Ideal)) := (main_part0_ops2.drop 5).take 21
abbrev p0o2_c : List (HloOp τ sig (Elt Ideal)) := (main_part0_ops2.drop 26).take 4
abbrev p0o2_d : List (HloOp τ sig (Elt Ideal)) := main_part0_ops2.drop 30
theorem p0o2_split : (main_part0_ops2 : List (HloOp τ sig (Elt Ideal))) = p0o2_a ++ (p0o2_b ++ (p0o2_c ++ p0o2_d)) := rfl
theorem p0o2_sub_a : ∀ op ∈ (p0o2_a : List (HloOp τ sig (Elt Ideal))), op ∈ main_part0_ops2 := fun _ h => List.mem_of_mem_take h
theorem p0o2_sub_b : ∀ op ∈ (p0o2_b : List (HloOp τ sig (Elt Ideal))), op ∈ main_part0_ops2 :=
  fun _ h => List.mem_of_mem_drop (List.mem_of_mem_take h)
theorem p0o2_sub_c : ∀ op ∈ (p0o2_c : List (HloOp τ sig (Elt Ideal))), op ∈ main_part0_ops2 :=
  fun _ h => List.mem_of_mem_drop (List.mem_of_mem_take h)
abbrev X3a : Dev nD → Valuation τ sig (Elt Ideal) := fun c => StableHlo.after p0o2_a (W2 m ρ c)
abbrev X3b : Dev nD → Valuation τ sig (Elt Ideal) := fun c => StableHlo.after p0o2_b (X3a m ρ c)
abbrev X3c : Dev nD → Valuation τ sig (Elt Ideal) := fun c => StableHlo.after p0o2_c (X3b m ρ c)
theorem W3_eq (c : Dev nD) : W3 m ρ c = StableHlo.after p0o2_d (X3c m ρ c) := by
  show StableHlo.after main_part0_ops2 _ = _
  rw [p0o2_split, after_append, after_append, after_append]

theorem x3a_v1 (c : Dev nD) : X3a m ρ c (Proc.devRef .tc main_v1) = val_main_v1 (F := Ideal) (A5 m c) :=
  (after_keep_sub p0o2_writes p0o2_sub_a _ (by decide)).trans (w2_v1 m ρ c)
theorem x3a_v3 (c : Dev nD) : X3a m ρ c (Proc.devRef .tc main_v3) = val_main_v3 (F := Ideal) (A5 m c) :=
  (after_keep_sub p0o2_writes p0o2_sub_a _ (by decide)).trans (w2_v3 m ρ c)

theorem x3a_v21 (c : Dev nD) : X3a m ρ c (Proc.devRef .tc main_v21) = val_main_v21 (F := Ideal) (A3 m c) (A5 m c) := by
  have h19 := w2_v19 m ρ c
  dsimp only [X3a, p0o2_a, main_part0_ops2, List.take, List.drop]
  generalize W2 m ρ c = V at h19 ⊢
  after_results_simp
  rw [h19]
  unfold val_main_v21 val_main_v20 val_main_cst
  rfl

theorem x3a_v23 (c : Dev nD) : X3a m ρ c (Proc.devRef .tc main_v23) = val_main_v23 (F := Ideal) (A3 m c) (A5 m c) := by
  have h18 := w2_v18 m ρ c
  have h19 := w2_v19 m ρ c
  dsimp only [X3a, p0o2_a, main_part0_ops2, List.take, List.drop]
  generalize W2 m ρ c = V at h18 h19 ⊢
  after_results_simp
  rw [h18, h19]
  unfold val_main_v23 val_main_v22 val_main_v21 val_main_v20 val_main_cst
  rfl

theorem x3b_v1 (c : Dev nD) : X3b m ρ c (Proc.devRef .tc main_v1) = val_main_v1 (F := Ideal) (A5 m c) :=
  (after_keep_sub p0o2_writes p0o2_sub_b _ (by decide)).trans (x3a_v1 m ρ c)
theorem x3b_v21 (c : Dev nD) : X3b m ρ c (Proc.devRef .tc main_v21) = val_main_v21 (F := Ideal) (A3 m c) (A5 m c) := by
  have h := x3a_v21 m ρ c
  dsimp only [X3b, p0o2_b, main_part0_ops2, List.take, List.drop]
  generalize X3a m ρ c = V at h ⊢
  after_results_simp
  exact h

theorem x3b_v23 (c : Dev nD) : X3b m ρ c (Proc.devRef .tc main_v23) = val_main_v23 (F := Ideal) (A3 m c) (A5 m c) := by
  have h := x3a_v23 m ρ c
  dsimp only [X3b, p0o2_b, main_part0_ops2, List.take, List.drop]
  generalize X3a m ρ c = V at h ⊢
  after_results_simp
  exact h

theorem x3b_v39 (c : Dev nD) : X3b m ρ c (Proc.devRef .tc main_v39) = val_main_v39 (F := Ideal) (A3 m c) (A5 m c) := by
  have h1 := x3a_v1 m ρ c
  have h3 := x3a_v3 m ρ c
  have h23 := x3a_v23 m ρ c
  dsimp only [X3b, p0o2_b, main_part0_ops2, List.take, List.drop]
  generalize X3a m ρ c = V at h1 h3 h23 ⊢
  after_results_simp
  rw [h1, h3, h23]
  unfold val_main_v39 val_main_v38 val_main_v37 val_main_v36 val_main_v35 val_main_c_7 val_main_v34 val_main_v33 val_main_c_6
    val_main_v32 val_main_v31 val_main_v30 val_main_v29 val_main_v28 val_main_v27 val_main_c_5 val_main_v26 val_main_v25
    val_main_c_4 val_main_v24 val_main_cst_3
  rfl

theorem x3c_v1 (c : Dev nD) : X3c m ρ c (Proc.devRef .tc main_v1) = val_main_v1 (F := Ideal) (A5 m c) :=
  (after_keep_sub p0o2_writes p0o2_sub_c _ (by decide)).trans (x3b_v1 m ρ c)

theorem x3c_v21 (c : Dev nD) : X3c m ρ c (Proc.devRef .tc main_v21) = val_main_v21 (F := Ideal) (A3 m c) (A5 m c) := by
  have h := x3b_v21 m ρ c
  dsimp only [X3c, p0o2_c, main_part0_ops2, List.take, List.drop]
  generalize X3b m ρ c = V at h ⊢
  after_results_simp
  exact h

theorem x3c_v23 (c : Dev nD) : X3c m ρ c (Proc.devRef .tc main_v23) = val_main_v23 (F := Ideal) (A3 m c) (A5 m c) := by
  have h := x3b_v23 m ρ c
  dsimp only [X3c, p0o2_c, main_part0_ops2, List.take, List.drop]
  generalize X3b m ρ c = V at h ⊢
  after_results_simp
  exact h

theorem x3c_v39 (c : Dev nD) : X3c m ρ c (Proc.devRef .tc main_v39) = val_main_v39 (F := Ideal) (A3 m c) (A5 m c) := by
  have h := x3b_v39 m ρ c
  dsimp only [X3c, p0o2_c, main_part0_ops2, List.take, List.drop]
  generalize X3b m ρ c = V at h ⊢
  after_results_simp
  exact h

theorem x3c_v42 (c : Dev nD) : X3c m ρ c (Proc.devRef .tc main_v42) = val_main_v42 (F := Ideal) (A3 m c) (A5 m c) := by
  have h39 := x3b_v39 m ρ c
  dsimp only [X3c, p0o2_c, main_part0_ops2, List.take, List.drop]
  generalize X3b m ρ c = V at h39 ⊢
  after_results_simp
  rw [h39]
  unfold val_main_v42 val_main_v41 val_main_cst_8 val_main_v40
  rfl

theorem w3_v1 (c : Dev nD) : W3 m ρ c (Proc.devRef .tc main_v1) = val_main_v1 (F := Ideal) (A5 m c) :=
  (W3_of m ρ c main_v1 (by decide)).trans (w2_v1 m ρ c)
theorem w3_v3 (c : Dev nD) : W3 m ρ c (Proc.devRef .tc main_v3) = val_main_v3 (F := Ideal) (A5 m c) :=
  (W3_of m ρ c main_v3 (by decide)).trans (w2_v3 m ρ c)

theorem w3_v21 (c : Dev nD) : W3 m ρ c (Proc.devRef .tc main_v21) = val_main_v21 (F := Ideal) (A3 m c) (A5 m c) := by
  have h := x3c_v21 m ρ c
  rw [W3_eq]
  dsimp only [p0o2_d, main_part0_ops2, List.take, List.drop]
  generalize X3c m ρ c = V at h ⊢
  after_results_simp
  exact h

theorem w3_v23 (c : Dev nD) : W3 m ρ c (Proc.devRef .tc main_v23) = val_main_v23 (F := Ideal) (A3 m c) (A5 m c) := by
  have h := x3c_v23 m ρ c
  rw [W3_eq]
  dsimp only [p0o2_d, main_part0_ops2, List.take, List.drop]
  generalize X3c m ρ c = V at h ⊢
  after_results_simp
  exact h

theorem dir3 (c : Dev nD) : W3 m ρ c (Proc.devRef .tc main_v39) = val_main_v39 (F := Ideal) (A3 m c) (A5 m c) := by
  have h := x3c_v39 m ρ c
  rw [W3_eq]
  dsimp only [p0o2_d, main_part0_ops2, List.take, List.drop]
  generalize X3c m ρ c = V at h ⊢
  after_results_simp
  exact h

theorem w3_v42 (c : Dev nD) : W3 m ρ c (Proc.devRef .tc main_v42) = val_main_v42 (F := Ideal) (A3 m c) (A5 m c) := by
  have h := x3c_v42 m ρ c
  rw [W3_eq]
  dsimp only [p0o2_d, main_part0_ops2, List.take, List.drop]
  generalize X3c m ρ c = V at h ⊢
  after_results_simp
  exact h

theorem w3_v44 (c : Dev nD) : W3 m ρ c (Proc.devRef .tc main_v44) = val_main_v45 (F := Ideal) (A5 m c) := by
  have h1 := x3c_v1 m ρ c
  rw [W3_eq]
  dsimp only [p0o2_d, main_part0_ops2, List.take, List.drop]
  generalize X3c m ρ c = V at h1 ⊢
  after_results_simp
  rw [h1]
  unfold val_main_v45 val_main_v44 val_main_c_9
  rfl

theorem w3_v46 (c : Dev nD) : W3 m ρ c (Proc.devRef .tc main_v46) = val_main_v47 (F := Ideal) (A5 m c) := by
  have h1 := x3c_v1 m ρ c
  rw [W3_eq]
  dsimp only [p0o2_d, main_part0_ops2, List.take, List.drop]
  generalize X3c m ρ c = V at h1 ⊢
  after_results_simp
  rw [h1]
  unfold val_main_v47 val_main_v46 val_main_c_10
  rfl

end Cert.KernelIdeal.Hand

end
-- ==== Proof.KI.ThreadIn4.lean ====
import proofs.«138558_j25314537242668_1_alg».proof.Proof.KI.ThreadIn

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem
open Cert.ReferenceIdeal.Read

variable (m : (ℓ : Loc nD τ sig) → Buf (Elt Ideal) ℓ) (ρ : Dev nD → PrngReg)

abbrev p1o0_a : List (HloOp τ sig (Elt Ideal)) := main_part1_ops0.take 12
abbrev p1o0_b : List (HloOp τ sig (Elt Ideal)) := (main_part1_ops0.drop 12).take 18
abbrev p1o0_c : List (HloOp τ sig (Elt Ideal)) := (main_part1_ops0.drop 30).take 20
abbrev p1o0_d : List (HloOp τ sig (Elt Ideal)) := main_part1_ops0.drop 50
theorem p1o0_split : (main_part1_ops0 : List (HloOp τ sig (Elt Ideal))) = p1o0_a ++ (p1o0_b ++ (p1o0_c ++ p1o0_d)) := rfl

abbrev X4a : Dev nD → Valuation τ sig (Elt Ideal) := fun c => StableHlo.after p1o0_a (W3 m ρ c)
abbrev X4b : Dev nD → Valuation τ sig (Elt Ideal) := fun c => StableHlo.after p1o0_b (X4a m ρ c)
abbrev X4c : Dev nD → Valuation τ sig (Elt Ideal) := fun c => StableHlo.after p1o0_c (X4b m ρ c)
theorem W4_eq (c : Dev nD) : W4 m ρ c = StableHlo.after p1o0_d (X4c m ρ c) := by
  show StableHlo.after main_part1_ops0 _ = _
  rw [p1o0_split, after_append, after_append, after_append]
theorem X4b_pre (c : Dev nD) : X4b m ρ c = StableHlo.after (main_part1_ops0.take 30) (W3 m ρ c) := by
  rw [show (main_part1_ops0.take 30 : List (HloOp τ sig (Elt Ideal))) = p1o0_a ++ p1o0_b from rfl, after_append]
theorem X4c_pre (c : Dev nD) : X4c m ρ c = StableHlo.after (main_part1_ops0.take 50) (W3 m ρ c) := by
  rw [show (main_part1_ops0.take 50 : List (HloOp τ sig (Elt Ideal))) = p1o0_a ++ (p1o0_b ++ p1o0_c) from rfl, after_append,
    after_append]

theorem X4a_of (c : Dev nD) (r : Ref sig .tc) (h : r ∉ p1o0_W) :
    X4a m ρ c (Proc.devRef .tc r) = W3 m ρ c (Proc.devRef .tc r) :=
  after_keep_sub p1o0_writes (fun _ h => List.mem_of_mem_take h) _ h
theorem X4b_of (c : Dev nD) (r : Ref sig .tc) (h : r ∉ p1o0_W) :
    X4b m ρ c (Proc.devRef .tc r) = W3 m ρ c (Proc.devRef .tc r) := by
  rw [X4b_pre]; exact after_keep_sub p1o0_writes (fun _ h => List.mem_of_mem_take h) _ h
theorem X4c_of (c : Dev nD) (r : Ref sig .tc) (h : r ∉ p1o0_W) :
    X4c m ρ c (Proc.devRef .tc r) = W3 m ρ c (Proc.devRef .tc r) := by
  rw [X4c_pre]; exact after_keep_sub p1o0_writes (fun _ h => List.mem_of_mem_take h) _ h

theorem w3_arg0 (c : Dev nD) : W3 m ρ c (Proc.devRef .tc main_arg0) = A0 m c :=
  (W3_of m ρ c main_arg0 (by decide)).trans <| (W2_of m ρ c main_arg0 (by decide)).trans <|
    (W1_of m ρ c main_arg0 (by decide)).trans (W0_eq m ρ c main_arg0)
theorem w3_arg1 (c : Dev nD) : W3 m ρ c (Proc.devRef .tc main_arg1) = A1 m c :=
  (W3_of m ρ c main_arg1 (by decide)).trans <| (W2_of m ρ c main_arg1 (by decide)).trans <|
    (W1_of m ρ c main_arg1 (by decide)).trans (W0_eq m ρ c main_arg1)

theorem x4a_v49 (c : Dev nD) : X4a m ρ c (Proc.devRef .tc main_v49) = val_main_v50 (F := Ideal) (A3 m c) (A5 m c) := by
  have h1 := w3_v1 m ρ c
  have h39 := dir3 m ρ c
  have h44 := w3_v44 m ρ c
  have h46 := w3_v46 m ρ c
  dsimp only [X4a, p1o0_a, main_part1_ops0, List.take, List.drop]
  generalize W3 m ρ c = V at h1 h39 h44 h46 ⊢
  after_results_simp
  rw [h1, h39, h44, h46]
  unfold val_main_v50 val_main_v49 val_main_v48
  rfl

theorem x4a_v56 (c : Dev nD) : X4a m ρ c (Proc.devRef .tc main_v56) = val_main_v57 (F := Ideal) (A3 m c) (A5 m c) := by
  have h3 := w3_v3 m ρ c
  have h39 := dir3 m ρ c
  dsimp only [X4a, p1o0_a, main_part1_ops0, List.take, List.drop]
  generalize W3 m ρ c = V at h3 h39 ⊢
  after_results_simp
  rw [h3, h39]
  unfold val_main_v57 val_main_v56 val_main_v55 val_main_v54 val_main_v53 val_main_c_12 val_main_v52 val_main_v51 val_main_c_11
  rfl

theorem x4a_v23 (c : Dev nD) : X4a m ρ c (Proc.devRef .tc main_v23) = val_main_v23 (F := Ideal) (A3 m c) (A5 m c) :=
  (X4a_of m ρ c main_v23 (by decide)).trans (w3_v23 m ρ c)

theorem x4b_v71 (c : Dev nD) : X4b m ρ c (Proc.devRef .tc main_v71) = val_main_v72 (F := Ideal) (A3 m c) (A5 m c) := by
  have h23 := x4a_v23 m ρ c
  have h49 := x4a_v49 m ρ c
  have h56 := x4a_v56 m ρ c
  dsimp only [X4b, p1o0_b, main_part1_ops0, List.take, List.drop]
  generalize X4a m ρ c = V at h23 h49 h56 ⊢
  after_results_simp
  rw [h23, h49, h56]
  unfold val_main_v72 val_main_v71 val_main_cst_15 val_main_v70 val_main_v69 val_main_v68 val_main_v67 val_main_v66 val_main_v65
    val_main_v64 val_main_v63 val_main_v62 val_main_cst_14 val_main_v61 val_main_v60 val_main_v59 val_main_cst_13 val_main_v58
  rfl

theorem x4b_v21 (c : Dev nD) : X4b m ρ c (Proc.devRef .tc main_v21) = val_main_v21 (F := Ideal) (A3 m c) (A5 m c) :=
  (X4b_of m ρ c main_v21 (by decide)).trans (w3_v21 m ρ c)

theorem x4c_v71 (c : Dev nD) : X4c m ρ c (Proc.devRef .tc main_v71) = val_main_v72 (F := Ideal) (A3 m c) (A5 m c) := by
  have h := x4b_v71 m ρ c
  dsimp only [X4c, p1o0_c, main_part1_ops0, List.take, List.drop]
  generalize X4b m ρ c = V at h ⊢
  after_results_simp
  exact h

theorem x4c_v86 (c : Dev nD) : X4c m ρ c (Proc.devRef .tc main_v86) = val_main_v88 (F := Ideal) (A3 m c) (A5 m c) := by
  have h21 := x4b_v21 m ρ c
  dsimp only [X4c, p1o0_c, main_part1_ops0, List.take, List.drop]
  generalize X4b m ρ c = V at h21 ⊢
  after_results_simp
  rw [h21]
  unfold val_main_v88 val_main_v87 val_main_v86 val_main_v85 val_main_cst_20 val_main_v84 val_main_v83 val_main_v82 val_main_cst_19
    val_main_v81 val_main_v80 val_main_cst_18 val_main_v79 val_main_v78 val_main_v77 val_main_cst_17 val_main_v76 val_main_v75
    val_main_cst_16 val_main_v74
  rfl

theorem x4c_v3 (c : Dev nD) : X4c m ρ c (Proc.devRef .tc main_v3) = val_main_v3 (F := Ideal) (A5 m c) :=
  (X4c_of m ρ c main_v3 (by decide)).trans (w3_v3 m ρ c)
theorem x4c_arg0 (c : Dev nD) : X4c m ρ c (Proc.devRef .tc main_arg0) = A0 m c :=
  (X4c_of m ρ c main_arg0 (by decide)).trans (w3_arg0 m ρ c)

theorem w4_v71 (c : Dev nD) : W4 m ρ c (Proc.devRef .tc main_v71) = val_main_v72 (F := Ideal) (A3 m c) (A5 m c) := by
  have h := x4c_v71 m ρ c
  rw [W4_eq]
  dsimp only [p1o0_d, main_part1_ops0, List.take, List.drop]
  generalize X4c m ρ c = V at h ⊢
  after_results_simp
  exact h

theorem w4_v86 (c : Dev nD) : W4 m ρ c (Proc.devRef .tc main_v86) = val_main_v88 (F := Ideal) (A3 m c) (A5 m c) := by
  have h := x4c_v86 m ρ c
  rw [W4_eq]
  dsimp only [p1o0_d, main_part1_ops0, List.take, List.drop]
  generalize X4c m ρ c = V at h ⊢
  after_results_simp
  exact h

theorem w4_v93 (c : Dev nD) : W4 m ρ c (Proc.devRef .tc main_v93) = val_main_v95 (F := Ideal) (A0 m c) (A5 m c) := by
  have h0 := x4c_arg0 m ρ c
  have h3 := x4c_v3 m ρ c
  rw [W4_eq]
  dsimp only [p1o0_d, main_part1_ops0, List.take, List.drop]
  generalize X4c m ρ c = V at h0 h3 ⊢
  after_results_simp
  rw [h0, h3]
  unfold val_main_v95 val_main_v94 val_main_v93 val_main_v92 val_main_v91 val_main_c_22 val_main_v90 val_main_v89 val_main_c_21
  rfl

theorem w4_c_23 (c : Dev nD) : W4 m ρ c (Proc.devRef .tc main_c_23) = val_main_c_23 (F := Ideal) := by
  rw [W4_eq]
  dsimp only [p1o0_d, main_part1_ops0, List.take, List.drop]
  generalize X4c m ρ c = V
  after_results_simp
  unfold val_main_c_23
  rfl

theorem w4_v1 (c : Dev nD) : W4 m ρ c (Proc.devRef .tc main_v1) = val_main_v1 (F := Ideal) (A5 m c) :=
  (W4_of m ρ c main_v1 (by decide)).trans (w3_v1 m ρ c)
theorem w4_v23 (c : Dev nD) : W4 m ρ c (Proc.devRef .tc main_v23) = val_main_v23 (F := Ideal) (A3 m c) (A5 m c) :=
  (W4_of m ρ c main_v23 (by decide)).trans (w3_v23 m ρ c)
theorem w4_v42 (c : Dev nD) : W4 m ρ c (Proc.devRef .tc main_v42) = val_main_v42 (F := Ideal) (A3 m c) (A5 m c) :=
  (W4_of m ρ c main_v42 (by decide)).trans (w3_v42 m ρ c)
theorem w4_arg0 (c : Dev nD) : W4 m ρ c (Proc.devRef .tc main_arg0) = A0 m c :=
  (W4_of m ρ c main_arg0 (by decide)).trans (w3_arg0 m ρ c)
theorem w4_arg1 (c : Dev nD) : W4 m ρ c (Proc.devRef .tc main_arg1) = A1 m c :=
  (W4_of m ρ c main_arg1 (by decide)).trans (w3_arg1 m ρ c)

theorem col1 (c : Dev nD) :
    broadcastInDim S400000x1 ![0] bcast_S400000_S400000x1_0 (W1 m ρ c (Proc.devRef .tc main_v3))
      = val_main_v134 (F := Ideal) (A5 m c) := by
  rw [w1_v3 m ρ c]
  unfold val_main_v134
  rfl

theorem in1_s (c : Dev nD) : V8 m ρ c main_v42 = val_main_v42 (F := Ideal) (A3 m c) (A5 m c) :=
  (W8_of m ρ c main_v42 (by decide)).trans <| (W7_of m ρ c main_v42 (by decide)).trans <|
    (W6_of m ρ c main_v42 (by decide)).trans <| (W5_of m ρ c main_v42 (by decide)).trans (w4_v42 m ρ c)

theorem in2_s (c : Dev nD) : V10 m ρ c main_v71 = val_main_v72 (F := Ideal) (A3 m c) (A5 m c) :=
  (W10_of m ρ c main_v71 (by decide)).trans <| (W9_of m ρ c main_v71 (by decide)).trans <|
    (W8_of m ρ c main_v71 (by decide)).trans <| (W7_of m ρ c main_v71 (by decide)).trans <|
    (W6_of m ρ c main_v71 (by decide)).trans <| (W5_of m ρ c main_v71 (by decide)).trans (w4_v71 m ρ c)

end Cert.KernelIdeal.Hand

end
-- ==== Proof.LibGatherRows.lean ====
import proofs.«138558_j25314537242668_1_alg».proof.ReferenceIdeal
import proofs.«138558_j25314537242668_1_alg».proof.KernelIdeal
import Idealize.ShloMosaic.PureOps.Dims
import Idealize.ShloMosaic.PureOps.ShapeOps
import Idealize.ShloMosaic.Lib.ValueIdx
import Idealize.ShloMosaic.Lib.Pipeline.Value

noncomputable section

namespace Cert.Bridge

open Idealize.ShloMosaic Idealize.ShloMosaic.ValueIdx

section Generic
variable {α : Type}

abbrev rowDims2 (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

abbrev rowDims3 (N K D E : Nat)
    (wf : GatherDims.WF ⟨3, ![N, K, D]⟩ ⟨2, ![E, 1]⟩ ⟨3, ![E, K, D]⟩ [1, 2] [0] [] [0] [] 1 ![1, K, D]) :
    GatherDims ⟨3, ![N, K, D]⟩ ⟨2, ![E, 1]⟩ ⟨3, ![E, K, D]⟩ where
  offsetDims := [1, 2]
  collapsedSliceDims := [0]
  operandBatchingDims := []
  startIndicesBatchingDims := []
  startIndexMap := [0]
  indexVectorDim := 1
  sliceSizes := ![1, K, D]
  wf := wf

abbrev clampRow {E w : Nat} (N : Nat) (hN : 0 < N) (idx : IVec ⟨2, ![E, 1]⟩ w) (e : Fin E) : Fin N :=
  ⟨min (idx (ix2 e (0 : Fin 1))).toInt.toNat (N - 1), by omega⟩

theorem gather_rows2_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims2 N D E wf) x idx (ix2 e j) = x (ix2 (clampRow N hN idx e) j) := by
  unfold Host.gather
  congr 1
  funext a
  refine Fin.ext ?_
  match a with
  | ⟨0, _⟩ =>
    show (rowDims2 N D E wf).start (ix2 e j) idx 0 + (rowDims2 N D E wf).batchCoord (ix2 e j) 0
      + (rowDims2 N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N D E wf).startIndexMap from List.mem_singleton.mpr rfl)]
    have hsi : (rowDims2 N D E wf).siIdx (ix2 e j) ⟨List.idxOf (0 : Fin 2) (rowDims2 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims2 N D E wf).start (ix2 e j) idx 1 + (rowDims2 N D E wf).batchCoord (ix2 e j) 1
      + (rowDims2 N D E wf).offCoord (ix2 e j) 1 = j.val
    have hs : (rowDims2 N D E wf).start (ix2 e j) idx 1 = 0 := rfl
    have hb : (rowDims2 N D E wf).batchCoord (ix2 e j) 1 = 0 := rfl
    have ho : (rowDims2 N D E wf).offCoord (ix2 e j) 1 = j.val := rfl
    rw [hs, hb, ho, Nat.zero_add]

theorem gather_rows3_apply {N K D E w : Nat} (hN : 0 < N)
    (wf : GatherDims.WF ⟨3, ![N, K, D]⟩ ⟨2, ![E, 1]⟩ ⟨3, ![E, K, D]⟩ [1, 2] [0] [] [0] [] 1 ![1, K, D])
    (x : (⟨3, ![N, K, D]⟩ : Shape).Idx → α) (idx : IVec ⟨2, ![E, 1]⟩ w) (e : Fin E) (k : Fin K) (j : Fin D) :
    Host.gather (rowDims3 N K D E wf) x idx (ix3 e k j) = x (ix3 (clampRow N hN idx e) k j) := by
  unfold Host.gather
  congr 1
  funext a
  refine Fin.ext ?_
  match a with
  | ⟨0, _⟩ =>
    show (rowDims3 N K D E wf).start (ix3 e k j) idx 0 + (rowDims3 N K D E wf).batchCoord (ix3 e k j) 0
      + (rowDims3 N K D E wf).offCoord (ix3 e k j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowDims3 N K D E wf).startIndexMap from List.mem_singleton.mpr rfl)]
    have hsi : (rowDims3 N K D E wf).siIdx (ix3 e k j) ⟨List.idxOf (0 : Fin 3) (rowDims3 N K D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims3 N K D E wf).start (ix3 e k j) idx 1 + (rowDims3 N K D E wf).batchCoord (ix3 e k j) 1
      + (rowDims3 N K D E wf).offCoord (ix3 e k j) 1 = k.val
    have hs : (rowDims3 N K D E wf).start (ix3 e k j) idx 1 = 0 := rfl
    have hb : (rowDims3 N K D E wf).batchCoord (ix3 e k j) 1 = 0 := rfl
    have ho : (rowDims3 N K D E wf).offCoord (ix3 e k j) 1 = k.val := rfl
    rw [hs, hb, ho, Nat.zero_add]
  | ⟨2, _⟩ =>
    show (rowDims3 N K D E wf).start (ix3 e k j) idx 2 + (rowDims3 N K D E wf).batchCoord (ix3 e k j) 2
      + (rowDims3 N K D E wf).offCoord (ix3 e k j) 2 = j.val
    have hs : (rowDims3 N K D E wf).start (ix3 e k j) idx 2 = 0 := rfl
    have hb : (rowDims3 N K D E wf).batchCoord (ix3 e k j) 2 = 0 := rfl
    have ho : (rowDims3 N K D E wf).offCoord (ix3 e k j) 2 = j.val := rfl
    rw [hs, hb, ho, Nat.zero_add]

end Generic

def rowOf (idx : IVec Cert.KernelIdeal.S400000x1 32) (e : Fin 400000) : Fin 25000 :=
  ⟨min (idx (ix2 e (0 : Fin 1))).toInt.toNat 24999, by omega⟩

section Kernel
variable [Cert.KernelIdeal.Facts₀] {α : Type}

theorem gatherK2_apply (x : Cert.KernelIdeal.S25000x128.Idx → α) (idx : IVec Cert.KernelIdeal.S400000x1 32)
    (e : Fin 400000) (j : Fin 128) :
    Host.gather Cert.KernelIdeal.gather_S25000x128_S400000x1_S400000x128_1_0_n_n_0_1_1128 x idx (ix2 e j)
      = x (ix2 (rowOf idx e) j) :=
  gather_rows2_apply (N := 25000) (D := 128) (E := 400000) (by omega)
    Cert.KernelIdeal.Facts₀.gather_S25000x128_S400000x1_S400000x128_1_0_n_n_0_1_1128_wf x idx e j

end Kernel

section Reference
variable [Cert.ReferenceIdeal.Facts₀] {α : Type}

theorem gatherR3_apply (x : Cert.ReferenceIdeal.S25000x3x128.Idx → α) (idx : IVec Cert.ReferenceIdeal.S400000x1 32)
    (e : Fin 400000) (k : Fin 3) (j : Fin 128) :
    Host.gather Cert.ReferenceIdeal.gather_S25000x3x128_S400000x1_S400000x3x128_12_0_n_n_0_1_13128 x idx (ix3 e k j)
      = x (ix3 (rowOf idx e) k j) :=
  gather_rows3_apply (N := 25000) (K := 3) (D := 128) (E := 400000) (by omega)
    Cert.ReferenceIdeal.Facts₀.gather_S25000x3x128_S400000x1_S400000x3x128_12_0_n_n_0_1_13128_wf x idx e k j

end Reference

section SliceRow
variable {α : Type}

theorem sliceCast_apply (A1 : (⟨3, ![25000, 3, 128]⟩ : Shape).Idx → α) (kk : Nat) (hk : kk < 3)
    (h : (⟨3, ![25000, 3, 128]⟩ : Shape).Slices ![0, kk, 0] ⟨3, ![25000, 1, 128]⟩)
    (hc : (⟨3, ![25000, 1, 128]⟩ : Shape).ShapeCasts ⟨2, ![25000, 128]⟩) (r : Fin 25000) (j : Fin 128) :
    shapeCast ⟨2, ![25000, 128]⟩ (extractStridedSlice ⟨3, ![25000, 1, 128]⟩ ![0, kk, 0] A1 h) hc (ix2 r j)
      = A1 (ix3 r ⟨kk, hk⟩ j) := by
  refine (shapeCast_apply _ hc (ix2 r j) (ix3 r (0 : Fin 1) j) ?_).trans ?_
  · rw [Shape.rowMajor_val_three, Shape.rowMajor_val_two]
    show (r.val * 1 + 0) * 128 + j.val = r.val * 128 + j.val
    omega
  · refine extractStridedSlice_apply _ A1 h _ (ix3 r ⟨kk, hk⟩ j) (fun a => ?_)
    match a with
    | ⟨0, _⟩ => exact (Nat.zero_add _).symm
    | ⟨1, _⟩ => rfl
    | ⟨2, _⟩ => exact (Nat.zero_add _).symm

end SliceRow

section Both
variable [Cert.KernelIdeal.Facts₀] [Cert.ReferenceIdeal.Facts₀] {α : Type}

theorem gather_slice_row0 (A1 : Cert.KernelIdeal.S25000x3x128.Idx → α) (idx : IVec Cert.KernelIdeal.S400000x1 32)
    (e : Fin 400000) (j : Fin 128) :
    Host.gather Cert.KernelIdeal.gather_S25000x128_S400000x1_S400000x128_1_0_n_n_0_1_1128
        (shapeCast Cert.KernelIdeal.S25000x128
          (extractStridedSlice Cert.KernelIdeal.S25000x1x128 ![0, 0, 0] A1
            Cert.KernelIdeal.Facts₀.slices_S25000x3x128_S25000x1x128_0_0_0)
          Cert.KernelIdeal.Facts₀.shapeCasts_S25000x1x128_S25000x128) idx (ix2 e j)
      = Host.gather Cert.ReferenceIdeal.gather_S25000x3x128_S400000x1_S400000x3x128_12_0_n_n_0_1_13128 A1 idx
          (ix3 e (0 : Fin 3) j) :=
  (gatherK2_apply _ idx e j).trans
    ((sliceCast_apply A1 0 (by omega) _ _ (rowOf idx e) j).trans (gatherR3_apply A1 idx e 0 j).symm)

theorem gather_slice_row1 (A1 : Cert.KernelIdeal.S25000x3x128.Idx → α) (idx : IVec Cert.KernelIdeal.S400000x1 32)
    (e : Fin 400000) (j : Fin 128) :
    Host.gather Cert.KernelIdeal.gather_S25000x128_S400000x1_S400000x128_1_0_n_n_0_1_1128
        (shapeCast Cert.KernelIdeal.S25000x128
          (extractStridedSlice Cert.KernelIdeal.S25000x1x128 ![0, 1, 0] A1
            Cert.KernelIdeal.Facts₀.slices_S25000x3x128_S25000x1x128_0_1_0)
          Cert.KernelIdeal.Facts₀.shapeCasts_S25000x1x128_S25000x128) idx (ix2 e j)
      = Host.gather Cert.ReferenceIdeal.gather_S25000x3x128_S400000x1_S400000x3x128_12_0_n_n_0_1_13128 A1 idx
          (ix3 e (1 : Fin 3) j) :=
  (gatherK2_apply _ idx e j).trans
    ((sliceCast_apply A1 1 (by omega) _ _ (rowOf idx e) j).trans (gatherR3_apply A1 idx e 1 j).symm)

theorem gather_slice_row2 (A1 : Cert.KernelIdeal.S25000x3x128.Idx → α) (idx : IVec Cert.KernelIdeal.S400000x1 32)
    (e : Fin 400000) (j : Fin 128) :
    Host.gather Cert.KernelIdeal.gather_S25000x128_S400000x1_S400000x128_1_0_n_n_0_1_1128
        (shapeCast Cert.KernelIdeal.S25000x128
          (extractStridedSlice Cert.KernelIdeal.S25000x1x128 ![0, 2, 0] A1
            Cert.KernelIdeal.Facts₀.slices_S25000x3x128_S25000x1x128_0_2_0)
          Cert.KernelIdeal.Facts₀.shapeCasts_S25000x1x128_S25000x128) idx (ix2 e j)
      = Host.gather Cert.ReferenceIdeal.gather_S25000x3x128_S400000x1_S400000x3x128_12_0_n_n_0_1_13128 A1 idx
          (ix3 e (2 : Fin 3) j) :=
  (gatherK2_apply _ idx e j).trans
    ((sliceCast_apply A1 2 (by omega) _ _ (rowOf idx e) j).trans (gatherR3_apply A1 idx e 2 j).symm)

end Both

end Cert.Bridge
-- ==== Proof.KI.ThreadIn5.lean ====
import proofs.«138558_j25314537242668_1_alg».proof.Proof.KI.ThreadIn4
import proofs.«138558_j25314537242668_1_alg».proof.Proof.KI.Keep
import proofs.«138558_j25314537242668_1_alg».proof.Proof.Gen.ReferenceIdeal.Read
import proofs.«138558_j25314537242668_1_alg».proof.Proof.LibGatherRows
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem
open Cert.ReferenceIdeal.Read

variable (m : (ℓ : Loc nD τ sig) → Buf (Elt Ideal) ℓ) (ρ : Dev nD → PrngReg)

abbrev p2o0_a : List (HloOp τ sig (Elt Ideal)) := main_part2_ops0.take 8

abbrev p2o0_b : List (HloOp τ sig (Elt Ideal)) := (main_part2_ops0.drop 8).take 15

abbrev p2o0_c : List (HloOp τ sig (Elt Ideal)) := (main_part2_ops0.drop 23).take 9

abbrev p2o0_d : List (HloOp τ sig (Elt Ideal)) := (main_part2_ops0.drop 32).take 9

abbrev p2o0_e : List (HloOp τ sig (Elt Ideal)) := main_part2_ops0.drop 41
theorem p2o0_split : (main_part2_ops0 : List (HloOp τ sig (Elt Ideal))) = p2o0_a ++ (p2o0_b ++ (p2o0_c ++ (p2o0_d ++ p2o0_e))) := rfl

abbrev p2o0_Wa : List (Ref sig .tc) := [ main_v94, main_v95, main_c_24, main_v96, main_v97, main_v98, main_v99, main_v100 ]
theorem p2o0_a_writes : (p2o0_a : List (HloOp τ sig (Elt Ideal))).Forall fun op =>
    op.writes ⊆ (p2o0_Wa.map (Proc.devRef (τ := τ) .tc)).toFinset :=
  sub_of_map_eq _ _ rfl

theorem keep_a (V : Valuation τ sig (Elt Ideal)) (r : Ref sig .tc) (h : r ∉ p2o0_Wa) :
    StableHlo.after p2o0_a V (Proc.devRef .tc r) = V (Proc.devRef .tc r) :=
  StableHlo.after_of_writes_sub p2o0_a V p2o0_a_writes h

abbrev p2o0_Wb : List (Ref sig .tc) := [ main_v101, main_v102, main_v103, main_v104, main_v105, main_v106, main_c_25, main_v107, main_v108, main_c_26, main_v109, main_v110, main_v111, main_v112, main_v113 ]
theorem p2o0_b_writes : (p2o0_b : List (HloOp τ sig (Elt Ideal))).Forall fun op =>
    op.writes ⊆ (p2o0_Wb.map (Proc.devRef (τ := τ) .tc)).toFinset :=
  sub_of_map_eq _ _ rfl

theorem keep_b (V : Valuation τ sig (Elt Ideal)) (r : Ref sig .tc) (h : r ∉ p2o0_Wb) :
    StableHlo.after p2o0_b V (Proc.devRef .tc r) = V (Proc.devRef .tc r) :=
  StableHlo.after_of_writes_sub p2o0_b V p2o0_b_writes h

abbrev p2o0_Wc : List (Ref sig .tc) := [ main_c_27, main_v114, main_v115, main_c_28, main_v116, main_v117, main_v118, main_v119, main_v120 ]
theorem p2o0_c_writes : (p2o0_c : List (HloOp τ sig (Elt Ideal))).Forall fun op =>
    op.writes ⊆ (p2o0_Wc.map (Proc.devRef (τ := τ) .tc)).toFinset :=
  sub_of_map_eq _ _ rfl

theorem keep_c (V : Valuation τ sig (Elt Ideal)) (r : Ref sig .tc) (h : r ∉ p2o0_Wc) :
    StableHlo.after p2o0_c V (Proc.devRef .tc r) = V (Proc.devRef .tc r) :=
  StableHlo.after_of_writes_sub p2o0_c V p2o0_c_writes h

abbrev p2o0_Wd : List (Ref sig .tc) := [ main_c_29, main_v121, main_v122, main_c_30, main_v123, main_v124, main_v125, main_v126, main_v127 ]
theorem p2o0_d_writes : (p2o0_d : List (HloOp τ sig (Elt Ideal))).Forall fun op =>
    op.writes ⊆ (p2o0_Wd.map (Proc.devRef (τ := τ) .tc)).toFinset :=
  sub_of_map_eq _ _ rfl

theorem keep_d (V : Valuation τ sig (Elt Ideal)) (r : Ref sig .tc) (h : r ∉ p2o0_Wd) :
    StableHlo.after p2o0_d V (Proc.devRef .tc r) = V (Proc.devRef .tc r) :=
  StableHlo.after_of_writes_sub p2o0_d V p2o0_d_writes h

abbrev p2o0_We : List (Ref sig .tc) := [ main_v128, main_v129, main_v130, main_v131, main_v132, main_v133, main_v134, main_v135, main_v136 ]
theorem p2o0_e_writes : (p2o0_e : List (HloOp τ sig (Elt Ideal))).Forall fun op =>
    op.writes ⊆ (p2o0_We.map (Proc.devRef (τ := τ) .tc)).toFinset :=
  sub_of_map_eq _ _ rfl

theorem keep_e (V : Valuation τ sig (Elt Ideal)) (r : Ref sig .tc) (h : r ∉ p2o0_We) :
    StableHlo.after p2o0_e V (Proc.devRef .tc r) = V (Proc.devRef .tc r) :=
  StableHlo.after_of_writes_sub p2o0_e V p2o0_e_writes h

abbrev X5a : Dev nD → Valuation τ sig (Elt Ideal) := fun c => StableHlo.after p2o0_a (W4 m ρ c)
abbrev X5b : Dev nD → Valuation τ sig (Elt Ideal) := fun c => StableHlo.after p2o0_b (X5a m ρ c)
abbrev X5c : Dev nD → Valuation τ sig (Elt Ideal) := fun c => StableHlo.after p2o0_c (X5b m ρ c)
abbrev X5d : Dev nD → Valuation τ sig (Elt Ideal) := fun c => StableHlo.after p2o0_d (X5c m ρ c)
theorem W5_eq (c : Dev nD) : W5 m ρ c = StableHlo.after p2o0_e (X5d m ρ c) := by
  show StableHlo.after main_part2_ops0 _ = _
  rw [p2o0_split, after_append, after_append, after_append, after_append]

theorem in0_hcol (c : Dev nD) : V5 m ρ c main_v93 = val_main_v95 (F := Ideal) (A0 m c) (A5 m c) :=
  (W5_of m ρ c main_v93 (by decide)).trans (w4_v93 m ρ c)

theorem x5a_v100 (c : Dev nD) : X5a m ρ c (Proc.devRef .tc main_v100) = val_main_v102 (F := Ideal) (A0 m c) (A5 m c) := by
  have h1 := w4_v1 m ρ c
  have hc := w4_c_23 m ρ c
  have h0 := w4_arg0 m ρ c
  dsimp only [X5a, p2o0_a, main_part2_ops0, List.take, List.drop]
  generalize W4 m ρ c = V at h1 hc h0 ⊢
  after_results_simp
  rw [h1, hc, h0]
  unfold val_main_v102 val_main_v101 val_main_v100 val_main_v99 val_main_v98 val_main_c_24 val_main_v97 val_main_v96
  rfl

theorem in0_hrow (c : Dev nD) : V5 m ρ c main_v100 = val_main_v102 (F := Ideal) (A0 m c) (A5 m c) := by
  show W5 m ρ c (Proc.devRef .tc main_v100) = _
  rw [W5_eq]
  exact (keep_e _ main_v100 (by decide)).trans ((keep_d _ main_v100 (by decide)).trans ((keep_c _ main_v100 (by decide)).trans
    ((keep_b _ main_v100 (by decide)).trans (x5a_v100 m ρ c))))

theorem x5a_v1 (c : Dev nD) : X5a m ρ c (Proc.devRef .tc main_v1) = val_main_v1 (F := Ideal) (A5 m c) :=
  (keep_a _ main_v1 (by decide)).trans (w4_v1 m ρ c)
theorem x5a_arg1 (c : Dev nD) : X5a m ρ c (Proc.devRef .tc main_arg1) = A1 m c :=
  (keep_a _ main_arg1 (by decide)).trans (w4_arg1 m ρ c)
theorem x5b_v1 (c : Dev nD) : X5b m ρ c (Proc.devRef .tc main_v1) = val_main_v1 (F := Ideal) (A5 m c) :=
  (keep_b _ main_v1 (by decide)).trans (x5a_v1 m ρ c)
theorem x5c_v1 (c : Dev nD) : X5c m ρ c (Proc.devRef .tc main_v1) = val_main_v1 (F := Ideal) (A5 m c) :=
  (keep_c _ main_v1 (by decide)).trans (x5b_v1 m ρ c)

theorem x5b_v113 (c : Dev nD) : X5b m ρ c (Proc.devRef .tc main_v113)
    = Host.gather Cert.KernelIdeal.gather_S25000x128_S400000x1_S400000x128_1_0_n_n_0_1_1128 (shapeCast S25000x128 (extractStridedSlice S25000x1x128 ![0, 0, 0] (A1 m c) Cert.KernelIdeal.Facts₀.slices_S25000x3x128_S25000x1x128_0_0_0) Cert.KernelIdeal.Facts₀.shapeCasts_S25000x1x128_S25000x128) (val_main_v125 (F := Ideal) (A5 m c)) := by
  have h1 := x5a_v1 m ρ c
  have ha := x5a_arg1 m ρ c
  dsimp only [X5b, p2o0_b, main_part2_ops0, List.take, List.drop]
  generalize X5a m ρ c = V at h1 ha ⊢
  after_results_simp
  rw [h1, ha]
  unfold val_main_v125 val_main_v124 val_main_v123 val_main_v122 val_main_c_26 val_main_v121 val_main_v120 val_main_c_25
  rfl

theorem x5b_v104 (c : Dev nD) : X5b m ρ c (Proc.devRef .tc main_v104) = (shapeCast S25000x128 (extractStridedSlice S25000x1x128 ![0, 1, 0] (A1 m c) Cert.KernelIdeal.Facts₀.slices_S25000x3x128_S25000x1x128_0_1_0) Cert.KernelIdeal.Facts₀.shapeCasts_S25000x1x128_S25000x128) := by
  have ha := x5a_arg1 m ρ c
  dsimp only [X5b, p2o0_b, main_part2_ops0, List.take, List.drop]
  generalize X5a m ρ c = V at ha ⊢
  after_results_simp
  rw [ha]
  rfl

theorem x5b_v106 (c : Dev nD) : X5b m ρ c (Proc.devRef .tc main_v106) = (shapeCast S25000x128 (extractStridedSlice S25000x1x128 ![0, 2, 0] (A1 m c) Cert.KernelIdeal.Facts₀.slices_S25000x3x128_S25000x1x128_0_2_0) Cert.KernelIdeal.Facts₀.shapeCasts_S25000x1x128_S25000x128) := by
  have ha := x5a_arg1 m ρ c
  dsimp only [X5b, p2o0_b, main_part2_ops0, List.take, List.drop]
  generalize X5a m ρ c = V at ha ⊢
  after_results_simp
  rw [ha]
  rfl

theorem x5c_v120 (c : Dev nD) : X5c m ρ c (Proc.devRef .tc main_v120)
    = Host.gather Cert.KernelIdeal.gather_S25000x128_S400000x1_S400000x128_1_0_n_n_0_1_1128 (shapeCast S25000x128 (extractStridedSlice S25000x1x128 ![0, 1, 0] (A1 m c) Cert.KernelIdeal.Facts₀.slices_S25000x3x128_S25000x1x128_0_1_0) Cert.KernelIdeal.Facts₀.shapeCasts_S25000x1x128_S25000x128) (val_main_v125 (F := Ideal) (A5 m c)) := by
  have h1 := x5b_v1 m ρ c
  have hm := x5b_v104 m ρ c
  dsimp only [X5c, p2o0_c, main_part2_ops0, List.take, List.drop]
  generalize X5b m ρ c = V at h1 hm ⊢
  after_results_simp
  rw [h1, hm]
  unfold val_main_v125 val_main_v124 val_main_v123 val_main_v122 val_main_c_26 val_main_v121 val_main_v120 val_main_c_25
  rfl

theorem x5c_v106 (c : Dev nD) : X5c m ρ c (Proc.devRef .tc main_v106) = (shapeCast S25000x128 (extractStridedSlice S25000x1x128 ![0, 2, 0] (A1 m c) Cert.KernelIdeal.Facts₀.slices_S25000x3x128_S25000x1x128_0_2_0) Cert.KernelIdeal.Facts₀.shapeCasts_S25000x1x128_S25000x128) :=
  (keep_c _ main_v106 (by decide)).trans (x5b_v106 m ρ c)

theorem x5d_v127 (c : Dev nD) : X5d m ρ c (Proc.devRef .tc main_v127)
    = Host.gather Cert.KernelIdeal.gather_S25000x128_S400000x1_S400000x128_1_0_n_n_0_1_1128 (shapeCast S25000x128 (extractStridedSlice S25000x1x128 ![0, 2, 0] (A1 m c) Cert.KernelIdeal.Facts₀.slices_S25000x3x128_S25000x1x128_0_2_0) Cert.KernelIdeal.Facts₀.shapeCasts_S25000x1x128_S25000x128) (val_main_v125 (F := Ideal) (A5 m c)) := by
  have h1 := x5c_v1 m ρ c
  have hm := x5c_v106 m ρ c
  dsimp only [X5d, p2o0_d, main_part2_ops0, List.take, List.drop]
  generalize X5c m ρ c = V at h1 hm ⊢
  after_results_simp
  rw [h1, hm]
  unfold val_main_v125 val_main_v124 val_main_v123 val_main_v122 val_main_c_26 val_main_v121 val_main_v120 val_main_c_25
  rfl

theorem w5_v113 (c : Dev nD) : W5 m ρ c (Proc.devRef .tc main_v113)
    = Host.gather Cert.KernelIdeal.gather_S25000x128_S400000x1_S400000x128_1_0_n_n_0_1_1128 (shapeCast S25000x128 (extractStridedSlice S25000x1x128 ![0, 0, 0] (A1 m c) Cert.KernelIdeal.Facts₀.slices_S25000x3x128_S25000x1x128_0_0_0) Cert.KernelIdeal.Facts₀.shapeCasts_S25000x1x128_S25000x128) (val_main_v125 (F := Ideal) (A5 m c)) := by
  rw [W5_eq]
  exact (keep_e _ main_v113 (by decide)).trans ((keep_d _ main_v113 (by decide)).trans ((keep_c _ main_v113 (by decide)).trans (x5b_v113 m ρ c)))

theorem w5_v120 (c : Dev nD) : W5 m ρ c (Proc.devRef .tc main_v120)
    = Host.gather Cert.KernelIdeal.gather_S25000x128_S400000x1_S400000x128_1_0_n_n_0_1_1128 (shapeCast S25000x128 (extractStridedSlice S25000x1x128 ![0, 1, 0] (A1 m c) Cert.KernelIdeal.Facts₀.slices_S25000x3x128_S25000x1x128_0_1_0) Cert.KernelIdeal.Facts₀.shapeCasts_S25000x1x128_S25000x128) (val_main_v125 (F := Ideal) (A5 m c)) := by
  rw [W5_eq]
  exact (keep_e _ main_v120 (by decide)).trans ((keep_d _ main_v120 (by decide)).trans (x5c_v120 m ρ c))

theorem w5_v127 (c : Dev nD) : W5 m ρ c (Proc.devRef .tc main_v127)
    = Host.gather Cert.KernelIdeal.gather_S25000x128_S400000x1_S400000x128_1_0_n_n_0_1_1128 (shapeCast S25000x128 (extractStridedSlice S25000x1x128 ![0, 2, 0] (A1 m c) Cert.KernelIdeal.Facts₀.slices_S25000x3x128_S25000x1x128_0_2_0) Cert.KernelIdeal.Facts₀.shapeCasts_S25000x1x128_S25000x128) (val_main_v125 (F := Ideal) (A5 m c)) := by
  rw [W5_eq]
  exact (keep_e _ main_v127 (by decide)).trans (x5d_v127 m ρ c)

theorem in0_vr0 (c : Dev nD) (e : Fin 400000) (j : Fin 128) :
    V5 m ρ c main_v113 (ix2 e j) = val_main_v126 (F := Ideal) (A1 m c) (A5 m c) (ix3 e 0 j) := by
  show W5 m ρ c (Proc.devRef .tc main_v113) (ix2 e j) = _
  rw [w5_v113]
  unfold val_main_v126
  exact Cert.Bridge.gather_slice_row0 (A1 m c) (val_main_v125 (F := Ideal) (A5 m c)) e j

theorem in0_vr1 (c : Dev nD) (e : Fin 400000) (j : Fin 128) :
    V5 m ρ c main_v120 (ix2 e j) = val_main_v126 (F := Ideal) (A1 m c) (A5 m c) (ix3 e 1 j) := by
  show W5 m ρ c (Proc.devRef .tc main_v120) (ix2 e j) = _
  rw [w5_v120]
  unfold val_main_v126
  exact Cert.Bridge.gather_slice_row1 (A1 m c) (val_main_v125 (F := Ideal) (A5 m c)) e j

theorem in0_vr2 (c : Dev nD) (e : Fin 400000) (j : Fin 128) :
    V5 m ρ c main_v127 (ix2 e j) = val_main_v126 (F := Ideal) (A1 m c) (A5 m c) (ix3 e 2 j) := by
  show W5 m ρ c (Proc.devRef .tc main_v127) (ix2 e j) = _
  rw [w5_v127]
  unfold val_main_v126
  exact Cert.Bridge.gather_slice_row2 (A1 m c) (val_main_v125 (F := Ideal) (A5 m c)) e j

theorem x5d_v23 (c : Dev nD) : X5d m ρ c (Proc.devRef .tc main_v23) = val_main_v23 (F := Ideal) (A3 m c) (A5 m c) :=
  (keep_d _ main_v23 (by decide)).trans ((keep_c _ main_v23 (by decide)).trans ((keep_b _ main_v23 (by decide)).trans
    ((keep_a _ main_v23 (by decide)).trans (w4_v23 m ρ c))))
theorem x5d_v86 (c : Dev nD) : X5d m ρ c (Proc.devRef .tc main_v86) = val_main_v88 (F := Ideal) (A3 m c) (A5 m c) :=
  (keep_d _ main_v86 (by decide)).trans ((keep_c _ main_v86 (by decide)).trans ((keep_b _ main_v86 (by decide)).trans
    ((keep_a _ main_v86 (by decide)).trans (w4_v86 m ρ c))))

theorem w5_v131 (c : Dev nD) : W5 m ρ c (Proc.devRef .tc main_v131)
    = extractStridedSlice S400000x1 ![0, 0] (val_main_v23 (F := Ideal) (A3 m c) (A5 m c)) Cert.KernelIdeal.Facts₀.slices_S400000x3_S400000x1_0_0 := by
  have h := x5d_v23 m ρ c
  rw [W5_eq]
  dsimp only [p2o0_e, main_part2_ops0, List.take, List.drop]
  generalize X5d m ρ c = V at h ⊢
  after_results_simp
  rw [h]

theorem in0_uv0 (c : Dev nD) (e : Fin 400000) :
    V5 m ρ c main_v131 (ix2 e 0) = val_main_v23 (F := Ideal) (A3 m c) (A5 m c) (ix2 e 0) := by
  show W5 m ρ c (Proc.devRef .tc main_v131) (ix2 e 0) = _
  rw [w5_v131]
  refine extractStridedSlice_apply _ _ _ (ix2 e (0 : Fin 1)) (ix2 e (0 : Fin 3)) fun a => ?_
  match a with
  | ⟨0, _⟩ => show e.val = 0 + e.val; omega
  | ⟨1, _⟩ => rfl

theorem w5_v132 (c : Dev nD) : W5 m ρ c (Proc.devRef .tc main_v132)
    = extractStridedSlice S400000x1 ![0, 1] (val_main_v23 (F := Ideal) (A3 m c) (A5 m c)) Cert.KernelIdeal.Facts₀.slices_S400000x3_S400000x1_0_1 := by
  have h := x5d_v23 m ρ c
  rw [W5_eq]
  dsimp only [p2o0_e, main_part2_ops0, List.take, List.drop]
  generalize X5d m ρ c = V at h ⊢
  after_results_simp
  rw [h]

theorem in0_uv1 (c : Dev nD) (e : Fin 400000) :
    V5 m ρ c main_v132 (ix2 e 0) = val_main_v23 (F := Ideal) (A3 m c) (A5 m c) (ix2 e 1) := by
  show W5 m ρ c (Proc.devRef .tc main_v132) (ix2 e 0) = _
  rw [w5_v132]
  refine extractStridedSlice_apply _ _ _ (ix2 e (0 : Fin 1)) (ix2 e (1 : Fin 3)) fun a => ?_
  match a with
  | ⟨0, _⟩ => show e.val = 0 + e.val; omega
  | ⟨1, _⟩ => rfl

theorem w5_v133 (c : Dev nD) : W5 m ρ c (Proc.devRef .tc main_v133)
    = extractStridedSlice S400000x1 ![0, 2] (val_main_v23 (F := Ideal) (A3 m c) (A5 m c)) Cert.KernelIdeal.Facts₀.slices_S400000x3_S400000x1_0_2 := by
  have h := x5d_v23 m ρ c
  rw [W5_eq]
  dsimp only [p2o0_e, main_part2_ops0, List.take, List.drop]
  generalize X5d m ρ c = V at h ⊢
  after_results_simp
  rw [h]

theorem in0_uv2 (c : Dev nD) (e : Fin 400000) :
    V5 m ρ c main_v133 (ix2 e 0) = val_main_v23 (F := Ideal) (A3 m c) (A5 m c) (ix2 e 2) := by
  show W5 m ρ c (Proc.devRef .tc main_v133) (ix2 e 0) = _
  rw [w5_v133]
  refine extractStridedSlice_apply _ _ _ (ix2 e (0 : Fin 1)) (ix2 e (2 : Fin 3)) fun a => ?_
  match a with
  | ⟨0, _⟩ => show e.val = 0 + e.val; omega
  | ⟨1, _⟩ => rfl

theorem w5_v134 (c : Dev nD) : W5 m ρ c (Proc.devRef .tc main_v134)
    = shapeCast S400000x1 (val_main_v88 (F := Ideal) (A3 m c) (A5 m c)) Cert.KernelIdeal.Facts₀.shapeCasts_S400000_S400000x1 := by
  have h := x5d_v86 m ρ c
  rw [W5_eq]
  dsimp only [p2o0_e, main_part2_ops0, List.take, List.drop]
  generalize X5d m ρ c = V at h ⊢
  after_results_simp
  rw [h]
  rfl

theorem in0_cut (c : Dev nD) (e : Fin 400000) :
    V5 m ρ c main_v134 (ix2 e 0) = val_main_v88 (F := Ideal) (A3 m c) (A5 m c) (ix1 e) := by
  show W5 m ρ c (Proc.devRef .tc main_v134) (ix2 e 0) = _
  rw [w5_v134]
  refine shapeCast_apply _ _ (ix2 e (0 : Fin 1)) (ix1 e) ?_
  rw [Shape.rowMajor_val_one, Shape.rowMajor_val_two]
  show e.val = e.val * 1 + 0
  omega

end Cert.KernelIdeal.Hand

end
-- ==== Proof.KI.ThreadArgs.lean ====
import proofs.«138558_j25314537242668_1_alg».proof.Proof.KI.Keep
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- A reference no item up to a boundary writes holds there what the launch memory held; each boundary steps from the one before. -/
theorem ta_launch4 (c : Dev nD) (r : Ref sig .tc) (h : r ∉ p0o0_W ++ p0o1_W ++ p0o2_W ++ p1o0_W) :
    W4 m ρ c (Proc.devRef .tc r) = m ((c : Thread nD τ).loc r) := by
  simp only [List.mem_append, not_or] at h
  obtain ⟨⟨⟨h1, h2⟩, h3⟩, h4⟩ := h
  exact (W4_of m ρ c r h4).trans <| (W3_of m ρ c r h3).trans <| (W2_of m ρ c r h2).trans <| (W1_of m ρ c r h1).trans rfl
theorem ta_launch5 (c : Dev nD) (r : Ref sig .tc) (h : r ∉ p0o0_W ++ p0o1_W ++ p0o2_W ++ p1o0_W ++ p2o0_W) :
    W5 m ρ c (Proc.devRef .tc r) = m ((c : Thread nD τ).loc r) :=
  (W5_of m ρ c r fun e => h (List.mem_append_right _ e)).trans (ta_launch4 m ρ c r fun e => h (List.mem_append_left _ e))
theorem ta_launch7 (c : Dev nD) (r : Ref sig .tc) (h : r ∉ p0o0_W ++ p0o1_W ++ p0o2_W ++ p1o0_W ++ p2o0_W ++ arrs0 ++ p2o1_W) :
    W7 m ρ c (Proc.devRef .tc r) = m ((c : Thread nD τ).loc r) :=
  (W7_of m ρ c r fun e => h (List.mem_append_right _ e)).trans <|
    (W6_of m ρ c r fun e => h (List.mem_append_left _ (List.mem_append_right _ e))).trans
      (ta_launch5 m ρ c r fun e => h (List.mem_append_left _ (List.mem_append_left _ e)))
theorem ta_launch8 (c : Dev nD) (r : Ref sig .tc) (h : r ∉ p0o0_W ++ p0o1_W ++ p0o2_W ++ p1o0_W ++ p2o0_W ++ arrs0 ++ p2o1_W ++ p3o0_W) :
    W8 m ρ c (Proc.devRef .tc r) = m ((c : Thread nD τ).loc r) :=
  (W8_of m ρ c r fun e => h (List.mem_append_right _ e)).trans (ta_launch7 m ρ c r fun e => h (List.mem_append_left _ e))
theorem ta_launch9 (c : Dev nD) (r : Ref sig .tc) (h : r ∉ p0o0_W ++ p0o1_W ++ p0o2_W ++ p1o0_W ++ p2o0_W ++ arrs0 ++ p2o1_W ++ p3o0_W ++ arrs1) :
    W9 m ρ c (Proc.devRef .tc r) = m ((c : Thread nD τ).loc r) :=
  (W9_of m ρ c r fun e => h (List.mem_append_right _ e)).trans (ta_launch8 m ρ c r fun e => h (List.mem_append_left _ e))
theorem ta_launch10 (c : Dev nD) (r : Ref sig .tc) (h : r ∉ p0o0_W ++ p0o1_W ++ p0o2_W ++ p1o0_W ++ p2o0_W ++ arrs0 ++ p2o1_W ++ p3o0_W ++ arrs1 ++ p3o1_W) :
    W10 m ρ c (Proc.devRef .tc r) = m ((c : Thread nD τ).loc r) :=
  (W10_of m ρ c r fun e => h (List.mem_append_right _ e)).trans (ta_launch9 m ρ c r fun e => h (List.mem_append_left _ e))

/-- A vector recast as a one-row matrix, read at (0, j), is the vector at j: row-major positions agree, 0 · n + j = j. -/
theorem row128_apply {α : Type} (x : S128.Idx → α) (j : Fin 128) : shapeCast S1x128 x shapeCasts_S128_S1x128 (ix2 0 j) = x (ix1 j) := by
  refine shapeCast_apply _ shapeCasts_S128_S1x128 _ (ix1 j) ?_
  rw [Shape.rowMajor_val_one, Shape.rowMajor_val_two]
  show j.val = 0 * 128 + j.val
  omega

theorem in0_rbf (c : Dev nD) : V5 m ρ c main_arg4 = m ((c : Thread nD τ).loc main_arg4) := ta_launch5 m ρ c main_arg4 (by decide)
theorem in0_Wvec (c : Dev nD) : V5 m ρ c main_arg8 = m ((c : Thread nD τ).loc main_arg8) := ta_launch5 m ρ c main_arg8 (by decide)

set_option maxHeartbeats 1000000 in
theorem ta_main_v128_eq (c : Dev nD) : W5 m ρ c (Proc.devRef .tc main_v128)
    = extractStridedSlice S128x128 ![0, 0] (W4 m ρ c (Proc.devRef .tc main_arg6)) slices_S306x128_S128x128_0_0 := by
  dsimp only [W5, main_part2_ops0]; after_results_simp <;> rfl

theorem in0_W0 (c : Dev nD) (k : Fin 128) (j : Fin 128) :
    V5 m ρ c main_v128 (ix2 k j) = m ((c : Thread nD τ).loc main_arg6) (ix2 (⟨k.val, by omega⟩ : Fin 306) j) := by
  have e := ta_main_v128_eq m ρ c
  refine (congrFun e _).trans ?_
  rw [ta_launch4 m ρ c main_arg6 (by decide)]
  exact extractStridedSlice_apply ![0, 0] _ slices_S306x128_S128x128_0_0 (ix2 k j) (ix2 (⟨k.val, by omega⟩ : Fin 306) j) fun a => by
    match a with
    | ⟨0, _⟩ => show k.val = 0 + k.val; omega
    | ⟨1, _⟩ => show j.val = 0 + j.val; omega

set_option maxHeartbeats 1000000 in
theorem ta_main_v129_eq (c : Dev nD) : W5 m ρ c (Proc.devRef .tc main_v129)
    = extractStridedSlice S128x128 ![128, 0] (W4 m ρ c (Proc.devRef .tc main_arg6)) slices_S306x128_S128x128_128_0 := by
  dsimp only [W5, main_part2_ops0]; after_results_simp <;> rfl

theorem in0_W1 (c : Dev nD) (k : Fin 128) (j : Fin 128) :
    V5 m ρ c main_v129 (ix2 k j) = m ((c : Thread nD τ).loc main_arg6) (ix2 (⟨128 + k.val, by omega⟩ : Fin 306) j) := by
  have e := ta_main_v129_eq m ρ c
  refine (congrFun e _).trans ?_
  rw [ta_launch4 m ρ c main_arg6 (by decide)]
  exact extractStridedSlice_apply ![128, 0] _ slices_S306x128_S128x128_128_0 (ix2 k j) (ix2 (⟨128 + k.val, by omega⟩ : Fin 306) j) fun a => by
    match a with
    | ⟨0, _⟩ => show 128 + k.val = 128 + k.val; omega
    | ⟨1, _⟩ => show j.val = 0 + j.val; omega

set_option maxHeartbeats 1000000 in
theorem ta_main_v130_eq (c : Dev nD) : W5 m ρ c (Proc.devRef .tc main_v130)
    = extractStridedSlice S50x128 ![256, 0] (W4 m ρ c (Proc.devRef .tc main_arg6)) slices_S306x128_S50x128_256_0 := by
  dsimp only [W5, main_part2_ops0]; after_results_simp <;> rfl

theorem in0_W2 (c : Dev nD) (k : Fin 50) (j : Fin 128) :
    V5 m ρ c main_v130 (ix2 k j) = m ((c : Thread nD τ).loc main_arg6) (ix2 (⟨256 + k.val, by omega⟩ : Fin 306) j) := by
  have e := ta_main_v130_eq m ρ c
  refine (congrFun e _).trans ?_
  rw [ta_launch4 m ρ c main_arg6 (by decide)]
  exact extractStridedSlice_apply ![256, 0] _ slices_S306x128_S50x128_256_0 (ix2 k j) (ix2 (⟨256 + k.val, by omega⟩ : Fin 306) j) fun a => by
    match a with
    | ⟨0, _⟩ => show 256 + k.val = 256 + k.val; omega
    | ⟨1, _⟩ => show j.val = 0 + j.val; omega

set_option maxHeartbeats 1000000 in
theorem ta_main_v135_eq (c : Dev nD) : W5 m ρ c (Proc.devRef .tc main_v135)
    = shapeCast S1x128 (W4 m ρ c (Proc.devRef .tc main_arg7)) shapeCasts_S128_S1x128 := by
  dsimp only [W5, main_part2_ops0]; after_results_simp <;> rfl

theorem in0_bmsg (c : Dev nD) (j : Fin 128) : V5 m ρ c main_v135 (ix2 0 j) = m ((c : Thread nD τ).loc main_arg7) (ix1 j) := by
  have e := ta_main_v135_eq m ρ c
  refine (congrFun e _).trans ?_
  rw [ta_launch4 m ρ c main_arg7 (by decide)]
  exact row128_apply _ j

set_option maxHeartbeats 1000000 in
theorem ta_main_v136_eq (c : Dev nD) : W5 m ρ c (Proc.devRef .tc main_v136)
    = shapeCast S1x256 (W4 m ρ c (Proc.devRef .tc main_arg9)) shapeCasts_S256_S1x256 := by
  dsimp only [W5, main_part2_ops0]; after_results_simp <;> rfl

theorem in0_bvec (c : Dev nD) (j : Fin 256) : V5 m ρ c main_v136 (ix2 0 j) = m ((c : Thread nD τ).loc main_arg9) (ix1 j) := by
  have e := ta_main_v136_eq m ρ c
  refine (congrFun e _).trans ?_
  rw [ta_launch4 m ρ c main_arg9 (by decide)]
  refine shapeCast_apply _ shapeCasts_S256_S1x256 _ (ix1 j) ?_
  rw [Shape.rowMajor_val_one, Shape.rowMajor_val_two]
  show j.val = 0 * 256 + j.val
  omega

theorem in1_x (c : Dev nD) : V8 m ρ c main_arg0 = m ((c : Thread nD τ).loc main_arg0) := ta_launch8 m ρ c main_arg0 (by decide)
theorem in1_W1 (c : Dev nD) : V8 m ρ c main_arg10 = m ((c : Thread nD τ).loc main_arg10) := ta_launch8 m ρ c main_arg10 (by decide)
theorem in1_W2 (c : Dev nD) : V8 m ρ c main_arg14 = m ((c : Thread nD τ).loc main_arg14) := ta_launch8 m ρ c main_arg14 (by decide)

set_option maxHeartbeats 1000000 in
theorem ta_main_v152_eq (c : Dev nD) : W8 m ρ c (Proc.devRef .tc main_v152)
    = shapeCast S1x128 (W7 m ρ c (Proc.devRef .tc main_arg11)) shapeCasts_S128_S1x128 := by
  dsimp only [W8, main_part3_ops0]; after_results <;> rfl

theorem in1_b1 (c : Dev nD) (j : Fin 128) : V8 m ρ c main_v152 (ix2 0 j) = m ((c : Thread nD τ).loc main_arg11) (ix1 j) := by
  have e := ta_main_v152_eq m ρ c
  refine (congrFun e _).trans ?_
  rw [ta_launch7 m ρ c main_arg11 (by decide)]
  exact row128_apply _ j

set_option maxHeartbeats 1000000 in
theorem ta_main_v153_eq (c : Dev nD) : W8 m ρ c (Proc.devRef .tc main_v153)
    = shapeCast S1x128 (W7 m ρ c (Proc.devRef .tc main_arg15)) shapeCasts_S128_S1x128 := by
  dsimp only [W8, main_part3_ops0]; after_results <;> rfl

theorem in1_b2 (c : Dev nD) (j : Fin 128) : V8 m ρ c main_v153 (ix2 0 j) = m ((c : Thread nD τ).loc main_arg15) (ix1 j) := by
  have e := ta_main_v153_eq m ρ c
  refine (congrFun e _).trans ?_
  rw [ta_launch7 m ρ c main_arg15 (by decide)]
  exact row128_apply _ j

theorem in2_x (c : Dev nD) : V10 m ρ c main_arg2 = m ((c : Thread nD τ).loc main_arg2) := ta_launch10 m ρ c main_arg2 (by decide)
theorem in2_W1 (c : Dev nD) : V10 m ρ c main_arg12 = m ((c : Thread nD τ).loc main_arg12) := ta_launch10 m ρ c main_arg12 (by decide)
theorem in2_W2 (c : Dev nD) : V10 m ρ c main_arg16 = m ((c : Thread nD τ).loc main_arg16) := ta_launch10 m ρ c main_arg16 (by decide)

set_option maxHeartbeats 1000000 in
theorem ta_main_v155_eq (c : Dev nD) : W10 m ρ c (Proc.devRef .tc main_v155)
    = shapeCast S1x128 (W9 m ρ c (Proc.devRef .tc main_arg13)) shapeCasts_S128_S1x128 := by
  dsimp only [W10, main_part3_ops1]; after_results <;> rfl

theorem in2_b1 (c : Dev nD) (j : Fin 128) : V10 m ρ c main_v155 (ix2 0 j) = m ((c : Thread nD τ).loc main_arg13) (ix1 j) := by
  have e := ta_main_v155_eq m ρ c
  refine (congrFun e _).trans ?_
  rw [ta_launch9 m ρ c main_arg13 (by decide)]
  exact row128_apply _ j

set_option maxHeartbeats 1000000 in
theorem ta_main_v156_eq (c : Dev nD) : W10 m ρ c (Proc.devRef .tc main_v156)
    = shapeCast S1x128 (W9 m ρ c (Proc.devRef .tc main_arg17)) shapeCasts_S128_S1x128 := by
  dsimp only [W10, main_part3_ops1]; after_results <;> rfl

theorem in2_b2 (c : Dev nD) (j : Fin 128) : V10 m ρ c main_v156 (ix2 0 j) = m ((c : Thread nD τ).loc main_arg17) (ix1 j) := by
  have e := ta_main_v156_eq m ρ c
  refine (congrFun e _).trans ?_
  rw [ta_launch9 m ρ c main_arg17 (by decide)]
  exact row128_apply _ j

end Cert.KernelIdeal.Hand

end
-- ==== Proof.Spec.lean ====
import Idealize.ShloMosaic.PureOps.Ideal
import Idealize.ShloMosaic.Lib.ValueIdx

noncomputable section

namespace Cert.Bridge

open Idealize.ShloMosaic Idealize.ShloMosaic.ValueIdx

/-- The gated update at (p, q): x(p,q) + (Σₖ x(p,k)·W₁(k,q) + b₁(q)) · σ(Σₖ s(p)·W₂(k,q) + b₂(q)). -/
def gated {M : Nat} (x : (⟨2, ![M, 128]⟩ : Shape).Idx → EReal) (s : Fin M → EReal)
    (W1 : (⟨2, ![128, 128]⟩ : Shape).Idx → EReal) (b1 : Fin 128 → EReal)
    (W2 : (⟨2, ![128, 128]⟩ : Shape).Idx → EReal) (b2 : Fin 128 → EReal) (p : Fin M) (q : Fin 128) : EReal :=
  x (ix2 p q) + ((∑ k : Fin 128, x (ix2 p k) * W1 (ix2 k q)) + b1 q)
    * Ideal.logistic ((∑ k : Fin 128, s p * W2 (ix2 k q)) + b2 q)

/-- The scalar message of edge e, entry j: the three feature blocks against the weight's three row blocks, plus the bias. -/
def scalarMsg {E : Nat} (hcol hrow : (⟨2, ![E, 128]⟩ : Shape).Idx → EReal) (rbf : (⟨2, ![E, 50]⟩ : Shape).Idx → EReal)
    (W0 W1 : (⟨2, ![128, 128]⟩ : Shape).Idx → EReal) (W2 : (⟨2, ![50, 128]⟩ : Shape).Idx → EReal) (b : Fin 128 → EReal)
    (e : Fin E) (j : Fin 128) : EReal :=
  (((∑ k : Fin 128, hcol (ix2 e k) * W0 (ix2 k j)) + ∑ k : Fin 128, hrow (ix2 e k) * W1 (ix2 k j))
    + ∑ k : Fin 50, rbf (ix2 e k) * W2 (ix2 k j)) + b j

/-- The 256 vector weights of edge e: the scalar message against the vector weight, plus its bias. -/
def vecW {E : Nat} (sm : Fin E → Fin 128 → EReal) (Wv : (⟨2, ![128, 256]⟩ : Shape).Idx → EReal) (bv : Fin 256 → EReal)
    (e : Fin E) (q : Fin 256) : EReal :=
  (∑ k : Fin 128, sm e k * Wv (ix2 k q)) + bv q

/-- One component of the vector message: (first-half weight · unit-vector entry + second-half weight · gathered feature) · cutoff. -/
def vecMsg1 {E : Nat} (vw : Fin E → Fin 256 → EReal) (uv : Fin E → EReal) (vrow : Fin E → Fin 128 → EReal)
    (cut : Fin E → EReal) (e : Fin E) (j : Fin 128) : EReal :=
  (vw e ⟨j.val, by omega⟩ * uv e + vw e ⟨128 + j.val, by omega⟩ * vrow e j) * cut e

end Cert.Bridge

end
-- ==== Proof.LibPlainDot.lean ====
import Idealize.ShloMosaic.PureOps.Dims
import Idealize.ShloMosaic.Lib.ValueIdx

namespace PlainDot

open Idealize.ShloMosaic Idealize.ShloMosaic.ValueIdx

variable {R K C : Nat}

private theorem coord_val_congr {s : Shape} (j : s.Idx) (a b : Nat) (ha : a < s.rank) (hb : b < s.rank) (h : a = b) :
    (j ⟨a, ha⟩).val = (j ⟨b, hb⟩).val := by
  subst h; rfl

theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.LibConcatDot.lean ====
import proofs.«138558_j25314537242668_1_alg».proof.ReferenceIdeal
import proofs.«138558_j25314537242668_1_alg».proof.KernelIdeal
import proofs.«138558_j25314537242668_1_alg».proof.Proof.LibPlainDot
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

theorem sum_306_split {M : Type} [AddCommMonoid M] (f : Fin 306 → M) :
    ∑ k : Fin 306, f k = ((∑ k : Fin 128, f ⟨k.val, by omega⟩) + ∑ k : Fin 128, f ⟨128 + k.val, by omega⟩) + ∑ k : Fin 50, f ⟨256 + k.val, by omega⟩ := by
  have h1 : ∑ k : Fin (128 + 128 + 50), f k
      = ∑ k : Fin (128 + 128), f (Fin.castAdd 50 k) + ∑ k : Fin 50, f (Fin.natAdd (128 + 128) k) :=
    Fin.sum_univ_add (fun k : Fin (128 + 128 + 50) => f k)
  have h2 : ∑ k : Fin (128 + 128), f (Fin.castAdd 50 k)
      = ∑ k : Fin 128, f (Fin.castAdd 50 (Fin.castAdd 128 k)) + ∑ k : Fin 128, f (Fin.castAdd 50 (Fin.natAdd 128 k)) :=
    Fin.sum_univ_add (fun k : Fin (128 + 128) => f (Fin.castAdd 50 k))
  refine h1.trans ?_
  rw [h2]
  rfl

section Reference

variable [Cert.ReferenceIdeal.Facts₀]

open Cert.ReferenceIdeal Cert.ReferenceIdeal.Facts₀

theorem concat306_apply_a (a b : FVec Ideal S400000x128 .f32) (c : FVec Ideal S400000x50 .f32)
    (e : Fin 400000) (k : Fin 128) :
    concatenate S400000x306 1 [⟨S400000x128, a⟩, ⟨S400000x128, b⟩, ⟨S400000x50, c⟩]
        concatenates_S400000x128_S400000x128_S400000x50_S400000x306_d1 (ix2 e ⟨k.val, by omega⟩)
      = a (ix2 e k) := by
  refine concatenate_apply_piece (1 : Fin S400000x306.rank) [⟨S400000x128, a⟩, ⟨S400000x128, b⟩, ⟨S400000x50, c⟩]
    concatenates_S400000x128_S400000x128_S400000x50_S400000x306_d1 (ix2 e ⟨k.val, by omega⟩) 0 (by simp) S400000x128 a rfl rfl 0 (by simp) (ix2 e k) ?_ ?_
  · intro b' hb'
    match b', hb' with
    | ⟨0, _⟩, _ => rfl
    | ⟨1, _⟩, hb' => exact absurd rfl hb'
  · simp

theorem concat306_apply_b (a b : FVec Ideal S400000x128 .f32) (c : FVec Ideal S400000x50 .f32)
    (e : Fin 400000) (k : Fin 128) :
    concatenate S400000x306 1 [⟨S400000x128, a⟩, ⟨S400000x128, b⟩, ⟨S400000x50, c⟩]
        concatenates_S400000x128_S400000x128_S400000x50_S400000x306_d1 (ix2 e ⟨128 + k.val, by omega⟩)
      = b (ix2 e k) := by
  refine concatenate_apply_piece (1 : Fin S400000x306.rank) [⟨S400000x128, a⟩, ⟨S400000x128, b⟩, ⟨S400000x50, c⟩]
    concatenates_S400000x128_S400000x128_S400000x50_S400000x306_d1 (ix2 e ⟨128 + k.val, by omega⟩) 1 (by simp) S400000x128 b rfl rfl 128 (by simp) (ix2 e k) ?_ ?_
  · intro b' hb'
    match b', hb' with
    | ⟨0, _⟩, _ => rfl
    | ⟨1, _⟩, hb' => exact absurd rfl hb'
  · simp

theorem concat306_apply_c (a b : FVec Ideal S400000x128 .f32) (c : FVec Ideal S400000x50 .f32)
    (e : Fin 400000) (k : Fin 50) :
    concatenate S400000x306 1 [⟨S400000x128, a⟩, ⟨S400000x128, b⟩, ⟨S400000x50, c⟩]
        concatenates_S400000x128_S400000x128_S400000x50_S400000x306_d1 (ix2 e ⟨256 + k.val, by omega⟩)
      = c (ix2 e k) := by
  refine concatenate_apply_piece (1 : Fin S400000x306.rank) [⟨S400000x128, a⟩, ⟨S400000x128, b⟩, ⟨S400000x50, c⟩]
    concatenates_S400000x128_S400000x128_S400000x50_S400000x306_d1 (ix2 e ⟨256 + k.val, by omega⟩) 2 (by simp) S400000x50 c rfl rfl 256 (by simp) (ix2 e k) ?_ ?_
  · intro b' hb'
    match b', hb' with
    | ⟨0, _⟩, _ => rfl
    | ⟨1, _⟩, hb' => exact absurd rfl hb'
  · simp

end Reference

theorem hostDot_plain {R K C : Nat} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ .f32) (r : FVec Ideal ⟨2, ![K, C]⟩ .f32) (p : Fin R) (q : Fin C) :
    Host.dotGeneral (F := Ideal) d none l r (ix2 p q) = ∑ k : Fin K, l (ix2 p k) * r (ix2 k q) :=
  (Ideal.dotGeneral_apply d none .single l r (ix2 p q)).trans
    (PlainDot.sum_eq (M := EReal) d hlb hln hlc hrb hrn hrc l r p q)

theorem matmul0_plain {R K C : Nat} {φ₁ φ₂ : FTy} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ φ₁) (r : FVec Ideal ⟨2, ![K, C]⟩ φ₂) (p : Fin R) (q : Fin C) :
    matmul (F := Ideal) d none l r (constant ⟨2, ![R, C]⟩ .f32 0x00000000#32) (ix2 p q)
      = ∑ k : Fin K, l (ix2 p k) * r (ix2 k q) :=
  (Ideal.matmul_constant_zero_apply d none l r (ix2 p q)).trans
    (PlainDot.sum_eq (M := EReal) d hlb hln hlc hrb hrn hrc l r p q)

section Reference

variable [Cert.ReferenceIdeal.Facts₀]

open Cert.ReferenceIdeal Cert.ReferenceIdeal.Facts₀

theorem dot306_split (a b : FVec Ideal S400000x128 .f32) (c : FVec Ideal S400000x50 .f32)
    (W : FVec Ideal S306x128 .f32) (e : Fin 400000) (j : Fin 128) :
    Host.dotGeneral (F := Ideal) dot_S400000x306_S306x128_S400000x128_1_0_0_1_n_n none
        (concatenate S400000x306 1 [⟨S400000x128, a⟩, ⟨S400000x128, b⟩, ⟨S400000x50, c⟩]
          concatenates_S400000x128_S400000x128_S400000x50_S400000x306_d1) W (ix2 e j)
      = ((∑ k : Fin 128, a (ix2 e k) * W (ix2 ⟨k.val, by omega⟩ j))
          + ∑ k : Fin 128, b (ix2 e k) * W (ix2 ⟨128 + k.val, by omega⟩ j))
        + ∑ k : Fin 50, c (ix2 e k) * W (ix2 ⟨256 + k.val, by omega⟩ j) := by
  refine (hostDot_plain dot_S400000x306_S306x128_S400000x128_1_0_0_1_n_n rfl rfl rfl rfl rfl rfl _ W e j).trans ?_
  refine (sum_306_split _).trans ?_
  refine congrArg₂ (· + ·) (congrArg₂ (· + ·) (Finset.sum_congr rfl fun k _ => ?_) (Finset.sum_congr rfl fun k _ => ?_))
    (Finset.sum_congr rfl fun k _ => ?_)
  · exact congrArg (· * W (ix2 ⟨k.val, by omega⟩ j)) (concat306_apply_a a b c e k)
  · exact congrArg (· * W (ix2 ⟨128 + k.val, by omega⟩ j)) (concat306_apply_b a b c e k)
  · exact congrArg (· * W (ix2 ⟨256 + k.val, by omega⟩ j)) (concat306_apply_c a b c e k)

end Reference

end Cert.Bridge
-- ==== Proof.KI.V0Pay.lean ====
import proofs.«138558_j25314537242668_1_alg».proof.Proof.Gen.KernelIdeal.Skeleton
import proofs.«138558_j25314537242668_1_alg».proof.Proof.Spec
import proofs.«138558_j25314537242668_1_alg».proof.Proof.LibPlainDot
import proofs.«138558_j25314537242668_1_alg».proof.Proof.LibConcatDot
import Idealize.ShloMosaic.Lib.ValueIdx
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

theorem bcast_col_apply {α : Type} {a b : Nat} (x : (⟨2, ![a, 1]⟩ : Shape).Idx → α)
    (h : (⟨2, ![a, 1]⟩ : Shape).Broadcasts ⟨2, ![a, b]⟩) (r : Fin a) (j : Fin b) :
    broadcastTo ⟨2, ![a, b]⟩ x h (ix2 r j) = x (ix2 r 0) := by
  refine broadcastTo_apply x h (ix2 r j) (ix2 r 0) fun k => ?_
  match k with
  | ⟨0, _⟩ =>
    show r.val = if a = 1 then 0 else r.val
    split_ifs with h1
    · have := r.isLt; omega
    · rfl
  | ⟨1, _⟩ => rfl

theorem bcast_row_apply {α : Type} {a b : Nat} (x : (⟨2, ![1, b]⟩ : Shape).Idx → α)
    (h : (⟨2, ![1, b]⟩ : Shape).Broadcasts ⟨2, ![a, b]⟩) (r : Fin a) (j : Fin b) :
    broadcastTo ⟨2, ![a, b]⟩ x h (ix2 r j) = x (ix2 0 j) := by
  refine broadcastTo_apply x h (ix2 r j) (ix2 0 j) fun k => ?_
  match k with
  | ⟨0, _⟩ => rfl
  | ⟨1, _⟩ =>
    show j.val = if b = 1 then 0 else j.val
    split_ifs with h1
    · have := j.isLt; omega
    · rfl

theorem pay2_apply (v34 v35 : FVec Ideal S2000x128 .f32) (v36 v38 : Vec Ideal S2000x1 .f32) (v44 : Vec Ideal S2000x128 .f32)
    (r : Fin 2000) (j : Fin 128) :
    k0_pay2 (F := Ideal) v34 v35 v36 v38 v44 (ix2 r j)
      = (v34 (ix2 r j) * v38 (ix2 r 0) + v35 (ix2 r j) * v44 (ix2 r j)) * v36 (ix2 r 0) := by
  unfold k0_pay2 k0_pay1
  simp only [shapeCast_self]
  exact congrArg₂ (· * ·)
    (congrArg (· + v35 (ix2 r j) * v44 (ix2 r j)) (congrArg (v34 (ix2 r j) * ·) (bcast_col_apply v38 _ r j)))
    (bcast_col_apply v36 _ r j)

theorem pay3_apply (v34 v35 : FVec Ideal S2000x128 .f32) (v36 v40 : Vec Ideal S2000x1 .f32) (v46 : Vec Ideal S2000x128 .f32)
    (r : Fin 2000) (j : Fin 128) :
    k0_pay3 (F := Ideal) v34 v35 v36 v40 v46 (ix2 r j)
      = (v34 (ix2 r j) * v40 (ix2 r 0) + v35 (ix2 r j) * v46 (ix2 r j)) * v36 (ix2 r 0) := by
  unfold k0_pay3 k0_pay1
  simp only [shapeCast_self]
  exact congrArg₂ (· * ·)
    (congrArg (· + v35 (ix2 r j) * v46 (ix2 r j)) (congrArg (v34 (ix2 r j) * ·) (bcast_col_apply v40 _ r j)))
    (bcast_col_apply v36 _ r j)

theorem pay4_apply (v34 v35 : FVec Ideal S2000x128 .f32) (v36 v42 : Vec Ideal S2000x1 .f32) (v48 : Vec Ideal S2000x128 .f32)
    (r : Fin 2000) (j : Fin 128) :
    k0_pay4 (F := Ideal) v34 v35 v36 v42 v48 (ix2 r j)
      = (v34 (ix2 r j) * v42 (ix2 r 0) + v35 (ix2 r j) * v48 (ix2 r j)) * v36 (ix2 r 0) := by
  unfold k0_pay4 k0_pay1
  simp only [shapeCast_self]
  exact congrArg₂ (· * ·)
    (congrArg (· + v35 (ix2 r j) * v48 (ix2 r j)) (congrArg (v34 (ix2 r j) * ·) (bcast_col_apply v42 _ r j)))
    (bcast_col_apply v36 _ r j)

theorem pay6_apply (v0 v3 : Vec Ideal S2000x128 .f32) (v6 : Vec Ideal S2000x50 .f32) (v8 v11 : Vec Ideal S128x128 .f32)
    (v14 : Vec Ideal S50x128 .f32) (v22 : Vec Ideal S1x128 .f32) (v26 : Vec Ideal S128x256 .f32) (v30 : Vec Ideal S1x256 .f32)
    (r : Fin 2000) (j : Fin 128) :
    k0_pay6 (F := Ideal) v0 v3 v6 v8 v11 v14 v22 v26 v30 (ix2 r j)
      = k0_pay5 (F := Ideal) v0 v3 v6 v8 v11 v14 v22 v26 v30 (ix2 r ⟨j.val, by omega⟩) := by
  unfold k0_pay6
  exact extractStridedSlice_apply ![0, 0] _ slices_S2000x256_o0_0_S2000x128 (ix2 r j) (ix2 r ⟨j.val, by omega⟩) fun a => by
    match a with
    | ⟨0, _⟩ => show r.val = 0 + r.val; omega
    | ⟨1, _⟩ => show j.val = 0 + j.val; omega

theorem pay7_apply (v0 v3 : Vec Ideal S2000x128 .f32) (v6 : Vec Ideal S2000x50 .f32) (v8 v11 : Vec Ideal S128x128 .f32)
    (v14 : Vec Ideal S50x128 .f32) (v22 : Vec Ideal S1x128 .f32) (v26 : Vec Ideal S128x256 .f32) (v30 : Vec Ideal S1x256 .f32)
    (r : Fin 2000) (j : Fin 128) :
    k0_pay7 (F := Ideal) v0 v3 v6 v8 v11 v14 v22 v26 v30 (ix2 r j)
      = k0_pay5 (F := Ideal) v0 v3 v6 v8 v11 v14 v22 v26 v30 (ix2 r ⟨128 + j.val, by omega⟩) := by
  unfold k0_pay7
  exact extractStridedSlice_apply ![0, 128] _ slices_S2000x256_o0_128_S2000x128 (ix2 r j) (ix2 r ⟨128 + j.val, by omega⟩) fun a => by
    match a with
    | ⟨0, _⟩ => show r.val = 0 + r.val; omega
    | ⟨1, _⟩ => show 128 + j.val = 128 + j.val; rfl

theorem sm_apply (v0 v3 : Vec Ideal S2000x128 .f32) (v6 : Vec Ideal S2000x50 .f32) (v8 v11 : Vec Ideal S128x128 .f32)
    (v14 : Vec Ideal S50x128 .f32) (v22 : Vec Ideal S1x128 .f32) (r : Fin 2000) (j : Fin 128) :
    addf (F := Ideal)
        (addf
          (addf
            (matmul dot_S2000x128_S128x128_S2000x128_1_0_0_1_n_n none (truncf .bf16 v0 bitsLt_bf16_f32) (truncf .bf16 v8 bitsLt_bf16_f32)
              (constant S2000x128 .f32 0x00000000#32))
            (matmul dot_S2000x128_S128x128_S2000x128_1_0_0_1_n_n none (truncf .bf16 v3 bitsLt_bf16_f32) (truncf .bf16 v11 bitsLt_bf16_f32)
              (constant S2000x128 .f32 0x00000000#32)))
          (matmul dot_S2000x50_S50x128_S2000x128_1_0_0_1_n_n none (truncf .bf16 v6 bitsLt_bf16_f32) (truncf .bf16 v14 bitsLt_bf16_f32)
            (constant S2000x128 .f32 0x00000000#32)))
        (broadcastTo S2000x128 v22 broadcasts_S1x128_S2000x128) (ix2 r j)
      = Cert.Bridge.scalarMsg v0 v3 v6 v8 v11 v14 (fun j => v22 (ix2 0 j)) r j := by
  unfold Cert.Bridge.scalarMsg
  exact congrArg₂ (· + ·)
    (congrArg₂ (· + ·)
      (congrArg₂ (· + ·)
        (Cert.Bridge.matmul0_plain dot_S2000x128_S128x128_S2000x128_1_0_0_1_n_n rfl rfl rfl rfl rfl rfl
          (truncf .bf16 v0 bitsLt_bf16_f32) (truncf .bf16 v8 bitsLt_bf16_f32) r j)
        (Cert.Bridge.matmul0_plain dot_S2000x128_S128x128_S2000x128_1_0_0_1_n_n rfl rfl rfl rfl rfl rfl
          (truncf .bf16 v3 bitsLt_bf16_f32) (truncf .bf16 v11 bitsLt_bf16_f32) r j))
      (Cert.Bridge.matmul0_plain dot_S2000x50_S50x128_S2000x128_1_0_0_1_n_n rfl rfl rfl rfl rfl rfl
        (truncf .bf16 v6 bitsLt_bf16_f32) (truncf .bf16 v14 bitsLt_bf16_f32) r j))
    (bcast_row_apply v22 _ r j)

theorem pay5_apply (v0 v3 : Vec Ideal S2000x128 .f32) (v6 : Vec Ideal S2000x50 .f32) (v8 v11 : Vec Ideal S128x128 .f32)
    (v14 : Vec Ideal S50x128 .f32) (v22 : Vec Ideal S1x128 .f32) (v26 : Vec Ideal S128x256 .f32) (v30 : Vec Ideal S1x256 .f32)
    (r : Fin 2000) (q : Fin 256) :
    k0_pay5 (F := Ideal) v0 v3 v6 v8 v11 v14 v22 v26 v30 (ix2 r q)
      = Cert.Bridge.vecW (fun r j => Cert.Bridge.scalarMsg v0 v3 v6 v8 v11 v14 (fun j => v22 (ix2 0 j)) r j) v26
          (fun q => v30 (ix2 0 q)) r q := by
  unfold k0_pay5
  simp only [shapeCast_self]
  unfold Cert.Bridge.vecW
  refine congrArg₂ (· + ·) ?_ (bcast_row_apply v30 _ r q)
  refine (Cert.Bridge.matmul0_plain dot_S2000x128_S128x256_S2000x256_1_0_0_1_n_n rfl rfl rfl rfl rfl rfl _
    (truncf .bf16 v26 bitsLt_bf16_f32) r q).trans ?_
  exact Finset.sum_congr rfl fun k _ => congrArg (· * v26 (ix2 k q)) (sm_apply v0 v3 v6 v8 v11 v14 v22 r k)

theorem msg2_apply (x0 x1 : Vec Ideal S2000x128 .f32) (x2 : Vec Ideal S2000x50 .f32) (x3 : Vec Ideal S2000x1 .f32)
    (x6 : Vec Ideal S2000x128 .f32) (x9 : Vec Ideal S2000x1 .f32) (x10 x11 : Vec Ideal S128x128 .f32) (x12 : Vec Ideal S50x128 .f32)
    (x13 : Vec Ideal S1x128 .f32) (x14 : Vec Ideal S128x256 .f32) (x15 : Vec Ideal S1x256 .f32) (r : Fin 2000) (j : Fin 128) :
    k0_pay2 (F := Ideal) (k0_pay6 x0 x1 x2 x10 x11 x12 x13 x14 x15) (k0_pay7 x0 x1 x2 x10 x11 x12 x13 x14 x15) x9 x3 x6 (ix2 r j)
      = Cert.Bridge.vecMsg1
          (Cert.Bridge.vecW (fun r j => Cert.Bridge.scalarMsg x0 x1 x2 x10 x11 x12 (fun j => x13 (ix2 0 j)) r j) x14 (fun q => x15 (ix2 0 q)))
          (fun r => x3 (ix2 r 0)) (fun r j => x6 (ix2 r j)) (fun r => x9 (ix2 r 0)) r j := by
  refine (pay2_apply _ _ x9 x3 x6 r j).trans ?_
  unfold Cert.Bridge.vecMsg1
  rw [pay6_apply, pay7_apply, pay5_apply, pay5_apply]

theorem msg3_apply (x0 x1 : Vec Ideal S2000x128 .f32) (x2 : Vec Ideal S2000x50 .f32) (x4 : Vec Ideal S2000x1 .f32)
    (x7 : Vec Ideal S2000x128 .f32) (x9 : Vec Ideal S2000x1 .f32) (x10 x11 : Vec Ideal S128x128 .f32) (x12 : Vec Ideal S50x128 .f32)
    (x13 : Vec Ideal S1x128 .f32) (x14 : Vec Ideal S128x256 .f32) (x15 : Vec Ideal S1x256 .f32) (r : Fin 2000) (j : Fin 128) :
    k0_pay3 (F := Ideal) (k0_pay6 x0 x1 x2 x10 x11 x12 x13 x14 x15) (k0_pay7 x0 x1 x2 x10 x11 x12 x13 x14 x15) x9 x4 x7 (ix2 r j)
      = Cert.Bridge.vecMsg1
          (Cert.Bridge.vecW (fun r j => Cert.Bridge.scalarMsg x0 x1 x2 x10 x11 x12 (fun j => x13 (ix2 0 j)) r j) x14 (fun q => x15 (ix2 0 q)))
          (fun r => x4 (ix2 r 0)) (fun r j => x7 (ix2 r j)) (fun r => x9 (ix2 r 0)) r j := by
  refine (pay3_apply _ _ x9 x4 x7 r j).trans ?_
  unfold Cert.Bridge.vecMsg1
  rw [pay6_apply, pay7_apply, pay5_apply, pay5_apply]

theorem msg4_apply (x0 x1 : Vec Ideal S2000x128 .f32) (x2 : Vec Ideal S2000x50 .f32) (x5 : Vec Ideal S2000x1 .f32)
    (x8 : Vec Ideal S2000x128 .f32) (x9 : Vec Ideal S2000x1 .f32) (x10 x11 : Vec Ideal S128x128 .f32) (x12 : Vec Ideal S50x128 .f32)
    (x13 : Vec Ideal S1x128 .f32) (x14 : Vec Ideal S128x256 .f32) (x15 : Vec Ideal S1x256 .f32) (r : Fin 2000) (j : Fin 128) :
    k0_pay4 (F := Ideal) (k0_pay6 x0 x1 x2 x10 x11 x12 x13 x14 x15) (k0_pay7 x0 x1 x2 x10 x11 x12 x13 x14 x15) x9 x5 x8 (ix2 r j)
      = Cert.Bridge.vecMsg1
          (Cert.Bridge.vecW (fun r j => Cert.Bridge.scalarMsg x0 x1 x2 x10 x11 x12 (fun j => x13 (ix2 0 j)) r j) x14 (fun q => x15 (ix2 0 q)))
          (fun r => x5 (ix2 r 0)) (fun r j => x8 (ix2 r j)) (fun r => x9 (ix2 r 0)) r j := by
  refine (pay4_apply _ _ x9 x5 x8 r j).trans ?_
  unfold Cert.Bridge.vecMsg1
  rw [pay6_apply, pay7_apply, pay5_apply, pay5_apply]

theorem scalarMsg_row {E E' : Nat} (hcol hrow : (⟨2, ![E, 128]⟩ : Shape).Idx → EReal) (rbf : (⟨2, ![E, 50]⟩ : Shape).Idx → EReal)
    (hcol' hrow' : (⟨2, ![E', 128]⟩ : Shape).Idx → EReal) (rbf' : (⟨2, ![E', 50]⟩ : Shape).Idx → EReal)
    (W0 W1 W0' W1' : (⟨2, ![128, 128]⟩ : Shape).Idx → EReal) (W2 W2' : (⟨2, ![50, 128]⟩ : Shape).Idx → EReal) (b b' : Fin 128 → EReal)
    (r : Fin E) (e : Fin E') (j : Fin 128)
    (h0 : ∀ k, hcol (ix2 r k) = hcol' (ix2 e k)) (h1 : ∀ k, hrow (ix2 r k) = hrow' (ix2 e k)) (h2 : ∀ k, rbf (ix2 r k) = rbf' (ix2 e k))
    (hW0 : ∀ k j, W0 (ix2 k j) = W0' (ix2 k j)) (hW1 : ∀ k j, W1 (ix2 k j) = W1' (ix2 k j)) (hW2 : ∀ k j, W2 (ix2 k j) = W2' (ix2 k j))
    (hb : ∀ j, b j = b' j) :
    Cert.Bridge.scalarMsg hcol hrow rbf W0 W1 W2 b r j = Cert.Bridge.scalarMsg hcol' hrow' rbf' W0' W1' W2' b' e j := by
  unfold Cert.Bridge.scalarMsg
  simp only [h0, h1, h2, hW0, hW1, hW2, hb]

theorem vecW_row {E E' : Nat} (sm : Fin E → Fin 128 → EReal) (sm' : Fin E' → Fin 128 → EReal)
    (Wv Wv' : (⟨2, ![128, 256]⟩ : Shape).Idx → EReal) (bv bv' : Fin 256 → EReal) (r : Fin E) (e : Fin E') (q : Fin 256)
    (hs : ∀ k, sm r k = sm' e k) (hW : ∀ k q, Wv (ix2 k q) = Wv' (ix2 k q)) (hb : ∀ q, bv q = bv' q) :
    Cert.Bridge.vecW sm Wv bv r q = Cert.Bridge.vecW sm' Wv' bv' e q := by
  unfold Cert.Bridge.vecW
  simp only [hs, hW, hb]

theorem vecMsg1_row {E E' : Nat} (vw : Fin E → Fin 256 → EReal) (vw' : Fin E' → Fin 256 → EReal) (uv : Fin E → EReal) (uv' : Fin E' → EReal)
    (vrow : Fin E → Fin 128 → EReal) (vrow' : Fin E' → Fin 128 → EReal) (cut : Fin E → EReal) (cut' : Fin E' → EReal)
    (r : Fin E) (e : Fin E') (j : Fin 128)
    (hw : ∀ q, vw r q = vw' e q) (hu : uv r = uv' e) (hv : ∀ j, vrow r j = vrow' e j) (hc : cut r = cut' e) :
    Cert.Bridge.vecMsg1 vw uv vrow cut r j = Cert.Bridge.vecMsg1 vw' uv' vrow' cut' e j := by
  unfold Cert.Bridge.vecMsg1
  rw [hw, hw, hu, hv, hc]

end Cert.KernelIdeal.Hand

end
-- ==== Proof.KI.V0.lean ====
import proofs.«138558_j25314537242668_1_alg».proof.Proof.KI.R0
import proofs.«138558_j25314537242668_1_alg».proof.Proof.KI.V0Pay
import proofs.«138558_j25314537242668_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz0 : (![0, 0] : Fin 2 → Nat) = fun _ => 0 := funext fun a => by fin_cases a <;> rfl

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)
theorem idx0_16 : ∀ t : Fin cfg0.N, win0_16.index t (0 : Fin 2) = t.val ∧ win0_16.index t (1 : Fin 2) = 0 :=
  (by decide +kernel : ∀ t : Fin grid0.N, _)
theorem idx0_17 : ∀ t : Fin cfg0.N, win0_17.index t (0 : Fin 2) = t.val ∧ win0_17.index t (1 : Fin 2) = 0 :=
  (by decide +kernel : ∀ t : Fin grid0.N, _)
theorem idx0_18 : ∀ t : Fin cfg0.N, win0_18.index t (0 : Fin 2) = t.val ∧ win0_18.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = 0 ∧ win0_13.index t (1 : Fin 2) = 0 :=
  (by decide +kernel : ∀ t : Fin grid0.N, _)
theorem idx0_14 : ∀ t : Fin cfg0.N, win0_14.index t (0 : Fin 2) = 0 ∧ win0_14.index t (1 : Fin 2) = 0 :=
  (by decide +kernel : ∀ t : Fin grid0.N, _)
theorem idx0_15 : ∀ t : Fin cfg0.N, win0_15.index t (0 : Fin 2) = 0 ∧ win0_15.index t (1 : Fin 2) = 0 :=
  (by decide +kernel : ∀ t : Fin grid0.N, _)

abbrev rowOf (t : Fin cfg0.N) (r : Fin 2000) : Fin 400000 :=
  ⟨2000 * t.val + r.val, by have ht : t.val < 200 := t.isLt; have := r.isLt; omega⟩

variable (V : (c : Dev nD) → (b : Ref sig .tc) → Buf (Elt Ideal) ((c : Thread nD τ).loc b))

theorem blk0_0 (c : Dev nD) (t : Fin cfg0.N) (r : Fin 2000) (k : Fin 128) :
    iblk0 V c 0 t (ix2 r k) = V c main_v93 (ix2 (rowOf t r) k) := by
  show V c main_v93 (((cfg0.win 0).blk t).view.emb (ix2 r k)) = _
  refine congrArg (V c main_v93) ?_
  obtain ⟨e0, e1⟩ := idx0_0 t
  funext a; apply Fin.ext
  match a with
  | ⟨0, _⟩ => show win0_0.index t (0 : Fin 2) * 2000 + 1 * r.val = 2000 * t.val + r.val; omega
  | ⟨1, _⟩ => show win0_0.index t (1 : Fin 2) * 128 + 1 * k.val = k.val; omega

theorem blk0_1 (c : Dev nD) (t : Fin cfg0.N) (r : Fin 2000) (k : Fin 128) :
    iblk0 V c 1 t (ix2 r k) = V c main_v100 (ix2 (rowOf t r) k) := by
  show V c main_v100 (((cfg0.win 1).blk t).view.emb (ix2 r k)) = _
  refine congrArg (V c main_v100) ?_
  obtain ⟨e0, e1⟩ := idx0_1 t
  funext a; apply Fin.ext
  match a with
  | ⟨0, _⟩ => show win0_1.index t (0 : Fin 2) * 2000 + 1 * r.val = 2000 * t.val + r.val; omega
  | ⟨1, _⟩ => show win0_1.index t (1 : Fin 2) * 128 + 1 * k.val = k.val; omega

theorem blk0_2 (c : Dev nD) (t : Fin cfg0.N) (r : Fin 2000) (k : Fin 50) :
    iblk0 V c 2 t (ix2 r k) = V c main_arg4 (ix2 (rowOf t r) k) := by
  show V c main_arg4 (((cfg0.win 2).blk t).view.emb (ix2 r k)) = _
  refine congrArg (V c main_arg4) ?_
  obtain ⟨e0, e1⟩ := idx0_2 t
  funext a; apply Fin.ext
  match a with
  | ⟨0, _⟩ => show win0_2.index t (0 : Fin 2) * 2000 + 1 * r.val = 2000 * t.val + r.val; omega
  | ⟨1, _⟩ => show win0_2.index t (1 : Fin 2) * 50 + 1 * k.val = k.val; omega

theorem blk0_3 (c : Dev nD) (t : Fin cfg0.N) (r : Fin 2000) (k : Fin 1) :
    iblk0 V c 3 t (ix2 r k) = V c main_v131 (ix2 (rowOf t r) k) := by
  show V c main_v131 (((cfg0.win 3).blk t).view.emb (ix2 r k)) = _
  refine congrArg (V c main_v131) ?_
  obtain ⟨e0, e1⟩ := idx0_3 t
  funext a; apply Fin.ext
  match a with
  | ⟨0, _⟩ => show win0_3.index t (0 : Fin 2) * 2000 + 1 * r.val = 2000 * t.val + r.val; omega
  | ⟨1, _⟩ => show win0_3.index t (1 : Fin 2) * 1 + 1 * k.val = k.val; omega

theorem blk0_4 (c : Dev nD) (t : Fin cfg0.N) (r : Fin 2000) (k : Fin 1) :
    iblk0 V c 4 t (ix2 r k) = V c main_v132 (ix2 (rowOf t r) k) := by
  show V c main_v132 (((cfg0.win 4).blk t).view.emb (ix2 r k)) = _
  refine congrArg (V c main_v132) ?_
  obtain ⟨e0, e1⟩ := idx0_4 t
  funext a; apply Fin.ext
  match a with
  | ⟨0, _⟩ => show win0_4.index t (0 : Fin 2) * 2000 + 1 * r.val = 2000 * t.val + r.val; omega
  | ⟨1, _⟩ => show win0_4.index t (1 : Fin 2) * 1 + 1 * k.val = k.val; omega

theorem blk0_5 (c : Dev nD) (t : Fin cfg0.N) (r : Fin 2000) (k : Fin 1) :
    iblk0 V c 5 t (ix2 r k) = V c main_v133 (ix2 (rowOf t r) k) := by
  show V c main_v133 (((cfg0.win 5).blk t).view.emb (ix2 r k)) = _
  refine congrArg (V c main_v133) ?_
  obtain ⟨e0, e1⟩ := idx0_5 t
  funext a; apply Fin.ext
  match a with
  | ⟨0, _⟩ => show win0_5.index t (0 : Fin 2) * 2000 + 1 * r.val = 2000 * t.val + r.val; omega
  | ⟨1, _⟩ => show win0_5.index t (1 : Fin 2) * 1 + 1 * k.val = k.val; omega

theorem blk0_6 (c : Dev nD) (t : Fin cfg0.N) (r : Fin 2000) (k : Fin 128) :
    iblk0 V c 6 t (ix2 r k) = V c main_v113 (ix2 (rowOf t r) k) := by
  show V c main_v113 (((cfg0.win 6).blk t).view.emb (ix2 r k)) = _
  refine congrArg (V c main_v113) ?_
  obtain ⟨e0, e1⟩ := idx0_6 t
  funext a; apply Fin.ext
  match a with
  | ⟨0, _⟩ => show win0_6.index t (0 : Fin 2) * 2000 + 1 * r.val = 2000 * t.val + r.val; omega
  | ⟨1, _⟩ => show win0_6.index t (1 : Fin 2) * 128 + 1 * k.val = k.val; omega

theorem blk0_7 (c : Dev nD) (t : Fin cfg0.N) (r : Fin 2000) (k : Fin 128) :
    iblk0 V c 7 t (ix2 r k) = V c main_v120 (ix2 (rowOf t r) k) := by
  show V c main_v120 (((cfg0.win 7).blk t).view.emb (ix2 r k)) = _
  refine congrArg (V c main_v120) ?_
  obtain ⟨e0, e1⟩ := idx0_7 t
  funext a; apply Fin.ext
  match a with
  | ⟨0, _⟩ => show win0_7.index t (0 : Fin 2) * 2000 + 1 * r.val = 2000 * t.val + r.val; omega
  | ⟨1, _⟩ => show win0_7.index t (1 : Fin 2) * 128 + 1 * k.val = k.val; omega

theorem blk0_8 (c : Dev nD) (t : Fin cfg0.N) (r : Fin 2000) (k : Fin 128) :
    iblk0 V c 8 t (ix2 r k) = V c main_v127 (ix2 (rowOf t r) k) := by
  show V c main_v127 (((cfg0.win 8).blk t).view.emb (ix2 r k)) = _
  refine congrArg (V c main_v127) ?_
  obtain ⟨e0, e1⟩ := idx0_8 t
  funext a; apply Fin.ext
  match a with
  | ⟨0, _⟩ => show win0_8.index t (0 : Fin 2) * 2000 + 1 * r.val = 2000 * t.val + r.val; omega
  | ⟨1, _⟩ => show win0_8.index t (1 : Fin 2) * 128 + 1 * k.val = k.val; omega

theorem blk0_9 (c : Dev nD) (t : Fin cfg0.N) (r : Fin 2000) (k : Fin 1) :
    iblk0 V c 9 t (ix2 r k) = V c main_v134 (ix2 (rowOf t r) k) := by
  show V c main_v134 (((cfg0.win 9).blk t).view.emb (ix2 r k)) = _
  refine congrArg (V c main_v134) ?_
  obtain ⟨e0, e1⟩ := idx0_9 t
  funext a; apply Fin.ext
  match a with
  | ⟨0, _⟩ => show win0_9.index t (0 : Fin 2) * 2000 + 1 * r.val = 2000 * t.val + r.val; omega
  | ⟨1, _⟩ => show win0_9.index t (1 : Fin 2) * 1 + 1 * k.val = k.val; omega

theorem blk0_10 (c : Dev nD) (t : Fin cfg0.N) (a : Fin 128) (b : Fin 128) :
    iblk0 V c 10 t (ix2 a b) = V c main_v128 (ix2 a b) := by
  show V c main_v128 (((cfg0.win 10).blk t).view.emb (ix2 a b)) = _
  refine congrArg (V c main_v128) ?_
  obtain ⟨e0, e1⟩ := idx0_10 t
  funext x; apply Fin.ext
  match x with
  | ⟨0, _⟩ => show win0_10.index t (0 : Fin 2) * 128 + 1 * a.val = a.val; omega
  | ⟨1, _⟩ => show win0_10.index t (1 : Fin 2) * 128 + 1 * b.val = b.val; omega

theorem blk0_11 (c : Dev nD) (t : Fin cfg0.N) (a : Fin 128) (b : Fin 128) :
    iblk0 V c 11 t (ix2 a b) = V c main_v129 (ix2 a b) := by
  show V c main_v129 (((cfg0.win 11).blk t).view.emb (ix2 a b)) = _
  refine congrArg (V c main_v129) ?_
  obtain ⟨e0, e1⟩ := idx0_11 t
  funext x; apply Fin.ext
  match x with
  | ⟨0, _⟩ => show win0_11.index t (0 : Fin 2) * 128 + 1 * a.val = a.val; omega
  | ⟨1, _⟩ => show win0_11.index t (1 : Fin 2) * 128 + 1 * b.val = b.val; omega

theorem blk0_12 (c : Dev nD) (t : Fin cfg0.N) (a : Fin 50) (b : Fin 128) :
    iblk0 V c 12 t (ix2 a b) = V c main_v130 (ix2 a b) := by
  show V c main_v130 (((cfg0.win 12).blk t).view.emb (ix2 a b)) = _
  refine congrArg (V c main_v130) ?_
  obtain ⟨e0, e1⟩ := idx0_12 t
  funext x; apply Fin.ext
  match x with
  | ⟨0, _⟩ => show win0_12.index t (0 : Fin 2) * 50 + 1 * a.val = a.val; omega
  | ⟨1, _⟩ => show win0_12.index t (1 : Fin 2) * 128 + 1 * b.val = b.val; omega

theorem blk0_13 (c : Dev nD) (t : Fin cfg0.N) (a : Fin 1) (b : Fin 128) :
    iblk0 V c 13 t (ix2 a b) = V c main_v135 (ix2 a b) := by
  show V c main_v135 (((cfg0.win 13).blk t).view.emb (ix2 a b)) = _
  refine congrArg (V c main_v135) ?_
  obtain ⟨e0, e1⟩ := idx0_13 t
  funext x; apply Fin.ext
  match x with
  | ⟨0, _⟩ => show win0_13.index t (0 : Fin 2) * 1 + 1 * a.val = a.val; omega
  | ⟨1, _⟩ => show win0_13.index t (1 : Fin 2) * 128 + 1 * b.val = b.val; omega

theorem blk0_14 (c : Dev nD) (t : Fin cfg0.N) (a : Fin 128) (b : Fin 256) :
    iblk0 V c 14 t (ix2 a b) = V c main_arg8 (ix2 a b) := by
  show V c main_arg8 (((cfg0.win 14).blk t).view.emb (ix2 a b)) = _
  refine congrArg (V c main_arg8) ?_
  obtain ⟨e0, e1⟩ := idx0_14 t
  funext x; apply Fin.ext
  match x with
  | ⟨0, _⟩ => show win0_14.index t (0 : Fin 2) * 128 + 1 * a.val = a.val; omega
  | ⟨1, _⟩ => show win0_14.index t (1 : Fin 2) * 256 + 1 * b.val = b.val; omega

theorem blk0_15 (c : Dev nD) (t : Fin cfg0.N) (a : Fin 1) (b : Fin 256) :
    iblk0 V c 15 t (ix2 a b) = V c main_v136 (ix2 a b) := by
  show V c main_v136 (((cfg0.win 15).blk t).view.emb (ix2 a b)) = _
  refine congrArg (V c main_v136) ?_
  obtain ⟨e0, e1⟩ := idx0_15 t
  funext x; apply Fin.ext
  match x with
  | ⟨0, _⟩ => show win0_15.index t (0 : Fin 2) * 1 + 1 * a.val = a.val; omega
  | ⟨1, _⟩ => show win0_15.index t (1 : Fin 2) * 256 + 1 * b.val = b.val; omega

noncomputable def vwArr (c : Dev nD) : Fin 400000 → Fin 256 → EReal :=
  Cert.Bridge.vecW (fun e j => Cert.Bridge.scalarMsg (V c main_v93) (V c main_v100) (V c main_arg4) (V c main_v128) (V c main_v129)
    (V c main_v130) (fun j => V c main_v135 (ix2 0 j)) e j) (V c main_arg8) (fun q => V c main_v136 (ix2 0 q))

noncomputable def msgArr (c : Dev nD) (U : (⟨2, ![400000, 1]⟩ : Shape).Idx → EReal) (Vr : (⟨2, ![400000, 128]⟩ : Shape).Idx → EReal) :
    (⟨2, ![400000, 128]⟩ : Shape).Idx → EReal := fun i =>
  Cert.Bridge.vecMsg1 (vwArr V c) (fun e => U (ix2 e 0)) (fun e j => Vr (ix2 e j)) (fun e => V c main_v134 (ix2 e 0)) (i 0) (i 1)

theorem blockMsg_eq (c : Dev nD) (t : Fin cfg0.N) (U : (⟨2, ![400000, 1]⟩ : Shape).Idx → EReal) (Vr : (⟨2, ![400000, 128]⟩ : Shape).Idx → EReal)
    (xU : Vec Ideal S2000x1 .f32) (xV : Vec Ideal S2000x128 .f32)
    (hU : ∀ r : Fin 2000, xU (ix2 r 0) = U (ix2 (rowOf t r) 0)) (hV : ∀ (r : Fin 2000) (k : Fin 128), xV (ix2 r k) = Vr (ix2 (rowOf t r) k))
    (r : Fin 2000) (j : Fin 128) :
    Cert.Bridge.vecMsg1
        (Cert.Bridge.vecW (fun r j => Cert.Bridge.scalarMsg (iblk0 V c 0 t : Vec Ideal S2000x128 .f32) (iblk0 V c 1 t : Vec Ideal S2000x128 .f32)
            (iblk0 V c 2 t : Vec Ideal S2000x50 .f32) (iblk0 V c 10 t : Vec Ideal S128x128 .f32) (iblk0 V c 11 t : Vec Ideal S128x128 .f32)
            (iblk0 V c 12 t : Vec Ideal S50x128 .f32) (fun j => (iblk0 V c 13 t : Vec Ideal S1x128 .f32) (ix2 0 j)) r j)
          (iblk0 V c 14 t : Vec Ideal S128x256 .f32) (fun q => (iblk0 V c 15 t : Vec Ideal S1x256 .f32) (ix2 0 q)))
        (fun r => xU (ix2 r 0)) (fun r j => xV (ix2 r j)) (fun r => (iblk0 V c 9 t : Vec Ideal S2000x1 .f32) (ix2 r 0)) r j
      = msgArr V c U Vr (ix2 (rowOf t r) j) := by
  show _ = Cert.Bridge.vecMsg1 (vwArr V c) (fun e => U (ix2 e 0)) (fun e j => Vr (ix2 e j)) (fun e => V c main_v134 (ix2 e 0)) (rowOf t r) j
  refine vecMsg1_row _ _ _ _ _ _ _ _ r (rowOf t r) j (fun q => ?_) (hU r) (hV r) (blk0_9 V c t r 0)
  unfold vwArr
  refine vecW_row _ _ _ _ _ _ r (rowOf t r) q (fun k => ?_) (blk0_14 V c t) (blk0_15 V c t 0)
  exact scalarMsg_row _ _ _ _ _ _ _ _ _ _ _ _ _ _ r (rowOf t r) k (blk0_0 V c t r) (blk0_1 V c t r) (blk0_2 V c t r)
    (blk0_10 V c t) (blk0_11 V c t) (blk0_12 V c t) (blk0_13 V c t 0)

theorem flushed16_eq (c : Dev nD) (t : Fin cfg0.N) :
    (dat0 V c).flushed 16 t = ((cfg0.win 16).blk t).view.read (Elt Ideal) (msgArr V c (V c main_v131) (V c main_v113)) := by
  show (cfg0.win 16).cut (grid0.coords t) ((dat0 V c).after 16 t) = _
  rw [after0_16]
  unfold out0_16
  rw [View.canon_unit_zero hz0]
  simp only [View.ld_unit_zero (S := S2000x128) hz0, View.ld_unit_zero (S := S2000x50) hz0, View.ld_unit_zero (S := S2000x1) hz0,
    View.ld_unit_zero (S := S128x128) hz0, View.ld_unit_zero (S := S50x128) hz0, View.ld_unit_zero (S := S1x128) hz0,
    View.ld_unit_zero (S := S128x256) hz0, View.ld_unit_zero (S := S1x256) hz0]
  funext y
  obtain ⟨r, j, rfl⟩ : ∃ (r : Fin 2000) (j : Fin 128), y = ix2 r j := ⟨y 0, y 1, eq_ix2 y⟩
  refine (msg2_apply (iblk0 V c 0 t) (iblk0 V c 1 t) (iblk0 V c 2 t) (iblk0 V c 3 t) (iblk0 V c 6 t) (iblk0 V c 9 t) (iblk0 V c 10 t)
    (iblk0 V c 11 t) (iblk0 V c 12 t) (iblk0 V c 13 t) (iblk0 V c 14 t) (iblk0 V c 15 t) r j).trans ?_
  refine (blockMsg_eq V c t (V c main_v131) (V c main_v113) (iblk0 V c 3 t) (iblk0 V c 6 t) (fun r => blk0_3 V c t r 0) (blk0_6 V c t) r j).trans ?_
  show _ = msgArr V c (V c main_v131) (V c main_v113) (((cfg0.win 16).blk t).view.emb (ix2 r j))
  refine congrArg (msgArr V c (V c main_v131) (V c main_v113)) ?_
  obtain ⟨e0, e1⟩ := idx0_16 t
  funext a; apply Fin.ext
  match a with
  | ⟨0, _⟩ => show 2000 * t.val + r.val = win0_16.index t (0 : Fin 2) * 2000 + 1 * r.val; omega
  | ⟨1, _⟩ => show j.val = win0_16.index t (1 : Fin 2) * 128 + 1 * j.val; omega

theorem mem_blk16 (t : Fin cfg0.N) (i : (⟨2, ![400000, 128]⟩ : Shape).Idx) :
    i ∈ ((cfg0.win 16).blk t).view.set ↔ ∀ a : Fin 2, win0_16.index t a * S2000x128.size a ≤ (i a).val ∧ (i a).val < win0_16.index t a * S2000x128.size a + S2000x128.size a := by
  show i ∈ ((View.whole main_v137_0).slice (win0_16.rect t)).set ↔ _
  rw [View.set_slice_whole, Rect.mem_set_unit]
  exact Iff.rfl

theorem cover16 (i : (⟨2, ![400000, 128]⟩ : Shape).Idx) :
    ∃ t : Fin cfg0.N, (cfg0.win 16).flush t = true ∧ i ∈ ((cfg0.win 16).blk t).view.set := by
  have hi0 : (i 0).val < 400000 := (i 0).isLt
  have hi1 : (i 1).val < 128 := (i 1).isLt
  refine ⟨⟨(i 0).val / 2000, by show _ < 200; omega⟩, flush0_16 _, ?_⟩
  rw [mem_blk16]
  obtain ⟨e0, e1⟩ := idx0_16 ⟨(i 0).val / 2000, by show _ < 200; omega⟩
  intro a
  match a with
  | ⟨0, _⟩ =>
    show win0_16.index _ (0 : Fin 2) * 2000 ≤ (i 0).val ∧ (i 0).val < win0_16.index _ (0 : Fin 2) * 2000 + 2000
    rw [e0]; show (i 0).val / 2000 * 2000 ≤ (i 0).val ∧ (i 0).val < (i 0).val / 2000 * 2000 + 2000; omega
  | ⟨1, _⟩ =>
    show win0_16.index _ (1 : Fin 2) * 128 ≤ (i 1).val ∧ (i 1).val < win0_16.index _ (1 : Fin 2) * 128 + 128
    rw [e1]; omega

theorem arr0_16 (c : Dev nD) (e : Fin 400000) (j : Fin 128) :
    (dat0 V c).arrAt 16 cfg0.N (ix2 e j)
      = Cert.Bridge.vecMsg1 (Cert.Bridge.vecW (fun e j => Cert.Bridge.scalarMsg (V c main_v93) (V c main_v100) (V c main_arg4) (V c main_v128) (V c main_v129) (V c main_v130) (fun j => V c main_v135 (ix2 0 j)) e j) (V c main_arg8) (fun q => V c main_v136 (ix2 0 q)))
          (fun e => V c main_v131 (ix2 e 0)) (fun e j => V c main_v113 (ix2 e j)) (fun e => V c main_v134 (ix2 e 0)) e j :=
  congrFun ((dat0 V c).arrAt_eq_of_cover 16 (msgArr V c (V c main_v131) (V c main_v113)) (fun t _ => flushed16_eq V c t) cover16) (ix2 e j)

theorem flushed17_eq (c : Dev nD) (t : Fin cfg0.N) :
    (dat0 V c).flushed 17 t = ((cfg0.win 17).blk t).view.read (Elt Ideal) (msgArr V c (V c main_v132) (V c main_v120)) := by
  show (cfg0.win 17).cut (grid0.coords t) ((dat0 V c).after 17 t) = _
  rw [after0_17]
  unfold out0_17
  rw [View.canon_unit_zero hz0]
  simp only [View.ld_unit_zero (S := S2000x128) hz0, View.ld_unit_zero (S := S2000x50) hz0, View.ld_unit_zero (S := S2000x1) hz0,
    View.ld_unit_zero (S := S128x128) hz0, View.ld_unit_zero (S := S50x128) hz0, View.ld_unit_zero (S := S1x128) hz0,
    View.ld_unit_zero (S := S128x256) hz0, View.ld_unit_zero (S := S1x256) hz0]
  funext y
  obtain ⟨r, j, rfl⟩ : ∃ (r : Fin 2000) (j : Fin 128), y = ix2 r j := ⟨y 0, y 1, eq_ix2 y⟩
  refine (msg3_apply (iblk0 V c 0 t) (iblk0 V c 1 t) (iblk0 V c 2 t) (iblk0 V c 4 t) (iblk0 V c 7 t) (iblk0 V c 9 t) (iblk0 V c 10 t)
    (iblk0 V c 11 t) (iblk0 V c 12 t) (iblk0 V c 13 t) (iblk0 V c 14 t) (iblk0 V c 15 t) r j).trans ?_
  refine (blockMsg_eq V c t (V c main_v132) (V c main_v120) (iblk0 V c 4 t) (iblk0 V c 7 t) (fun r => blk0_4 V c t r 0) (blk0_7 V c t) r j).trans ?_
  show _ = msgArr V c (V c main_v132) (V c main_v120) (((cfg0.win 17).blk t).view.emb (ix2 r j))
  refine congrArg (msgArr V c (V c main_v132) (V c main_v120)) ?_
  obtain ⟨e0, e1⟩ := idx0_17 t
  funext a; apply Fin.ext
  match a with
  | ⟨0, _⟩ => show 2000 * t.val + r.val = win0_17.index t (0 : Fin 2) * 2000 + 1 * r.val; omega
  | ⟨1, _⟩ => show j.val = win0_17.index t (1 : Fin 2) * 128 + 1 * j.val; omega

theorem mem_blk17 (t : Fin cfg0.N) (i : (⟨2, ![400000, 128]⟩ : Shape).Idx) :
    i ∈ ((cfg0.win 17).blk t).view.set ↔ ∀ a : Fin 2, win0_17.index t a * S2000x128.size a ≤ (i a).val ∧ (i a).val < win0_17.index t a * S2000x128.size a + S2000x128.size a := by
  show i ∈ ((View.whole main_v137_1).slice (win0_17.rect t)).set ↔ _
  rw [View.set_slice_whole, Rect.mem_set_unit]
  exact Iff.rfl

theorem cover17 (i : (⟨2, ![400000, 128]⟩ : Shape).Idx) :
    ∃ t : Fin cfg0.N, (cfg0.win 17).flush t = true ∧ i ∈ ((cfg0.win 17).blk t).view.set := by
  have hi0 : (i 0).val < 400000 := (i 0).isLt
  have hi1 : (i 1).val < 128 := (i 1).isLt
  refine ⟨⟨(i 0).val / 2000, by show _ < 200; omega⟩, flush0_17 _, ?_⟩
  rw [mem_blk17]
  obtain ⟨e0, e1⟩ := idx0_17 ⟨(i 0).val / 2000, by show _ < 200; omega⟩
  intro a
  match a with
  | ⟨0, _⟩ =>
    show win0_17.index _ (0 : Fin 2) * 2000 ≤ (i 0).val ∧ (i 0).val < win0_17.index _ (0 : Fin 2) * 2000 + 2000
    rw [e0]; show (i 0).val / 2000 * 2000 ≤ (i 0).val ∧ (i 0).val < (i 0).val / 2000 * 2000 + 2000; omega
  | ⟨1, _⟩ =>
    show win0_17.index _ (1 : Fin 2) * 128 ≤ (i 1).val ∧ (i 1).val < win0_17.index _ (1 : Fin 2) * 128 + 128
    rw [e1]; omega

theorem arr0_17 (c : Dev nD) (e : Fin 400000) (j : Fin 128) :
    (dat0 V c).arrAt 17 cfg0.N (ix2 e j)
      = Cert.Bridge.vecMsg1 (Cert.Bridge.vecW (fun e j => Cert.Bridge.scalarMsg (V c main_v93) (V c main_v100) (V c main_arg4) (V c main_v128) (V c main_v129) (V c main_v130) (fun j => V c main_v135 (ix2 0 j)) e j) (V c main_arg8) (fun q => V c main_v136 (ix2 0 q)))
          (fun e => V c main_v132 (ix2 e 0)) (fun e j => V c main_v120 (ix2 e j)) (fun e => V c main_v134 (ix2 e 0)) e j :=
  congrFun ((dat0 V c).arrAt_eq_of_cover 17 (msgArr V c (V c main_v132) (V c main_v120)) (fun t _ => flushed17_eq V c t) cover17) (ix2 e j)

theorem flushed18_eq (c : Dev nD) (t : Fin cfg0.N) :
    (dat0 V c).flushed 18 t = ((cfg0.win 18).blk t).view.read (Elt Ideal) (msgArr V c (V c main_v133) (V c main_v127)) := by
  show (cfg0.win 18).cut (grid0.coords t) ((dat0 V c).after 18 t) = _
  rw [after0_18]
  unfold out0_18
  rw [View.canon_unit_zero hz0]
  simp only [View.ld_unit_zero (S := S2000x128) hz0, View.ld_unit_zero (S := S2000x50) hz0, View.ld_unit_zero (S := S2000x1) hz0,
    View.ld_unit_zero (S := S128x128) hz0, View.ld_unit_zero (S := S50x128) hz0, View.ld_unit_zero (S := S1x128) hz0,
    View.ld_unit_zero (S := S128x256) hz0, View.ld_unit_zero (S := S1x256) hz0]
  funext y
  obtain ⟨r, j, rfl⟩ : ∃ (r : Fin 2000) (j : Fin 128), y = ix2 r j := ⟨y 0, y 1, eq_ix2 y⟩
  refine (msg4_apply (iblk0 V c 0 t) (iblk0 V c 1 t) (iblk0 V c 2 t) (iblk0 V c 5 t) (iblk0 V c 8 t) (iblk0 V c 9 t) (iblk0 V c 10 t)
    (iblk0 V c 11 t) (iblk0 V c 12 t) (iblk0 V c 13 t) (iblk0 V c 14 t) (iblk0 V c 15 t) r j).trans ?_
  refine (blockMsg_eq V c t (V c main_v133) (V c main_v127) (iblk0 V c 5 t) (iblk0 V c 8 t) (fun r => blk0_5 V c t r 0) (blk0_8 V c t) r j).trans ?_
  show _ = msgArr V c (V c main_v133) (V c main_v127) (((cfg0.win 18).blk t).view.emb (ix2 r j))
  refine congrArg (msgArr V c (V c main_v133) (V c main_v127)) ?_
  obtain ⟨e0, e1⟩ := idx0_18 t
  funext a; apply Fin.ext
  match a with
  | ⟨0, _⟩ => show 2000 * t.val + r.val = win0_18.index t (0 : Fin 2) * 2000 + 1 * r.val; omega
  | ⟨1, _⟩ => show j.val = win0_18.index t (1 : Fin 2) * 128 + 1 * j.val; omega

theorem mem_blk18 (t : Fin cfg0.N) (i : (⟨2, ![400000, 128]⟩ : Shape).Idx) :
    i ∈ ((cfg0.win 18).blk t).view.set ↔ ∀ a : Fin 2, win0_18.index t a * S2000x128.size a ≤ (i a).val ∧ (i a).val < win0_18.index t a * S2000x128.size a + S2000x128.size a := by
  show i ∈ ((View.whole main_v137_2).slice (win0_18.rect t)).set ↔ _
  rw [View.set_slice_whole, Rect.mem_set_unit]
  exact Iff.rfl

theorem cover18 (i : (⟨2, ![400000, 128]⟩ : Shape).Idx) :
    ∃ t : Fin cfg0.N, (cfg0.win 18).flush t = true ∧ i ∈ ((cfg0.win 18).blk t).view.set := by
  have hi0 : (i 0).val < 400000 := (i 0).isLt
  have hi1 : (i 1).val < 128 := (i 1).isLt
  refine ⟨⟨(i 0).val / 2000, by show _ < 200; omega⟩, flush0_18 _, ?_⟩
  rw [mem_blk18]
  obtain ⟨e0, e1⟩ := idx0_18 ⟨(i 0).val / 2000, by show _ < 200; omega⟩
  intro a
  match a with
  | ⟨0, _⟩ =>
    show win0_18.index _ (0 : Fin 2) * 2000 ≤ (i 0).val ∧ (i 0).val < win0_18.index _ (0 : Fin 2) * 2000 + 2000
    rw [e0]; show (i 0).val / 2000 * 2000 ≤ (i 0).val ∧ (i 0).val < (i 0).val / 2000 * 2000 + 2000; omega
  | ⟨1, _⟩ =>
    show win0_18.index _ (1 : Fin 2) * 128 ≤ (i 1).val ∧ (i 1).val < win0_18.index _ (1 : Fin 2) * 128 + 128
    rw [e1]; omega

theorem arr0_18 (c : Dev nD) (e : Fin 400000) (j : Fin 128) :
    (dat0 V c).arrAt 18 cfg0.N (ix2 e j)
      = Cert.Bridge.vecMsg1 (Cert.Bridge.vecW (fun e j => Cert.Bridge.scalarMsg (V c main_v93) (V c main_v100) (V c main_arg4) (V c main_v128) (V c main_v129) (V c main_v130) (fun j => V c main_v135 (ix2 0 j)) e j) (V c main_arg8) (fun q => V c main_v136 (ix2 0 q)))
          (fun e => V c main_v133 (ix2 e 0)) (fun e j => V c main_v127 (ix2 e j)) (fun e => V c main_v134 (ix2 e 0)) e j :=
  congrFun ((dat0 V c).arrAt_eq_of_cover 18 (msgArr V c (V c main_v133) (V c main_v127)) (fun t _ => flushed18_eq V c t) cover18) (ix2 e j)

end Cert.KernelIdeal.Hand

end
-- ==== Proof.RefVal.lean ====
import proofs.«138558_j25314537242668_1_alg».proof.Proof.Gen.ReferenceIdeal.Read
import proofs.«138558_j25314537242668_1_alg».proof.Proof.Spec
import proofs.«138558_j25314537242668_1_alg».proof.Proof.LibConcatDot
import proofs.«138558_j25314537242668_1_alg».proof.Proof.LibPlainDot
import Idealize.ShloMosaic.Lib.ValueIdx
import Idealize.ShloMosaic.Lib.Pipeline.Value
import Idealize.ShloMosaic.PureOps.Ideal.Laws

noncomputable section

open scoped BigOperators

namespace Cert.Bridge

open Cert.ReferenceIdeal Cert.ReferenceIdeal.Read Idealize.ShloMosaic Idealize.ShloMosaic.ValueIdx

theorem one_f32 : FloatOps.ofBits (F := Ideal) .f32 0x3F800000#32 = (1 : EReal) :=
  IdealRules.sign_bit.ideal_onePat .f32

theorem sigmoid_spelt (z : Ideal .f32) :
    FloatOps.hostDivf (FloatOps.ofBits .f32 0x3F800000#32)
        (FloatOps.addf (FloatOps.ofBits .f32 0x3F800000#32) (FloatOps.hostUnary .exp (FloatOps.hostNegf z)))
      = Ideal.logistic z := by
  rw [one_f32]
  rfl

variable (x0 : (⟨S25000x128, .f32⟩ : BufTy).Contents (Elt Ideal)) (x1 : (⟨S25000x3x128, .f32⟩ : BufTy).Contents (Elt Ideal))
  (x2 : (⟨S400000x128, .f32⟩ : BufTy).Contents (Elt Ideal)) (x3 : (⟨S25000x3, .f32⟩ : BufTy).Contents (Elt Ideal))
  (x4 : (⟨S400000x50, .f32⟩ : BufTy).Contents (Elt Ideal)) (x5 : (⟨S2x400000, .i32⟩ : BufTy).Contents (Elt Ideal))
  (x6 : (⟨S306x128, .f32⟩ : BufTy).Contents (Elt Ideal)) (x7 : (⟨S128, .f32⟩ : BufTy).Contents (Elt Ideal))
  (x8 : (⟨S128x256, .f32⟩ : BufTy).Contents (Elt Ideal)) (x9 : (⟨S256, .f32⟩ : BufTy).Contents (Elt Ideal))
  (x10 : (⟨S128x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))
  (x16 : (⟨S128x128, .f32⟩ : BufTy).Contents (Elt Ideal)) (x17 : (⟨S128, .f32⟩ : BufTy).Contents (Elt Ideal))

theorem ref_ang (p : Fin 25000) (q : Fin 128) :
    val_main_v43 (F := Ideal) x3 x5 (ix2 p q) = val_main_v42 (F := Ideal) x3 x5 (ix2 p 0) := by
  rw [val_main_v43_apply]
  exact congrArg (val_main_v42 (F := Ideal) x3 x5)
    (funext fun a => Fin.ext (by match a with | ⟨0, _⟩ => rfl | ⟨1, _⟩ => rfl))

theorem ref_dih (e : Fin 400000) (q : Fin 128) :
    val_main_v73 (F := Ideal) x3 x5 (ix2 e q) = val_main_v72 (F := Ideal) x3 x5 (ix2 e 0) := by
  rw [val_main_v73_apply]
  exact congrArg (val_main_v72 (F := Ideal) x3 x5)
    (funext fun a => Fin.ext (by match a with | ⟨0, _⟩ => rfl | ⟨1, _⟩ => rfl))

theorem h_bias1 (p : Fin 25000) (q : Fin 128) :
    val_main_v149 (F := Ideal) x11 (ix2 p q) = x11 (ix1 q) := by
  rw [val_main_v149_apply, val_main_v148_apply]
  exact congrArg x11 (funext fun a => Fin.ext (by match a with | ⟨0, _⟩ => rfl))

theorem h_bias2 (p : Fin 25000) (q : Fin 128) :
    val_main_v139 (F := Ideal) x15 (ix2 p q) = x15 (ix1 q) := by
  rw [val_main_v139_apply, val_main_v138_apply]
  exact congrArg x15 (funext fun a => Fin.ext (by match a with | ⟨0, _⟩ => rfl))

theorem h_lin (p : Fin 25000) (q : Fin 128) :
    val_main_v150 (F := Ideal) x0 x10 x11 (ix2 p q)
      = (∑ k : Fin 128, x0 (ix2 p k) * x10 (ix2 k q)) + x11 (ix1 q) := by
  rw [val_main_v150_apply, h_bias1, Ideal.addf_def]
  exact congrArg (· + x11 (ix1 q))
    (hostDot_plain dot_S25000x128_S128x128_S25000x128_1_0_0_1_n_n rfl rfl rfl rfl rfl rfl x0 x10 p q)

theorem h_gate (p : Fin 25000) (q : Fin 128) :
    val_main_v146 (F := Ideal) x3 x5 x14 x15 (ix2 p q)
      = Ideal.logistic ((∑ k : Fin 128, val_main_v42 (F := Ideal) x3 x5 (ix2 p 0) * x14 (ix2 k q)) + x15 (ix1 q)) := by
  rw [val_main_v146_apply, val_main_v145_apply, val_main_cst_29_apply, val_main_v144_apply,
    val_main_v143_apply, val_main_cst_28_apply, val_main_v142_apply, val_main_v141_apply, sigmoid_spelt]
  refine congrArg Ideal.logistic ?_
  rw [val_main_v140_apply, h_bias2, Ideal.addf_def]
  refine congrArg (· + x15 (ix1 q)) ?_
  refine (hostDot_plain dot_S25000x128_S128x128_S25000x128_1_0_0_1_n_n rfl rfl rfl rfl rfl rfl
    (val_main_v43 (F := Ideal) x3 x5) x14 p q).trans ?_
  exact Finset.sum_congr rfl fun k _ => congrArg (· * x14 (ix2 k q)) (ref_ang x3 x5 p k)

theorem ref_h (p : Fin 25000) (q : Fin 128) :
    val_main_v152 (F := Ideal) x0 x3 x5 x10 x11 x14 x15 (ix2 p q)
      = Cert.Bridge.gated x0 (fun n => val_main_v42 (F := Ideal) x3 x5 (ix2 n 0)) x10 (fun j => x11 (ix1 j)) x14
          (fun j => x15 (ix1 j)) p q := by
  rw [val_main_v152_apply, val_main_v151_apply, h_lin, h_gate]
  rfl

theorem f_bias1 (p : Fin 400000) (q : Fin 128) :
    val_main_v165 (F := Ideal) x13 (ix2 p q) = x13 (ix1 q) := by
  rw [val_main_v165_apply, val_main_v164_apply]
  exact congrArg x13 (funext fun a => Fin.ext (by match a with | ⟨0, _⟩ => rfl))

theorem f_bias2 (p : Fin 400000) (q : Fin 128) :
    val_main_v155 (F := Ideal) x17 (ix2 p q) = x17 (ix1 q) := by
  rw [val_main_v155_apply, val_main_v154_apply]
  exact congrArg x17 (funext fun a => Fin.ext (by match a with | ⟨0, _⟩ => rfl))

theorem f_lin (p : Fin 400000) (q : Fin 128) :
    val_main_v166 (F := Ideal) x2 x12 x13 (ix2 p q)
      = (∑ k : Fin 128, x2 (ix2 p k) * x12 (ix2 k q)) + x13 (ix1 q) := by
  rw [val_main_v166_apply, f_bias1, Ideal.addf_def]
  exact congrArg (· + x13 (ix1 q))
    (hostDot_plain dot_S400000x128_S128x128_S400000x128_1_0_0_1_n_n rfl rfl rfl rfl rfl rfl x2 x12 p q)

theorem f_gate (p : Fin 400000) (q : Fin 128) :
    val_main_v162 (F := Ideal) x3 x5 x16 x17 (ix2 p q)
      = Ideal.logistic ((∑ k : Fin 128, val_main_v72 (F := Ideal) x3 x5 (ix2 p 0) * x16 (ix2 k q)) + x17 (ix1 q)) := by
  rw [val_main_v162_apply, val_main_v161_apply, val_main_cst_31_apply, val_main_v160_apply,
    val_main_v159_apply, val_main_cst_30_apply, val_main_v158_apply, val_main_v157_apply, sigmoid_spelt]
  refine congrArg Ideal.logistic ?_
  rw [val_main_v156_apply, f_bias2, Ideal.addf_def]
  refine congrArg (· + x17 (ix1 q)) ?_
  refine (hostDot_plain dot_S400000x128_S128x128_S400000x128_1_0_0_1_n_n rfl rfl rfl rfl rfl rfl
    (val_main_v73 (F := Ideal) x3 x5) x16 p q).trans ?_
  exact Finset.sum_congr rfl fun k _ => congrArg (· * x16 (ix2 k q)) (ref_dih x3 x5 p k)

theorem ref_f (e : Fin 400000) (q : Fin 128) :
    val_main_v168 (F := Ideal) x2 x3 x5 x12 x13 x16 x17 (ix2 e q)
      = Cert.Bridge.gated x2 (fun n => val_main_v72 (F := Ideal) x3 x5 (ix2 n 0)) x12 (fun j => x13 (ix1 j)) x16
          (fun j => x17 (ix1 j)) e q := by
  rw [val_main_v168_apply, val_main_v167_apply, f_lin, f_gate]
  rfl

theorem msg_bias1 (e : Fin 400000) (j : Fin 128) :
    val_main_v106 (F := Ideal) x7 (ix2 e j) = x7 (ix1 j) := by
  rw [val_main_v106_apply, val_main_v105_apply]
  exact congrArg x7 (funext fun a => Fin.ext (by match a with | ⟨0, _⟩ => rfl))

theorem msg_bias2 (e : Fin 400000) (q : Fin 256) :
    val_main_v110 (F := Ideal) x9 (ix2 e q) = x9 (ix1 q) := by
  rw [val_main_v110_apply, val_main_v109_apply]
  exact congrArg x9 (funext fun a => Fin.ext (by match a with | ⟨0, _⟩ => rfl))

theorem ref_sm (e : Fin 400000) (j : Fin 128) :
    val_main_v107 (F := Ideal) x0 x4 x5 x6 x7 (ix2 e j)
      = scalarMsg (val_main_v95 (F := Ideal) x0 x5) (val_main_v102 (F := Ideal) x0 x5) x4
          (fun i => x6 (ix2 ⟨(i 0).val, by have := idx2_lt0 i; omega⟩ (i 1)))
          (fun i => x6 (ix2 ⟨128 + (i 0).val, by have := idx2_lt0 i; omega⟩ (i 1)))
          (fun i => x6 (ix2 ⟨256 + (i 0).val, by have := idx2_lt0 i; omega⟩ (i 1)))
          (fun j => x7 (ix1 j)) e j := by
  rw [val_main_v107_apply, msg_bias1, Ideal.addf_def]
  exact congrArg (· + x7 (ix1 j))
    (dot306_split (val_main_v95 (F := Ideal) x0 x5) (val_main_v102 (F := Ideal) x0 x5) x4 x6 e j)

theorem ref_vw (e : Fin 400000) (q : Fin 256) :
    val_main_v111 (F := Ideal) x0 x4 x5 x6 x7 x8 x9 (ix2 e q)
      = vecW (fun e j => scalarMsg (val_main_v95 (F := Ideal) x0 x5) (val_main_v102 (F := Ideal) x0 x5) x4
          (fun i => x6 (ix2 ⟨(i 0).val, by have := idx2_lt0 i; omega⟩ (i 1)))
          (fun i => x6 (ix2 ⟨128 + (i 0).val, by have := idx2_lt0 i; omega⟩ (i 1)))
          (fun i => x6 (ix2 ⟨256 + (i 0).val, by have := idx2_lt0 i; omega⟩ (i 1)))
          (fun j => x7 (ix1 j)) e j) x8 (fun q => x9 (ix1 q)) e q := by
  rw [val_main_v111_apply, msg_bias2, Ideal.addf_def]
  refine congrArg (· + x9 (ix1 q)) ?_
  refine (hostDot_plain dot_S400000x128_S128x256_S400000x256_1_0_0_1_n_n rfl rfl rfl rfl rfl rfl
    (val_main_v107 (F := Ideal) x0 x4 x5 x6 x7) x8 e q).trans ?_
  exact Finset.sum_congr rfl fun k _ => congrArg (· * x8 (ix2 k q)) (ref_sm x0 x4 x5 x6 x7 e k)

theorem read_w1 (e : Fin 400000) (k : Fin 3) (j : Fin 128) :
    val_main_v116 (F := Ideal) x0 x4 x5 x6 x7 x8 x9 (ix3 e k j)
      = val_main_v111 (F := Ideal) x0 x4 x5 x6 x7 x8 x9 (ix2 e ⟨j.val, by omega⟩) := by
  rw [val_main_v116_apply, val_main_v114_apply, val_main_v112_apply]
  exact congrArg (val_main_v111 (F := Ideal) x0 x4 x5 x6 x7 x8 x9)
    (funext fun a => Fin.ext (by match a with | ⟨0, _⟩ => rfl | ⟨1, _⟩ => rfl))

theorem read_w2 (e : Fin 400000) (k : Fin 3) (j : Fin 128) :
    val_main_v127 (F := Ideal) x0 x4 x5 x6 x7 x8 x9 (ix3 e k j)
      = val_main_v111 (F := Ideal) x0 x4 x5 x6 x7 x8 x9 (ix2 e ⟨128 + j.val, by omega⟩) := by
  rw [val_main_v127_apply, val_main_v119_apply, val_main_v113_apply]
  exact congrArg (val_main_v111 (F := Ideal) x0 x4 x5 x6 x7 x8 x9)
    (funext fun a => Fin.ext (by match a with | ⟨0, _⟩ => rfl | ⟨1, _⟩ => rfl))

theorem read_uv (e : Fin 400000) (k : Fin 3) (j : Fin 128) :
    val_main_v117 (F := Ideal) x3 x5 (ix3 e k j) = val_main_v23 (F := Ideal) x3 x5 (ix2 e k) := by
  rw [val_main_v117_apply, val_main_v115_apply]
  exact congrArg (val_main_v23 (F := Ideal) x3 x5)
    (funext fun a => Fin.ext (by match a with | ⟨0, _⟩ => rfl | ⟨1, _⟩ => rfl))

theorem read_cut (e : Fin 400000) (k : Fin 3) (j : Fin 128) :
    val_main_v131 (F := Ideal) x3 x5 (ix3 e k j) = val_main_v88 (F := Ideal) x3 x5 (ix1 e) := by
  rw [val_main_v131_apply, val_main_v130_apply]
  exact congrArg (val_main_v88 (F := Ideal) x3 x5)
    (funext fun a => Fin.ext (by match a with | ⟨0, _⟩ => rfl))

theorem ref_msg (e : Fin 400000) (k : Fin 3) (j : Fin 128) :
    val_main_v132 (F := Ideal) x0 x1 x3 x4 x5 x6 x7 x8 x9 (ix3 e k j)
      = Cert.Bridge.vecMsg1 (Cert.Bridge.vecW (fun e j => scalarMsg (val_main_v95 (F := Ideal) x0 x5) (val_main_v102 (F := Ideal) x0 x5) x4
          (fun i => x6 (ix2 ⟨(i 0).val, by have := idx2_lt0 i; omega⟩ (i 1)))
          (fun i => x6 (ix2 ⟨128 + (i 0).val, by have := idx2_lt0 i; omega⟩ (i 1)))
          (fun i => x6 (ix2 ⟨256 + (i 0).val, by have := idx2_lt0 i; omega⟩ (i 1)))
          (fun j => x7 (ix1 j)) e j) x8 (fun q => x9 (ix1 q)))
          (fun e => val_main_v23 (F := Ideal) x3 x5 (ix2 e k)) (fun e j => val_main_v126 (F := Ideal) x1 x5 (ix3 e k j))
          (fun e => val_main_v88 (F := Ideal) x3 x5 (ix1 e)) e j := by
  rw [val_main_v132_apply, val_main_v129_apply, val_main_v118_apply, val_main_v128_apply, read_w1, read_w2, read_uv,
    read_cut, ref_vw, ref_vw]
  rfl

theorem ref_v (n : Fin 25000) (k : Fin 3) (j : Fin 128) :
    val_main_v136 (F := Ideal) x0 x1 x3 x4 x5 x6 x7 x8 x9 (ix3 n k j)
      = x1 (ix3 n k j) + Ideal.hostScatterAdd Cert.ReferenceIdeal.scatter_S25000x3x128_S400000x1_S400000x3x128_12_0_0_1
          (fun _ => (0 : EReal)) (val_main_v134 (F := Ideal) x5)
          (val_main_v132 (F := Ideal) x0 x1 x3 x4 x5 x6 x7 x8 x9) (ix3 n k j) := by
  have h0 : val_main_v133 (F := Ideal) = fun _ => (0 : EReal) :=
    funext fun i => by rw [val_main_v133_apply, val_main_cst_27_apply]; exact Ideal.ofBits_zero_f32
  rw [val_main_v136_apply, Ideal.addf_def]
  refine congrArg (x1 (ix3 n k j) + ·) ?_
  unfold val_main_v135
  rw [h0]
  rfl

end Cert.Bridge

end
-- ==== Proof.LibScatterStack.lean ====
import proofs.«138558_j25314537242668_1_alg».proof.KernelIdeal
import proofs.«138558_j25314537242668_1_alg».proof.ReferenceIdeal
import Idealize.ShloMosaic.PureOps.Ideal
import Idealize.ShloMosaic.Lib.ValueIdx
import Idealize.ShloMosaic.Lib.Pipeline.Value
import Mathlib.Algebra.BigOperators.Group.Finset.Defs
import Mathlib.Data.Finset.Filter
import Mathlib.Data.EReal.Basic

namespace Cert.Bridge

open Idealize.ShloMosaic Idealize.ShloMosaic.ValueIdx

private theorem forall_fin2 {P : Fin 2 → Prop} : (∀ a, P a) ↔ P 0 ∧ P 1 :=
  ⟨fun h => ⟨h 0, h 1⟩, fun h a => match a with | ⟨0, _⟩ => h.1 | ⟨1, _⟩ => h.2⟩

private theorem forall_fin3 {P : Fin 3 → Prop} : (∀ a, P a) ↔ P 0 ∧ P 1 ∧ P 2 :=
  ⟨fun h => ⟨h 0, h 1, h 2⟩, fun h a => match a with | ⟨0, _⟩ => h.1 | ⟨1, _⟩ => h.2.1 | ⟨2, _⟩ => h.2.2⟩

section Rank3
variable [Cert.ReferenceIdeal.Facts₀]

local notation "dR" => Cert.ReferenceIdeal.scatter_S25000x3x128_S400000x1_S400000x3x128_12_0_0_1

theorem scatterR_sdto : (dR).scatterDimsToOperandDims = [0] := rfl

theorem scatterR_sKept : (dR).sKept = [1, 2] := by
  show Cert.ReferenceIdeal.S25000x3x128.kept [0] = [1, 2]
  decide

theorem scatterR_start0 (idx : IVec Cert.ReferenceIdeal.S400000x1 32) (e : Fin 400000) (k' : Fin 3) (j' : Fin 128) :
    (dR).start (ix3 e k' j') idx 0 = (idx (ix2 e 0)).toInt := by
  unfold ScatterDims.start
  rw [dif_pos (show (0 : Fin 3) ∈ (dR).scatterDimsToOperandDims from List.mem_singleton.mpr rfl)]
  refine congrArg (fun t => (idx t).toInt) ?_
  funext b; refine Fin.ext ?_
  match b with
  | ⟨0, _⟩ => rfl
  | ⟨1, _⟩ => rfl

theorem scatterR_start1 (idx : IVec Cert.ReferenceIdeal.S400000x1 32) (u : Cert.ReferenceIdeal.S400000x3x128.Idx) :
    (dR).start u idx 1 = 0 := by
  have h : ¬ (1 : Fin 3) ∈ (dR).scatterDimsToOperandDims := by rw [scatterR_sdto]; decide
  unfold ScatterDims.start
  rw [dif_neg h]

theorem scatterR_start2 (idx : IVec Cert.ReferenceIdeal.S400000x1 32) (u : Cert.ReferenceIdeal.S400000x3x128.Idx) :
    (dR).start u idx 2 = 0 := by
  have h : ¬ (2 : Fin 3) ∈ (dR).scatterDimsToOperandDims := by rw [scatterR_sdto]; decide
  unfold ScatterDims.start
  rw [dif_neg h]

theorem scatterR_window0 (u : Cert.ReferenceIdeal.S400000x3x128.Idx) : (dR).window u 0 = 0 := by
  have h : ¬ (0 : Fin 3) ∈ (dR).sKept := by rw [scatterR_sKept]; decide
  unfold ScatterDims.window
  rw [dif_neg h]

theorem scatterR_window1 (e : Fin 400000) (k' : Fin 3) (j' : Fin 128) : (dR).window (ix3 e k' j') 1 = k'.val := by
  have h : (1 : Fin 3) ∈ (dR).sKept := by rw [scatterR_sKept]; decide
  unfold ScatterDims.window
  rw [dif_pos h]
  rfl

theorem scatterR_window2 (e : Fin 400000) (k' : Fin 3) (j' : Fin 128) : (dR).window (ix3 e k' j') 2 = j'.val := by
  have h : (2 : Fin 3) ∈ (dR).sKept := by rw [scatterR_sKept]; decide
  unfold ScatterDims.window
  rw [dif_pos h]
  rfl

theorem resultIdxR_iff (idx : IVec Cert.ReferenceIdeal.S400000x1 32) (e : Fin 400000) (k' : Fin 3) (j' : Fin 128)
    (n : Fin 25000) (k : Fin 3) (j : Fin 128) :
    Cert.ReferenceIdeal.scatter_S25000x3x128_S400000x1_S400000x3x128_12_0_0_1.resultIdx? (ix3 e k' j') idx = some (ix3 n k j)
      ↔ (idx (ix2 e 0)).toInt = (n.val : Int) ∧ k' = k ∧ j' = j := by
  have s0 := scatterR_start0 idx e k' j'
  have s1 := scatterR_start1 idx (ix3 e k' j')
  have s2 := scatterR_start2 idx (ix3 e k' j')
  have w0 := scatterR_window0 (ix3 e k' j')
  have w1 := scatterR_window1 e k' j'
  have w2 := scatterR_window2 e k' j'
  unfold ScatterDims.resultIdx?
  constructor
  · intro hres
    split at hres
    · next h =>

      have hf := Option.some.inj hres
      have h0 : ((dR).start (ix3 e k' j') idx 0 + ((dR).window (ix3 e k' j') 0 : Nat)).toNat = n.val :=
        congrArg (fun f => (f 0).val) hf
      have h1 : ((dR).start (ix3 e k' j') idx 1 + ((dR).window (ix3 e k' j') 1 : Nat)).toNat = k.val :=
        congrArg (fun f => (f 1).val) hf
      have h2 : ((dR).start (ix3 e k' j') idx 2 + ((dR).window (ix3 e k' j') 2 : Nat)).toNat = j.val :=
        congrArg (fun f => (f 2).val) hf
      have p0 := (h 0).1
      rw [s0, w0] at h0 p0
      rw [s1, w1] at h1
      rw [s2, w2] at h2
      exact ⟨by omega, Fin.ext (by omega), Fin.ext (by omega)⟩
    · exact absurd hres (by simp)
  · rintro ⟨ht, rfl, rfl⟩
    have hn := n.isLt
    have hk := k'.isLt
    have hj := j'.isLt

    have h : ∀ a, 0 ≤ (dR).start (ix3 e k' j') idx a + ((dR).window (ix3 e k' j') a : Nat) ∧
        (dR).start (ix3 e k' j') idx a + ((dR).window (ix3 e k' j') a : Nat) < (Cert.ReferenceIdeal.S25000x3x128.size a : Nat) := by
      refine forall_fin3.mpr ⟨?_, ?_, ?_⟩
      · rw [s0, w0, ht]; show _ ∧ _ < ((25000 : Nat) : Int); omega
      · rw [s1, w1]; show _ ∧ _ < ((3 : Nat) : Int); omega
      · rw [s2, w2]; show _ ∧ _ < ((128 : Nat) : Int); omega
    rw [dif_pos h]
    refine congrArg some (funext fun a => Fin.ext ?_)
    revert a
    refine forall_fin3.mpr ⟨?_, ?_, ?_⟩
    · show ((dR).start (ix3 e k' j') idx 0 + ((dR).window (ix3 e k' j') 0 : Nat)).toNat = n.val
      rw [s0, w0, ht]; omega
    · show ((dR).start (ix3 e k' j') idx 1 + ((dR).window (ix3 e k' j') 1 : Nat)).toNat = k'.val
      rw [s1, w1]; omega
    · show ((dR).start (ix3 e k' j') idx 2 + ((dR).window (ix3 e k' j') 2 : Nat)).toNat = j'.val
      rw [s2, w2]; omega

end Rank3

section Rank2
variable [Cert.KernelIdeal.Facts₀]

local notation "dK" => Cert.KernelIdeal.scatter_S25000x128_S400000x1_S400000x128_1_0_0_1

theorem scatterK_sdto : (dK).scatterDimsToOperandDims = [0] := rfl

theorem scatterK_sKept : (dK).sKept = [1] := by
  show Cert.KernelIdeal.S25000x128.kept [0] = [1]
  decide

theorem scatterK_start0 (idx : IVec Cert.KernelIdeal.S400000x1 32) (e : Fin 400000) (j' : Fin 128) :
    (dK).start (ix2 e j') idx 0 = (idx (ix2 e 0)).toInt := by
  unfold ScatterDims.start
  rw [dif_pos (show (0 : Fin 2) ∈ (dK).scatterDimsToOperandDims from List.mem_singleton.mpr rfl)]
  refine congrArg (fun t => (idx t).toInt) ?_
  funext b; refine Fin.ext ?_
  match b with
  | ⟨0, _⟩ => rfl
  | ⟨1, _⟩ => rfl

theorem scatterK_start1 (idx : IVec Cert.KernelIdeal.S400000x1 32) (u : Cert.KernelIdeal.S400000x128.Idx) :
    (dK).start u idx 1 = 0 := by
  have h : ¬ (1 : Fin 2) ∈ (dK).scatterDimsToOperandDims := by rw [scatterK_sdto]; decide
  unfold ScatterDims.start
  rw [dif_neg h]

theorem scatterK_window0 (u : Cert.KernelIdeal.S400000x128.Idx) : (dK).window u 0 = 0 := by
  have h : ¬ (0 : Fin 2) ∈ (dK).sKept := by rw [scatterK_sKept]; decide
  unfold ScatterDims.window
  rw [dif_neg h]

theorem scatterK_window1 (e : Fin 400000) (j' : Fin 128) : (dK).window (ix2 e j') 1 = j'.val := by
  have h : (1 : Fin 2) ∈ (dK).sKept := by rw [scatterK_sKept]; decide
  unfold ScatterDims.window
  rw [dif_pos h]
  rfl

theorem resultIdxK_iff (idx : IVec Cert.KernelIdeal.S400000x1 32) (e : Fin 400000) (j' : Fin 128) (n : Fin 25000) (j : Fin 128) :
    Cert.KernelIdeal.scatter_S25000x128_S400000x1_S400000x128_1_0_0_1.resultIdx? (ix2 e j') idx = some (ix2 n j)
      ↔ (idx (ix2 e 0)).toInt = (n.val : Int) ∧ j' = j := by
  have s0 := scatterK_start0 idx e j'
  have s1 := scatterK_start1 idx (ix2 e j')
  have w0 := scatterK_window0 (ix2 e j')
  have w1 := scatterK_window1 e j'
  unfold ScatterDims.resultIdx?
  constructor
  · intro hres
    split at hres
    · next h =>

      have hf := Option.some.inj hres
      have h0 : ((dK).start (ix2 e j') idx 0 + ((dK).window (ix2 e j') 0 : Nat)).toNat = n.val :=
        congrArg (fun f => (f 0).val) hf
      have h1 : ((dK).start (ix2 e j') idx 1 + ((dK).window (ix2 e j') 1 : Nat)).toNat = j.val :=
        congrArg (fun f => (f 1).val) hf
      have p0 := (h 0).1
      rw [s0, w0] at h0 p0
      rw [s1, w1] at h1
      exact ⟨by omega, Fin.ext (by omega)⟩
    · exact absurd hres (by simp)
  · rintro ⟨ht, rfl⟩
    have hn := n.isLt
    have hj := j'.isLt

    have h : ∀ a, 0 ≤ (dK).start (ix2 e j') idx a + ((dK).window (ix2 e j') a : Nat) ∧
        (dK).start (ix2 e j') idx a + ((dK).window (ix2 e j') a : Nat) < (Cert.KernelIdeal.S25000x128.size a : Nat) := by
      refine forall_fin2.mpr ⟨?_, ?_⟩
      · rw [s0, w0, ht]; show _ ∧ _ < ((25000 : Nat) : Int); omega
      · rw [s1, w1]; show _ ∧ _ < ((128 : Nat) : Int); omega
    rw [dif_pos h]
    refine congrArg some (funext fun a => Fin.ext ?_)
    revert a
    refine forall_fin2.mpr ⟨?_, ?_⟩
    · show ((dK).start (ix2 e j') idx 0 + ((dK).window (ix2 e j') 0 : Nat)).toNat = n.val
      rw [s0, w0, ht]; omega
    · show ((dK).start (ix2 e j') idx 1 + ((dK).window (ix2 e j') 1 : Nat)).toNat = j'.val
      rw [s1, w1]; omega

end Rank2

section Both
variable [Cert.KernelIdeal.Facts₀] [Cert.ReferenceIdeal.Facts₀]

theorem scatter_sum_eq (idx : IVec Cert.KernelIdeal.S400000x1 32) (u3 : Cert.ReferenceIdeal.S400000x3x128.Idx → EReal)
    (u2 : Cert.KernelIdeal.S400000x128.Idx → EReal) (k : Fin 3)
    (h : ∀ (e : Fin 400000) (j : Fin 128), u3 (ix3 e k j) = u2 (ix2 e j)) (n : Fin 25000) (j : Fin 128) :
    (∑ u ∈ Finset.univ.filter (fun u => Cert.ReferenceIdeal.scatter_S25000x3x128_S400000x1_S400000x3x128_12_0_0_1.resultIdx? u idx = some (ix3 n k j)), u3 u)
      = ∑ v ∈ Finset.univ.filter (fun v => Cert.KernelIdeal.scatter_S25000x128_S400000x1_S400000x128_1_0_0_1.resultIdx? v idx = some (ix2 n j)), u2 v := by
  refine Finset.sum_nbij' (fun u => ix2 (n0 := 400000) (n1 := 128) (u 0) (u 2))
    (fun v => ix3 (n0 := 400000) (n1 := 3) (n2 := 128) (v 0) k (v 1)) ?_ ?_ ?_ ?_ ?_
  · intro u hu
    obtain ⟨e, k', j', rfl⟩ : ∃ e k' j', u = ix3 (n0 := 400000) (n1 := 3) (n2 := 128) e k' j' := ⟨_, _, _, eq_ix3 u⟩
    rw [Finset.mem_filter] at hu ⊢
    obtain ⟨ht, -, hj⟩ := (resultIdxR_iff idx e k' j' n k j).mp hu.2
    exact ⟨Finset.mem_univ _, (resultIdxK_iff idx e j' n j).mpr ⟨ht, hj⟩⟩
  · intro v hv
    obtain ⟨e, j', rfl⟩ : ∃ e j', v = ix2 (n0 := 400000) (n1 := 128) e j' := ⟨_, _, eq_ix2 v⟩
    rw [Finset.mem_filter] at hv ⊢
    obtain ⟨ht, hj⟩ := (resultIdxK_iff idx e j' n j).mp hv.2
    exact ⟨Finset.mem_univ _, (resultIdxR_iff idx e k j' n k j).mpr ⟨ht, rfl, hj⟩⟩
  · intro u hu
    obtain ⟨e, k', j', rfl⟩ : ∃ e k' j', u = ix3 (n0 := 400000) (n1 := 3) (n2 := 128) e k' j' := ⟨_, _, _, eq_ix3 u⟩
    rw [Finset.mem_filter] at hu
    obtain ⟨-, hk, -⟩ := (resultIdxR_iff idx e k' j' n k j).mp hu.2
    subst hk
    rfl
  · intro v _
    exact (eq_ix2 v).symm
  · intro u hu
    obtain ⟨e, k', j', rfl⟩ : ∃ e k' j', u = ix3 (n0 := 400000) (n1 := 3) (n2 := 128) e k' j' := ⟨_, _, _, eq_ix3 u⟩
    rw [Finset.mem_filter] at hu
    obtain ⟨-, hk, -⟩ := (resultIdxR_iff idx e k' j' n k j).mp hu.2
    subst hk
    exact h e j'

theorem scatterAdd_stack_apply (idx : IVec Cert.KernelIdeal.S400000x1 32) (z3 : Cert.ReferenceIdeal.S25000x3x128.Idx → EReal)
    (z2 : Fin 3 → Cert.KernelIdeal.S25000x128.Idx → EReal)
    (u3 : Cert.ReferenceIdeal.S400000x3x128.Idx → EReal) (u2 : Fin 3 → Cert.KernelIdeal.S400000x128.Idx → EReal)
    (hz : ∀ n k j, z3 (ix3 n k j) = z2 k (ix2 n j)) (hu : ∀ e k j, u3 (ix3 e k j) = u2 k (ix2 e j))
    (n : Fin 25000) (k : Fin 3) (j : Fin 128) :
    Ideal.hostScatterAdd Cert.ReferenceIdeal.scatter_S25000x3x128_S400000x1_S400000x3x128_12_0_0_1 z3 idx u3 (ix3 n k j)
      = Ideal.hostScatterAdd Cert.KernelIdeal.scatter_S25000x128_S400000x1_S400000x128_1_0_0_1 (z2 k) idx (u2 k) (ix2 n j) := by
  unfold Ideal.hostScatterAdd
  rw [hz n k j, scatter_sum_eq idx u3 (u2 k) k (fun e j => hu e k j) n j]

end Both

section Stack
variable [Cert.KernelIdeal.Facts₀]

theorem bcast_unit_apply (a : FVec Ideal Cert.KernelIdeal.S25000x128 .f32) (n : Fin 25000) (j : Fin 128) :
    broadcastInDim Cert.KernelIdeal.S25000x1x128 ![0, 2] Cert.KernelIdeal.Facts₀.bcast_S25000x128_S25000x1x128_0_2 a (ix3 n 0 j)
      = a (ix2 n j) := by
  refine broadcastInDim_apply _ _ a (ix3 n 0 j) (ix2 n j) ?_
  refine forall_fin2.mpr ⟨?_, ?_⟩
  · show n.val = if (25000 : Nat) = 1 then 0 else n.val
    rw [if_neg (by decide)]
  · show j.val = if (128 : Nat) = 1 then 0 else j.val
    rw [if_neg (by decide)]

theorem concat3_unit_apply (x0 x1 x2 : Cert.KernelIdeal.S25000x1x128.Idx → EReal)
    (h : Shape.Concatenates [Cert.KernelIdeal.S25000x1x128, Cert.KernelIdeal.S25000x1x128, Cert.KernelIdeal.S25000x1x128]
      Cert.KernelIdeal.S25000x3x128 1) (n : Fin 25000) (k : Fin 3) (j : Fin 128) :
    concatenate Cert.KernelIdeal.S25000x3x128 1
      [⟨Cert.KernelIdeal.S25000x1x128, x0⟩, ⟨Cert.KernelIdeal.S25000x1x128, x1⟩, ⟨Cert.KernelIdeal.S25000x1x128, x2⟩] h (ix3 n k j)
      = (![x0, x1, x2] k) (ix3 n 0 j) := by

  have hi : ∀ k : Fin 3, ∀ b : Fin 3, b.cast (rfl : (3 : Nat) = 3) ≠ (1 : Fin 3) →
      ((ix3 n (0 : Fin 1) j) b).val = ((ix3 n k j) (b.cast (rfl : (3 : Nat) = 3))).val := by
    intro k
    refine forall_fin3.mpr ⟨fun _ => rfl, fun h => absurd rfl h, fun _ => rfl⟩

  match k with
  | ⟨0, hk⟩ =>
    exact concatenate_apply_piece (t := Cert.KernelIdeal.S25000x3x128) (1 : Fin 3)
      [⟨Cert.KernelIdeal.S25000x1x128, x0⟩, ⟨Cert.KernelIdeal.S25000x1x128, x1⟩, ⟨Cert.KernelIdeal.S25000x1x128, x2⟩] h
      (ix3 n ⟨0, hk⟩ j) 0 (show (0 : Nat) < 3 by decide) Cert.KernelIdeal.S25000x1x128 x0 rfl rfl 0 rfl (ix3 n 0 j) (hi _) rfl
  | ⟨1, hk⟩ =>
    exact concatenate_apply_piece (t := Cert.KernelIdeal.S25000x3x128) (1 : Fin 3)
      [⟨Cert.KernelIdeal.S25000x1x128, x0⟩, ⟨Cert.KernelIdeal.S25000x1x128, x1⟩, ⟨Cert.KernelIdeal.S25000x1x128, x2⟩] h
      (ix3 n ⟨1, hk⟩ j) 1 (show (1 : Nat) < 3 by decide) Cert.KernelIdeal.S25000x1x128 x1 rfl rfl 1 rfl (ix3 n 0 j) (hi _) rfl
  | ⟨2, hk⟩ =>
    exact concatenate_apply_piece (t := Cert.KernelIdeal.S25000x3x128) (1 : Fin 3)
      [⟨Cert.KernelIdeal.S25000x1x128, x0⟩, ⟨Cert.KernelIdeal.S25000x1x128, x1⟩, ⟨Cert.KernelIdeal.S25000x1x128, x2⟩] h
      (ix3 n ⟨2, hk⟩ j) 2 (show (2 : Nat) < 3 by decide) Cert.KernelIdeal.S25000x1x128 x2 rfl rfl 2 rfl (ix3 n 0 j) (hi _) rfl

theorem stack3_apply (a0 a1 a2 : FVec Ideal Cert.KernelIdeal.S25000x128 .f32) (n : Fin 25000) (k : Fin 3) (j : Fin 128) :
    concatenate Cert.KernelIdeal.S25000x3x128 1
      [⟨Cert.KernelIdeal.S25000x1x128, broadcastInDim Cert.KernelIdeal.S25000x1x128 ![0, 2] Cert.KernelIdeal.Facts₀.bcast_S25000x128_S25000x1x128_0_2 a0⟩,
       ⟨Cert.KernelIdeal.S25000x1x128, broadcastInDim Cert.KernelIdeal.S25000x1x128 ![0, 2] Cert.KernelIdeal.Facts₀.bcast_S25000x128_S25000x1x128_0_2 a1⟩,
       ⟨Cert.KernelIdeal.S25000x1x128, broadcastInDim Cert.KernelIdeal.S25000x1x128 ![0, 2] Cert.KernelIdeal.Facts₀.bcast_S25000x128_S25000x1x128_0_2 a2⟩]
      Cert.KernelIdeal.Facts₀.concatenates_S25000x1x128_S25000x1x128_S25000x1x128_S25000x3x128_d1 (ix3 n k j)
      = (![a0, a1, a2] k) (ix2 n j) := by
  refine (concat3_unit_apply _ _ _ _ n k j).trans ?_
  match k with
  | ⟨0, _⟩ => exact bcast_unit_apply a0 n j
  | ⟨1, _⟩ => exact bcast_unit_apply a1 n j
  | ⟨2, _⟩ => exact bcast_unit_apply a2 n j

end Stack

end Cert.Bridge
-- ==== Proof.BridgeV.lean ====
import proofs.«138558_j25314537242668_1_alg».proof.Proof.Gen.KernelIdeal
import proofs.«138558_j25314537242668_1_alg».proof.Proof.Gen.ReferenceIdeal
import proofs.«138558_j25314537242668_1_alg».proof.Proof.KI.ThreadOut
import proofs.«138558_j25314537242668_1_alg».proof.Proof.KI.ThreadIn5
import proofs.«138558_j25314537242668_1_alg».proof.Proof.KI.ThreadArgs
import proofs.«138558_j25314537242668_1_alg».proof.Proof.KI.V0
import proofs.«138558_j25314537242668_1_alg».proof.Proof.RefVal
import proofs.«138558_j25314537242668_1_alg».proof.Proof.LibScatterStack
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.ShloMosaic.ValueIdx Idealize.SL.Sem
open Cert.KernelIdeal.Hand

theorem zero2_apply (i : Cert.KernelIdeal.S25000x128.Idx) :
    broadcastInDim Cert.KernelIdeal.S25000x128 ![] Cert.KernelIdeal.Facts₀.bcast_S_S25000x128 (constant (F := Ideal) Cert.KernelIdeal.S_ .f32 0x00000000#32) i = 0 :=
  (broadcastInDim_apply _ _ _ i ix0 (fun a => a.elim0)).trans Ideal.ofBits_zero_f32

theorem stacked_scatter_apply (x1 : FVec Ideal Cert.KernelIdeal.S25000x3x128 .f32) (idx : IVec Cert.KernelIdeal.S400000x1 32)
    (u0 u1 u2 : FVec Ideal Cert.KernelIdeal.S400000x128 .f32) (u3 : Cert.ReferenceIdeal.S400000x3x128.Idx → EReal)
    (hu : ∀ e k j, u3 (ix3 e k j) = (![u0, u1, u2] k) (ix2 e j)) (n : Fin 25000) (k : Fin 3) (j : Fin 128) :
    addf x1 (concatenate Cert.KernelIdeal.S25000x3x128 1
        [⟨Cert.KernelIdeal.S25000x1x128, broadcastInDim Cert.KernelIdeal.S25000x1x128 ![0, 2] Cert.KernelIdeal.Facts₀.bcast_S25000x128_S25000x1x128_0_2
            (Host.scatterAdd Cert.KernelIdeal.scatter_S25000x128_S400000x1_S400000x128_1_0_0_1
              (broadcastInDim Cert.KernelIdeal.S25000x128 ![] Cert.KernelIdeal.Facts₀.bcast_S_S25000x128 (constant Cert.KernelIdeal.S_ .f32 0x00000000#32)) idx u0)⟩,
         ⟨Cert.KernelIdeal.S25000x1x128, broadcastInDim Cert.KernelIdeal.S25000x1x128 ![0, 2] Cert.KernelIdeal.Facts₀.bcast_S25000x128_S25000x1x128_0_2
            (Host.scatterAdd Cert.KernelIdeal.scatter_S25000x128_S400000x1_S400000x128_1_0_0_1
              (broadcastInDim Cert.KernelIdeal.S25000x128 ![] Cert.KernelIdeal.Facts₀.bcast_S_S25000x128 (constant Cert.KernelIdeal.S_ .f32 0x00000000#32)) idx u1)⟩,
         ⟨Cert.KernelIdeal.S25000x1x128, broadcastInDim Cert.KernelIdeal.S25000x1x128 ![0, 2] Cert.KernelIdeal.Facts₀.bcast_S25000x128_S25000x1x128_0_2
            (Host.scatterAdd Cert.KernelIdeal.scatter_S25000x128_S400000x1_S400000x128_1_0_0_1
              (broadcastInDim Cert.KernelIdeal.S25000x128 ![] Cert.KernelIdeal.Facts₀.bcast_S_S25000x128 (constant Cert.KernelIdeal.S_ .f32 0x00000000#32)) idx u2)⟩]
        Cert.KernelIdeal.Facts₀.concatenates_S25000x1x128_S25000x1x128_S25000x1x128_S25000x3x128_d1) (ix3 n k j)
      = x1 (ix3 n k j) + Ideal.hostScatterAdd Cert.ReferenceIdeal.scatter_S25000x3x128_S400000x1_S400000x3x128_12_0_0_1
          (fun _ => (0 : EReal)) idx u3 (ix3 n k j) := by
  rw [addf_apply, stack3_apply,
    scatterAdd_stack_apply idx (fun _ => (0 : EReal))
      (fun _ => broadcastInDim Cert.KernelIdeal.S25000x128 ![] Cert.KernelIdeal.Facts₀.bcast_S_S25000x128 (constant (F := Ideal) Cert.KernelIdeal.S_ .f32 0x00000000#32))
      u3 ![u0, u1, u2] (fun n _ j => (zero2_apply (ix2 n j)).symm) hu n k j]
  match k with
  | ⟨0, _⟩ => rfl
  | ⟨1, _⟩ => rfl
  | ⟨2, _⟩ => rfl

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The kernel's and the reference's argument array `a` on core `c`. -/
abbrev KA (c : Dev Cert.KernelIdeal.nD) (a : Ref Cert.KernelIdeal.sig .tc) := m ((c.tc : Thread Cert.KernelIdeal.nD Cert.KernelIdeal.τ).loc a)
abbrev RA (c : Dev Cert.KernelIdeal.nD) (a : Ref Cert.ReferenceIdeal.sig .tc) := m' ((c.tc : Thread Cert.ReferenceIdeal.nD Cert.ReferenceIdeal.τ).loc a)

abbrev Agree : Prop := ∀ c : Dev Cert.KernelIdeal.nD,
    RA m' c Cert.ReferenceIdeal.main_arg0 = KA m c Cert.KernelIdeal.main_arg0
    ∧ RA m' c Cert.ReferenceIdeal.main_arg1 = KA m c Cert.KernelIdeal.main_arg1
    ∧ RA m' c Cert.ReferenceIdeal.main_arg2 = KA m c Cert.KernelIdeal.main_arg2
    ∧ RA m' c Cert.ReferenceIdeal.main_arg3 = KA m c Cert.KernelIdeal.main_arg3
    ∧ RA m' c Cert.ReferenceIdeal.main_arg4 = KA m c Cert.KernelIdeal.main_arg4
    ∧ RA m' c Cert.ReferenceIdeal.main_arg5 = KA m c Cert.KernelIdeal.main_arg5
    ∧ RA m' c Cert.ReferenceIdeal.main_arg6 = KA m c Cert.KernelIdeal.main_arg6
    ∧ RA m' c Cert.ReferenceIdeal.main_arg7 = KA m c Cert.KernelIdeal.main_arg7
    ∧ RA m' c Cert.ReferenceIdeal.main_arg8 = KA m c Cert.KernelIdeal.main_arg8
    ∧ RA m' c Cert.ReferenceIdeal.main_arg9 = KA m c Cert.KernelIdeal.main_arg9
    ∧ RA m' c Cert.ReferenceIdeal.main_arg10 = KA m c Cert.KernelIdeal.main_arg10
    ∧ RA m' c Cert.ReferenceIdeal.main_arg11 = KA m c Cert.KernelIdeal.main_arg11
    ∧ RA m' c Cert.ReferenceIdeal.main_arg12 = KA m c Cert.KernelIdeal.main_arg12
    ∧ RA m' c Cert.ReferenceIdeal.main_arg13 = KA m c Cert.KernelIdeal.main_arg13
    ∧ RA m' c Cert.ReferenceIdeal.main_arg14 = KA m c Cert.KernelIdeal.main_arg14
    ∧ RA m' c Cert.ReferenceIdeal.main_arg15 = KA m c Cert.KernelIdeal.main_arg15
    ∧ RA m' c Cert.ReferenceIdeal.main_arg16 = KA m c Cert.KernelIdeal.main_arg16
    ∧ RA m' c Cert.ReferenceIdeal.main_arg17 = KA m c Cert.KernelIdeal.main_arg17

theorem W0_eq (c : Dev Cert.KernelIdeal.nD) : V5 m ρ c Cert.KernelIdeal.main_v128
    = fun i => (KA m c Cert.KernelIdeal.main_arg6) (ix2 ⟨(i 0).val, by have := idx2_lt0 i; omega⟩ (i 1)) :=
  funext fun i => (congrArg (V5 m ρ c Cert.KernelIdeal.main_v128) (eq_ix2 i)).trans (in0_W0 m ρ c (i 0) (i 1))

theorem W1_eq (c : Dev Cert.KernelIdeal.nD) : V5 m ρ c Cert.KernelIdeal.main_v129
    = fun i => (KA m c Cert.KernelIdeal.main_arg6) (ix2 ⟨128 + (i 0).val, by have := idx2_lt0 i; omega⟩ (i 1)) :=
  funext fun i => (congrArg (V5 m ρ c Cert.KernelIdeal.main_v129) (eq_ix2 i)).trans (in0_W1 m ρ c (i 0) (i 1))

theorem W2_eq (c : Dev Cert.KernelIdeal.nD) : V5 m ρ c Cert.KernelIdeal.main_v130
    = fun i => (KA m c Cert.KernelIdeal.main_arg6) (ix2 ⟨256 + (i 0).val, by have := idx2_lt0 i; omega⟩ (i 1)) :=
  funext fun i => (congrArg (V5 m ρ c Cert.KernelIdeal.main_v130) (eq_ix2 i)).trans (in0_W2 m ρ c (i 0) (i 1))

theorem msg_eq (c : Dev Cert.KernelIdeal.nD) (e : Fin 400000) (k : Fin 3) (j : Fin 128) :
    Cert.ReferenceIdeal.Read.val_main_v132 (F := Ideal) (KA m c Cert.KernelIdeal.main_arg0) (KA m c Cert.KernelIdeal.main_arg1) (KA m c Cert.KernelIdeal.main_arg3) (KA m c Cert.KernelIdeal.main_arg4) (KA m c Cert.KernelIdeal.main_arg5) (KA m c Cert.KernelIdeal.main_arg6) (KA m c Cert.KernelIdeal.main_arg7) (KA m c Cert.KernelIdeal.main_arg8) (KA m c Cert.KernelIdeal.main_arg9) (ix3 e k j)
      = (![(dat0 (V5 m ρ) c).arrAt 16 Cert.KernelIdeal.cfg0.N, (dat0 (V5 m ρ) c).arrAt 17 Cert.KernelIdeal.cfg0.N, (dat0 (V5 m ρ) c).arrAt 18 Cert.KernelIdeal.cfg0.N] k) (ix2 e j) := by
  refine (ref_msg _ _ _ _ _ _ _ _ _ e k j).trans ?_
  match k with
  | ⟨0, _⟩ =>
    refine Eq.trans ?_ (arr0_16 (V5 m ρ) c e j).symm
    simp only [in0_hcol m ρ c, in0_hrow m ρ c, in0_rbf m ρ c, in0_Wvec m ρ c, in0_uv0 m ρ c, in0_vr0 m ρ c, in0_cut m ρ c,
      in0_bmsg m ρ c, in0_bvec m ρ c, W0_eq m ρ c, W1_eq m ρ c, W2_eq m ρ c]
    rfl
  | ⟨1, _⟩ =>
    refine Eq.trans ?_ (arr0_17 (V5 m ρ) c e j).symm
    simp only [in0_hcol m ρ c, in0_hrow m ρ c, in0_rbf m ρ c, in0_Wvec m ρ c, in0_uv1 m ρ c, in0_vr1 m ρ c, in0_cut m ρ c,
      in0_bmsg m ρ c, in0_bvec m ρ c, W0_eq m ρ c, W1_eq m ρ c, W2_eq m ρ c]
    rfl
  | ⟨2, _⟩ =>
    refine Eq.trans ?_ (arr0_18 (V5 m ρ) c e j).symm
    simp only [in0_hcol m ρ c, in0_hrow m ρ c, in0_rbf m ρ c, in0_Wvec m ρ c, in0_uv2 m ρ c, in0_vr2 m ρ c, in0_cut m ρ c,
      in0_bmsg m ρ c, in0_bvec m ρ c, W0_eq m ρ c, W1_eq m ρ c, W2_eq m ρ c]
    rfl

theorem val_v (hagree : Agree m m') (c : Dev Cert.KernelIdeal.nD) :
    W11 m ρ c (Proc.devRef .tc Cert.KernelIdeal.main_v151) = Cert.ReferenceIdeal.Read.val_main_v136 (F := Ideal) (RA m' c Cert.ReferenceIdeal.main_arg0) (RA m' c Cert.ReferenceIdeal.main_arg1) (RA m' c Cert.ReferenceIdeal.main_arg3) (RA m' c Cert.ReferenceIdeal.main_arg4) (RA m' c Cert.ReferenceIdeal.main_arg5) (RA m' c Cert.ReferenceIdeal.main_arg6) (RA m' c Cert.ReferenceIdeal.main_arg7) (RA m' c Cert.ReferenceIdeal.main_arg8) (RA m' c Cert.ReferenceIdeal.main_arg9) := by
  obtain ⟨a0, a1, a2, a3, a4, a5, a6, a7, a8, a9, a10, a11, a12, a13, a14, a15, a16, a17⟩ := hagree c
  rw [out_v, col1, a0, a1, a3, a4, a5, a6, a7, a8, a9]
  funext i
  obtain ⟨n, k, j, rfl⟩ : ∃ (n : Fin 25000) (k : Fin 3) (j : Fin 128), i = ix3 n k j := ⟨i 0, i 1, i 2, eq_ix3 i⟩
  refine Eq.trans ?_ (ref_v _ _ _ _ _ _ _ _ _ n k j).symm
  exact stacked_scatter_apply _ _ _ _ _ _ (msg_eq m ρ c) n k j

end Cert.Bridge

end
-- ==== Proof.KI.V1.lean ====
import proofs.«138558_j25314537242668_1_alg».proof.Proof.KI.R1
import proofs.«138558_j25314537242668_1_alg».proof.Proof.LibPlainDot
import proofs.«138558_j25314537242668_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem k1_pay1_apply (x1 : Vec Ideal S5000x1 .f32) (p : Fin 5000) (q : Fin 128) :
    k1_pay1 (F := Ideal) x1 (ix2 p q) = x1 (ix2 p 0) := by
  unfold k1_pay1
  simp only [shapeCast_self]
  refine broadcastTo_apply _ _ _ _ (fun a => ?_)
  match a with
  | ⟨0, _⟩ => rfl
  | ⟨1, _⟩ => rfl

theorem bias1_apply (b : FVec Ideal S1x128 .f32) (p : Fin 5000) (q : Fin 128) :
    broadcastTo S5000x128 (shapeCast S1x128 b shapeCasts_S1x128_S1x128) broadcasts_S1x128_S5000x128 (ix2 p q) = b (ix2 0 q) := by
  simp only [shapeCast_self]
  refine broadcastTo_apply _ _ _ _ (fun a => ?_)
  match a with
  | ⟨0, _⟩ => rfl
  | ⟨1, _⟩ => rfl

theorem dot1_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  (Ideal.matmul_constant_zero_apply dot_S5000x128_S128x128_S5000x128_1_0_0_1_n_n none l r (ix2 p q)).trans
    (PlainDot.sum_eq dot_S5000x128_S128x128_S5000x128_1_0_0_1_n_n rfl rfl rfl rfl rfl rfl l r p q)

theorem logistic1_apply (x : FVec Ideal S5000x128 .f32) (i : S5000x128.Idx) : logistic x i = Ideal.logistic (x i) := rfl

theorem k1_pay2_apply (x0 : Vec Ideal S5000x128 .f32) (x1 : Vec Ideal S5000x1 .f32) (wg : Vec Ideal S128x128 .f32)
    (bg : Vec Ideal S1x128 .f32) (wl : Vec Ideal S128x128 .f32) (bl : Vec Ideal S1x128 .f32) (p : Fin 5000) (q : Fin 128) :
    k1_pay2 (F := Ideal) x0 x1 wg bg wl bl (ix2 p q)
      = x0 (ix2 p q) + ((∑ k : Fin 128, x0 (ix2 p k) * wl (ix2 k q)) + bl (ix2 0 q))
          * Ideal.logistic ((∑ k : Fin 128, x1 (ix2 p 0) * wg (ix2 k q)) + bg (ix2 0 q)) := by
  unfold k1_pay2
  simp only [addf_apply, mulf_apply, logistic1_apply, dot1_apply, bias1_apply, truncf_apply, k1_pay1_apply]

variable (V : (c : Dev nD) → (b : Ref sig .tc) → Buf (Elt Ideal) ((c : Thread nD τ).loc b))

theorem hz1 : (![0, 0] : Fin 2 → Nat) = fun _ => 0 := funext fun a => by fin_cases a <;> rfl

theorem iblk1_0_apply (c : Dev nD) (t : Fin cfg1.N) (p : Fin 5000) (k : Fin 128) (r : Fin 25000)
    (hr : r.val = win1_0.index t (0 : Fin 2) * 5000 + p.val) (h1 : win1_0.index t (1 : Fin 2) = 0) :
    iblk1 V c 0 t (ix2 p k) = V c main_arg0 (ix2 r k) := by
  unfold iblk1
  show V c main_arg0 _ = V c main_arg0 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

theorem iblk1_1_apply (c : Dev nD) (t : Fin cfg1.N) (p : Fin 5000) (r : Fin 25000)
    (hr : r.val = win1_1.index t (0 : Fin 2) * 5000 + p.val) (h1 : win1_1.index t (1 : Fin 2) = 0) :
    iblk1 V c 1 t (ix2 p 0) = V c main_v42 (ix2 r 0) := by
  unfold iblk1
  show V c main_v42 _ = V c main_v42 _
  congr 1
  funext a
  apply Fin.ext
  match a with
  | ⟨0, _⟩ => show win1_1.index t (0 : Fin 2) * 5000 + 1 * p.val = r.val; omega
  | ⟨1, _⟩ => show win1_1.index t (1 : Fin 2) * 1 + 1 * 0 = 0; omega

theorem iblk1_2_apply (c : Dev nD) (t : Fin cfg1.N) (k q : Fin 128)
    (h0 : win1_2.index t (0 : Fin 2) = 0) (h1 : win1_2.index t (1 : Fin 2) = 0) :
    iblk1 V c 2 t (ix2 k q) = V c main_arg10 (ix2 k q) := by
  unfold iblk1
  show V c main_arg10 _ = V c main_arg10 _
  congr 1
  funext a
  apply Fin.ext
  match a with
  | ⟨0, _⟩ => show win1_2.index t (0 : Fin 2) * 128 + 1 * k.val = k.val; omega
  | ⟨1, _⟩ => show win1_2.index t (1 : Fin 2) * 128 + 1 * q.val = q.val; omega

theorem iblk1_3_apply (c : Dev nD) (t : Fin cfg1.N) (q : Fin 128)
    (h0 : win1_3.index t (0 : Fin 2) = 0) (h1 : win1_3.index t (1 : Fin 2) = 0) :
    iblk1 V c 3 t (ix2 0 q) = V c main_v152 (ix2 0 q) := by
  unfold iblk1
  show V c main_v152 _ = V c main_v152 _
  congr 1
  funext a
  apply Fin.ext
  match a with
  | ⟨0, _⟩ => show win1_3.index t (0 : Fin 2) * 1 + 1 * 0 = 0; omega
  | ⟨1, _⟩ => show win1_3.index t (1 : Fin 2) * 128 + 1 * q.val = q.val; omega

theorem iblk1_4_apply (c : Dev nD) (t : Fin cfg1.N) (k q : Fin 128)
    (h0 : win1_4.index t (0 : Fin 2) = 0) (h1 : win1_4.index t (1 : Fin 2) = 0) :
    iblk1 V c 4 t (ix2 k q) = V c main_arg14 (ix2 k q) := by
  unfold iblk1
  show V c main_arg14 _ = V c main_arg14 _
  congr 1
  funext a
  apply Fin.ext
  match a with
  | ⟨0, _⟩ => show win1_4.index t (0 : Fin 2) * 128 + 1 * k.val = k.val; omega
  | ⟨1, _⟩ => show win1_4.index t (1 : Fin 2) * 128 + 1 * q.val = q.val; omega

theorem iblk1_5_apply (c : Dev nD) (t : Fin cfg1.N) (q : Fin 128)
    (h0 : win1_5.index t (0 : Fin 2) = 0) (h1 : win1_5.index t (1 : Fin 2) = 0) :
    iblk1 V c 5 t (ix2 0 q) = V c main_v153 (ix2 0 q) := by
  unfold iblk1
  show V c main_v153 _ = V c main_v153 _
  congr 1
  funext a
  apply Fin.ext
  match a with
  | ⟨0, _⟩ => show win1_5.index t (0 : Fin 2) * 1 + 1 * 0 = 0; omega
  | ⟨1, _⟩ => show win1_5.index t (1 : Fin 2) * 128 + 1 * q.val = q.val; omega

theorem read1_6_apply (c : Dev nD) (t : Fin cfg1.N) (G : Buf (Elt Ideal) ((c : Thread nD τ).loc main_v154_0))
    (p : Fin 5000) (q : Fin 128) (r : Fin 25000)
    (hr : r.val = win1_6.index t (0 : Fin 2) * 5000 + p.val) (h1 : win1_6.index t (1 : Fin 2) = 0) :
    ((cfg1.win 6).blk t).view.read (Elt Ideal) G (ix2 p q) = G (ix2 r q) := by
  show G _ = G _
  congr 1
  funext a
  apply Fin.ext
  match a with
  | ⟨0, _⟩ => show win1_6.index t (0 : Fin 2) * 5000 + 1 * p.val = r.val; omega
  | ⟨1, _⟩ => show win1_6.index t (1 : Fin 2) * 128 + 1 * q.val = q.val; omega

theorem read1_7_apply (c : Dev nD) (t : Fin cfg1.N) (G : Buf (Elt Ideal) ((c : Thread nD τ).loc main_v154_1))
    (p : Fin 5000) (q : Fin 128) (r : Fin 25000)
    (hr : r.val = win1_7.index t (0 : Fin 2) * 5000 + p.val) (h1 : win1_7.index t (1 : Fin 2) = 0) :
    ((cfg1.win 7).blk t).view.read (Elt Ideal) G (ix2 p q) = G (ix2 r q) := by
  show G _ = G _
  congr 1
  funext a
  apply Fin.ext
  match a with
  | ⟨0, _⟩ => show win1_7.index t (0 : Fin 2) * 5000 + 1 * p.val = r.val; omega
  | ⟨1, _⟩ => show win1_7.index t (1 : Fin 2) * 128 + 1 * q.val = q.val; omega

theorem idxf1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ (win1_6.index t (0 : Fin 2) + 1) * 5000 ≤ 25000
    ∧ win1_7.index t (0 : Fin 2) = win1_6.index t (0 : Fin 2) ∧ win1_7.index t (1 : Fin 2) = 0 :=
  (by decide +kernel : ∀ t : Fin grid1.N, _)

def G1_6 (c : Dev nD) : Buf (Elt Ideal) ((c : Thread nD τ).loc main_v154_0) := fun i =>
  Cert.Bridge.gated (M := 25000) (V c main_arg0) (fun n => V c main_v42 (ix2 n 0)) (V c main_arg10)
    (fun j => V c main_v152 (ix2 0 j)) (V c main_arg14) (fun j => V c main_v153 (ix2 0 j)) (i 0) (i 1)

def G1_7 (c : Dev nD) : Buf (Elt Ideal) ((c : Thread nD τ).loc main_v154_1) := fun i =>
  V c main_v42 (ix2 (n0 := 25000) (i 0) 0)

theorem G1_6_apply (c : Dev nD) (r : Fin 25000) (q : Fin 128) :
    G1_6 V c (ix2 r q) = Cert.Bridge.gated (M := 25000) (V c main_arg0) (fun n => V c main_v42 (ix2 n 0)) (V c main_arg10)
      (fun j => V c main_v152 (ix2 0 j)) (V c main_arg14) (fun j => V c main_v153 (ix2 0 j)) r q := rfl

theorem G1_7_apply (c : Dev nD) (r : Fin 25000) (q : Fin 128) : G1_7 V c (ix2 r q) = V c main_v42 (ix2 r 0) := rfl

theorem flushed1_6_eq (c : Dev nD) (t : Fin cfg1.N) :
    (dat1 V c).flushed 6 t = ((cfg1.win 6).blk t).view.read (Elt Ideal) (G1_6 V c) := by
  show (cfg1.win 6).cut (grid1.coords t) ((dat1 V c).after 6 t) = _
  rw [after1_6]
  unfold out1_6
  rw [View.canon_unit_zero hz1]
  simp only [View.ld_unit_zero (S := S5000x128) hz1, View.ld_unit_zero (S := S5000x1) hz1,
    View.ld_unit_zero (S := S128x128) hz1, View.ld_unit_zero (S := S1x128) hz1]
  obtain ⟨e0, e0', e1, e1', e2, e2', e3, e3', e4, e4', e5, e5', e6', hb, e7, e7'⟩ := idxf1 t
  funext j
  obtain ⟨p, q, rfl⟩ : ∃ (p : Fin 5000) (q : Fin 128), j = ix2 p q := ⟨j 0, j 1, eq_ix2 j⟩
  have hp : p.val < 5000 := p.isLt
  have hr : win1_6.index t (0 : Fin 2) * 5000 + p.val < 25000 := by omega
  refine (k1_pay2_apply _ _ _ _ _ _ p q).trans ?_
  refine Eq.trans ?_ (read1_6_apply c t (G1_6 V c) p q ⟨_, hr⟩ rfl e6').symm
  rw [G1_6_apply]
  unfold Cert.Bridge.gated
  simp only [iblk1_0_apply V c t p _ ⟨_, hr⟩ (by rw [e0]) e0',
    iblk1_1_apply V c t p ⟨_, hr⟩ (by rw [e1]) e1',
    iblk1_2_apply V c t _ _ e2 e2', iblk1_3_apply V c t _ e3 e3',
    iblk1_4_apply V c t _ _ e4 e4', iblk1_5_apply V c t _ e5 e5']

theorem flushed1_7_eq (c : Dev nD) (t : Fin cfg1.N) :
    (dat1 V c).flushed 7 t = ((cfg1.win 7).blk t).view.read (Elt Ideal) (G1_7 V c) := by
  show (cfg1.win 7).cut (grid1.coords t) ((dat1 V c).after 7 t) = _
  rw [after1_7]
  unfold out1_7
  rw [View.canon_unit_zero hz1]
  simp only [View.ld_unit_zero (S := S5000x1) hz1]
  obtain ⟨e0, e0', e1, e1', e2, e2', e3, e3', e4, e4', e5, e5', e6', hb, e7, e7'⟩ := idxf1 t
  funext j
  obtain ⟨p, q, rfl⟩ : ∃ (p : Fin 5000) (q : Fin 128), j = ix2 p q := ⟨j 0, j 1, eq_ix2 j⟩
  have hp : p.val < 5000 := p.isLt
  have hr : win1_6.index t (0 : Fin 2) * 5000 + p.val < 25000 := by omega
  refine (k1_pay1_apply _ p q).trans ?_
  refine Eq.trans ?_ (read1_7_apply c t (G1_7 V c) p q ⟨_, hr⟩ (by rw [e7]) e7').symm
  rw [G1_7_apply]
  exact iblk1_1_apply V c t p ⟨_, hr⟩ (by rw [e1]) e1'

theorem mem_blk1_6 (t : Fin cfg1.N) (i : S25000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v154_0).slice (win1_6.rect t)).set ↔ _
  rw [View.set_slice_whole, Rect.mem_set_unit]
  exact Iff.rfl

theorem mem_blk1_7 (t : Fin cfg1.N) (i : S25000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v154_1).slice (win1_7.rect t)).set ↔ _
  rw [View.set_slice_whole, Rect.mem_set_unit]
  exact Iff.rfl

theorem idx_onto1 : ∀ b : Fin (25000 / 5000), ∃ t : Fin cfg1.N, win1_6.index t = ![b.val, 0] ∧ win1_7.index t = ![b.val, 0] :=
  (by decide +kernel : ∀ b : Fin (25000 / 5000), ∃ t : Fin grid1.N, win1_6.index t = ![b.val, 0] ∧ win1_7.index t = ![b.val, 0])

theorem cover1_6 (i : S25000x128.Idx) : ∃ t : Fin cfg1.N, (cfg1.win 6).flush t = true ∧ i ∈ ((cfg1.win 6).blk t).view.set := by
  have hi0 : (i 0).val < 25000 := (i 0).isLt
  have hi1 : (i 1).val < 128 := (i 1).isLt
  obtain ⟨t, ht, -⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

theorem cover1_7 (i : S25000x128.Idx) : ∃ t : Fin cfg1.N, (cfg1.win 7).flush t = true ∧ i ∈ ((cfg1.win 7).blk t).view.set := by
  have hi0 : (i 0).val < 25000 := (i 0).isLt
  have hi1 : (i 1).val < 128 := (i 1).isLt
  obtain ⟨t, -, ht⟩ := idx_onto1 ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk1_7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

theorem final1_6 (c : Dev nD) : (dat1 V c).arrAt 6 cfg1.N = G1_6 V c :=
  (dat1 V c).arrAt_eq_of_cover 6 (G1_6 V c) (fun t _ => flushed1_6_eq V c t) cover1_6

theorem final1_7 (c : Dev nD) : (dat1 V c).arrAt 7 cfg1.N = G1_7 V c :=
  (dat1 V c).arrAt_eq_of_cover 7 (G1_7 V c) (fun t _ => flushed1_7_eq V c t) cover1_7

theorem arr1_6 (c : Dev nD) (p : Fin 25000) (q : Fin 128) :
    (dat1 V c).arrAt 6 cfg1.N (ix2 p q)
      = Cert.Bridge.gated (M := 25000) (V c main_arg0) (fun n => V c main_v42 (ix2 n 0)) (V c main_arg10)
          (fun j => V c main_v152 (ix2 0 j)) (V c main_arg14) (fun j => V c main_v153 (ix2 0 j)) p q :=
  (congrFun (final1_6 V c) (ix2 p q)).trans (G1_6_apply V c p q)

theorem arr1_7 (c : Dev nD) (p : Fin 25000) (q : Fin 128) :
    (dat1 V c).arrAt 7 cfg1.N (ix2 p q) = V c main_v42 (ix2 p 0) :=
  (congrFun (final1_7 V c) (ix2 p q)).trans (G1_7_apply V c p q)

end Cert.KernelIdeal.Hand

end
-- ==== Proof.KI.V2.lean ====
/-
  Region 2 of @main (the gated update of the edge features): the value of its two output arrays after the pipeline
  has run, as whole-array functions of the arrays the region finds, index by index.

  The body's first payload, at row p and column q of a block, is
      x(p,q) + (Σ_k x(p,k)·W₁(k,q) + b₁(q)) · σ(Σ_k s(p)·W₂(k,q) + b₂(q)),
  where the two matrix products accumulate into zero (so each is the plain sum over the 128 contracted positions), the
  format changes are the identity on the extended reals, the two bias rows are broadcast down the rows and the scalar
  column s is broadcast along the row. Its second payload is that broadcast column.  The feature block, the scalar
  column's block and both output blocks at a grid point are the same row block of their arrays; the two weights and the
  two bias rows are staged whole.  So each point writes back its row block of ONE function of the arrays, the row
  blocks cover the arrays (row r lies in row block r / 4000), and the arrays end holding those functions.
-/
import proofs.«138558_j25314537242668_1_alg».proof.Proof.KI.R2
import proofs.«138558_j25314537242668_1_alg».proof.Proof.LibPlainDot
import proofs.«138558_j25314537242668_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The payloads read at an index -/

/-- The column broadcast along the row: entry (p, q) is the column's entry at row p. -/
theorem k2_pay1_apply (x1 : Vec Ideal S4000x1 .f32) (p : Fin 4000) (q : Fin 128) :
    k2_pay1 (F := Ideal) x1 (ix2 p q) = x1 (ix2 p 0) := by
  unfold k2_pay1
  simp only [shapeCast_self]
  refine broadcastTo_apply _ _ _ _ (fun a => ?_)
  match a with
  | ⟨0, _⟩ => rfl
  | ⟨1, _⟩ => rfl

/-- A bias row broadcast down the rows: entry (p, q) is the row's entry at column q. -/
theorem bias2_apply (b : FVec Ideal S1x128 .f32) (p : Fin 4000) (q : Fin 128) :
    broadcastTo S4000x128 (shapeCast S1x128 b shapeCasts_S1x128_S1x128) broadcasts_S1x128_S4000x128 (ix2 p q) = b (ix2 0 q) := by
  simp only [shapeCast_self]
  refine broadcastTo_apply _ _ _ _ (fun a => ?_)
  match a with
  | ⟨0, _⟩ => rfl
  | ⟨1, _⟩ => rfl

/-- The matrix product into the zero accumulator, at (p, q): the plain sum over the 128 contracted positions. -/
theorem dot2_apply {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) :=
  (Ideal.matmul_constant_zero_apply dot_S4000x128_S128x128_S4000x128_1_0_0_1_n_n none l r (ix2 p q)).trans
    (PlainDot.sum_eq dot_S4000x128_S128x128_S4000x128_1_0_0_1_n_n rfl rfl rfl rfl rfl rfl l r p q)

/-- The logistic of a vector, lane by lane. -/
theorem logistic2_apply (x : FVec Ideal S4000x128 .f32) (i : S4000x128.Idx) : logistic x i = Ideal.logistic (x i) := rfl

/-- The gated update's block at (p, q): the feature entry plus the linear branch times the logistic of the gate branch,
    each branch a 128-term sum plus its bias; the gate branch's left operand is the column broadcast along the row. -/
theorem k2_pay2_apply (x0 : Vec Ideal S4000x128 .f32) (x1 : Vec Ideal S4000x1 .f32) (wg : Vec Ideal S128x128 .f32)
    (bg : Vec Ideal S1x128 .f32) (wl : Vec Ideal S128x128 .f32) (bl : Vec Ideal S1x128 .f32) (p : Fin 4000) (q : Fin 128) :
    k2_pay2 (F := Ideal) x0 x1 wg bg wl bl (ix2 p q)
      = x0 (ix2 p q) + ((∑ k : Fin 128, x0 (ix2 p k) * wl (ix2 k q)) + bl (ix2 0 q))
          * Ideal.logistic ((∑ k : Fin 128, x1 (ix2 p 0) * wg (ix2 k q)) + bg (ix2 0 q)) := by
  unfold k2_pay2
  simp only [addf_apply, mulf_apply, logistic2_apply, dot2_apply, bias2_apply, truncf_apply, k2_pay1_apply]

/-! ## The blocks read where the windows put them -/

variable (V : (c : Dev nD) → (b : Ref sig .tc) → Buf (Elt Ideal) ((c : Thread nD τ).loc b))

theorem hz2 : (![0, 0] : Fin 2 → Nat) = fun _ => 0 := funext fun a => by fin_cases a <;> rfl

/-- The feature window's block at point t, at (p, k): the feature array at the block's first row plus p. -/
theorem iblk2_0_apply (c : Dev nD) (t : Fin cfg2.N) (p : Fin 4000) (k : Fin 128) (r : Fin 400000)
    (hr : r.val = win2_0.index t (0 : Fin 2) * 4000 + p.val) (h1 : win2_0.index t (1 : Fin 2) = 0) :
    iblk2 V c 0 t (ix2 p k) = V c main_arg2 (ix2 r k) := by
  unfold iblk2
  show V c main_arg2 _ = V c main_arg2 _
  congr 1
  funext a
  apply Fin.ext
  match a with
  | ⟨0, _⟩ => show win2_0.index t (0 : Fin 2) * 4000 + 1 * p.val = r.val; omega
  | ⟨1, _⟩ => show win2_0.index t (1 : Fin 2) * 128 + 1 * k.val = k.val; omega

/-- The scalar column's block at point t, at row p: the column at the block's first row plus p. -/
theorem iblk2_1_apply (c : Dev nD) (t : Fin cfg2.N) (p : Fin 4000) (r : Fin 400000)
    (hr : r.val = win2_1.index t (0 : Fin 2) * 4000 + p.val) (h1 : win2_1.index t (1 : Fin 2) = 0) :
    iblk2 V c 1 t (ix2 p 0) = V c main_v71 (ix2 r 0) := by
  unfold iblk2
  show V c main_v71 _ = V c main_v71 _
  congr 1
  funext a
  apply Fin.ext
  match a with
  | ⟨0, _⟩ => show win2_1.index t (0 : Fin 2) * 4000 + 1 * p.val = r.val; omega
  | ⟨1, _⟩ => show win2_1.index t (1 : Fin 2) * 1 + 1 * 0 = 0; omega

/-- The linear branch's weight is staged whole. -/
theorem iblk2_2_apply (c : Dev nD) (t : Fin cfg2.N) (k q : Fin 128)
    (h0 : win2_2.index t (0 : Fin 2) = 0) (h1 : win2_2.index t (1 : Fin 2) = 0) :
    iblk2 V c 2 t (ix2 k q) = V c main_arg12 (ix2 k q) := by
  unfold iblk2
  show V c main_arg12 _ = V c main_arg12 _
  congr 1
  funext a
  apply Fin.ext
  match a with
  | ⟨0, _⟩ => show win2_2.index t (0 : Fin 2) * 128 + 1 * k.val = k.val; omega
  | ⟨1, _⟩ => show win2_2.index t (1 : Fin 2) * 128 + 1 * q.val = q.val; omega

/-- The linear branch's bias row is staged whole. -/
theorem iblk2_3_apply (c : Dev nD) (t : Fin cfg2.N) (q : Fin 128)
    (h0 : win2_3.index t (0 : Fin 2) = 0) (h1 : win2_3.index t (1 : Fin 2) = 0) :
    iblk2 V c 3 t (ix2 0 q) = V c main_v155 (ix2 0 q) := by
  unfold iblk2
  show V c main_v155 _ = V c main_v155 _
  congr 1
  funext a
  apply Fin.ext
  match a with
  | ⟨0, _⟩ => show win2_3.index t (0 : Fin 2) * 1 + 1 * 0 = 0; omega
  | ⟨1, _⟩ => show win2_3.index t (1 : Fin 2) * 128 + 1 * q.val = q.val; omega

/-- The gate branch's weight is staged whole. -/
theorem iblk2_4_apply (c : Dev nD) (t : Fin cfg2.N) (k q : Fin 128)
    (h0 : win2_4.index t (0 : Fin 2) = 0) (h1 : win2_4.index t (1 : Fin 2) = 0) :
    iblk2 V c 4 t (ix2 k q) = V c main_arg16 (ix2 k q) := by
  unfold iblk2
  show V c main_arg16 _ = V c main_arg16 _
  congr 1
  funext a
  apply Fin.ext
  match a with
  | ⟨0, _⟩ => show win2_4.index t (0 : Fin 2) * 128 + 1 * k.val = k.val; omega
  | ⟨1, _⟩ => show win2_4.index t (1 : Fin 2) * 128 + 1 * q.val = q.val; omega

/-- The gate branch's bias row is staged whole. -/
theorem iblk2_5_apply (c : Dev nD) (t : Fin cfg2.N) (q : Fin 128)
    (h0 : win2_5.index t (0 : Fin 2) = 0) (h1 : win2_5.index t (1 : Fin 2) = 0) :
    iblk2 V c 5 t (ix2 0 q) = V c main_v156 (ix2 0 q) := by
  unfold iblk2
  show V c main_v156 _ = V c main_v156 _
  congr 1
  funext a
  apply Fin.ext
  match a with
  | ⟨0, _⟩ => show win2_5.index t (0 : Fin 2) * 1 + 1 * 0 = 0; omega
  | ⟨1, _⟩ => show win2_5.index t (1 : Fin 2) * 128 + 1 * q.val = q.val; omega

/-- Any contents of the updated-features array read through its window's block at point t, at (p, q): the contents at
    the block's first row plus p. -/
theorem read2_6_apply (c : Dev nD) (t : Fin cfg2.N) (G : Buf (Elt Ideal) ((c : Thread nD τ).loc main_v157_0))
    (p : Fin 4000) (q : Fin 128) (r : Fin 400000)
    (hr : r.val = win2_6.index t (0 : Fin 2) * 4000 + p.val) (h1 : win2_6.index t (1 : Fin 2) = 0) :
    ((cfg2.win 6).blk t).view.read (Elt Ideal) G (ix2 p q) = G (ix2 r q) := by
  show G _ = G _
  congr 1
  funext a
  apply Fin.ext
  match a with
  | ⟨0, _⟩ => show win2_6.index t (0 : Fin 2) * 4000 + 1 * p.val = r.val; omega
  | ⟨1, _⟩ => show win2_6.index t (1 : Fin 2) * 128 + 1 * q.val = q.val; omega

/-- Any contents of the broadcast-column array read through its window's block at point t, likewise. -/
theorem read2_7_apply (c : Dev nD) (t : Fin cfg2.N) (G : Buf (Elt Ideal) ((c : Thread nD τ).loc main_v157_1))
    (p : Fin 4000) (q : Fin 128) (r : Fin 400000)
    (hr : r.val = win2_7.index t (0 : Fin 2) * 4000 + p.val) (h1 : win2_7.index t (1 : Fin 2) = 0) :
    ((cfg2.win 7).blk t).view.read (Elt Ideal) G (ix2 p q) = G (ix2 r q) := by
  show G _ = G _
  congr 1
  funext a
  apply Fin.ext
  match a with
  | ⟨0, _⟩ => show win2_7.index t (0 : Fin 2) * 4000 + 1 * p.val = r.val; omega
  | ⟨1, _⟩ => show win2_7.index t (1 : Fin 2) * 128 + 1 * q.val = q.val; omega

/-- The printed index maps, decided over the grid: the two row-blocked inputs and the second output move with the
    first output's row block, every other block index is zero, and the row block stays inside the array. -/
theorem idxf2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ (win2_6.index t (0 : Fin 2) + 1) * 4000 ≤ 400000
    ∧ win2_7.index t (0 : Fin 2) = win2_6.index t (0 : Fin 2) ∧ win2_7.index t (1 : Fin 2) = 0 :=
  (by decide +kernel : ∀ t : Fin grid2.N, _)

/-! ## What each point writes back -/

/-- The updated features as one function of the arrays the region finds: the gated update, index by index. -/
def G2_6 (c : Dev nD) : Buf (Elt Ideal) ((c : Thread nD τ).loc main_v157_0) := fun i =>
  Cert.Bridge.gated (M := 400000) (V c main_arg2) (fun n => V c main_v71 (ix2 n 0)) (V c main_arg12)
    (fun j => V c main_v155 (ix2 0 j)) (V c main_arg16) (fun j => V c main_v156 (ix2 0 j)) (i 0) (i 1)

/-- The broadcast column as one function of the scalar column: constant along each row. -/
def G2_7 (c : Dev nD) : Buf (Elt Ideal) ((c : Thread nD τ).loc main_v157_1) := fun i =>
  V c main_v71 (ix2 (n0 := 400000) (i 0) 0)

/-- The gated update at row r, column q. -/
theorem G2_6_apply (c : Dev nD) (r : Fin 400000) (q : Fin 128) :
    G2_6 V c (ix2 r q) = Cert.Bridge.gated (M := 400000) (V c main_arg2) (fun n => V c main_v71 (ix2 n 0)) (V c main_arg12)
      (fun j => V c main_v155 (ix2 0 j)) (V c main_arg16) (fun j => V c main_v156 (ix2 0 j)) r q := rfl

/-- The broadcast column at row r, column q. -/
theorem G2_7_apply (c : Dev nD) (r : Fin 400000) (q : Fin 128) : G2_7 V c (ix2 r q) = V c main_v71 (ix2 r 0) := rfl

/-- Point t writes back block t of the gated update. -/
theorem flushed2_6_eq (c : Dev nD) (t : Fin cfg2.N) :
    (dat2 V c).flushed 6 t = ((cfg2.win 6).blk t).view.read (Elt Ideal) (G2_6 V c) := by
  show (cfg2.win 6).cut (grid2.coords t) ((dat2 V c).after 6 t) = _
  rw [after2_6]
  unfold out2_6
  rw [View.canon_unit_zero hz2]
  simp only [View.ld_unit_zero (S := S4000x128) hz2, View.ld_unit_zero (S := S4000x1) hz2,
    View.ld_unit_zero (S := S128x128) hz2, View.ld_unit_zero (S := S1x128) hz2]
  obtain ⟨e0, e0', e1, e1', e2, e2', e3, e3', e4, e4', e5, e5', e6', hb, e7, e7'⟩ := idxf2 t
  funext j
  obtain ⟨p, q, rfl⟩ : ∃ (p : Fin 4000) (q : Fin 128), j = ix2 p q := ⟨j 0, j 1, eq_ix2 j⟩
  have hp : p.val < 4000 := p.isLt
  have hr : win2_6.index t (0 : Fin 2) * 4000 + p.val < 400000 := by omega
  refine (k2_pay2_apply _ _ _ _ _ _ p q).trans ?_
  refine Eq.trans ?_ (read2_6_apply c t (G2_6 V c) p q ⟨_, hr⟩ rfl e6').symm
  rw [G2_6_apply]
  unfold Cert.Bridge.gated
  simp only [iblk2_0_apply V c t p _ ⟨_, hr⟩ (by rw [e0]) e0',
    iblk2_1_apply V c t p ⟨_, hr⟩ (by rw [e1]) e1',
    iblk2_2_apply V c t _ _ e2 e2', iblk2_3_apply V c t _ e3 e3',
    iblk2_4_apply V c t _ _ e4 e4', iblk2_5_apply V c t _ e5 e5']

/-- Point t writes back block t of the broadcast column. -/
theorem flushed2_7_eq (c : Dev nD) (t : Fin cfg2.N) :
    (dat2 V c).flushed 7 t = ((cfg2.win 7).blk t).view.read (Elt Ideal) (G2_7 V c) := by
  show (cfg2.win 7).cut (grid2.coords t) ((dat2 V c).after 7 t) = _
  rw [after2_7]
  unfold out2_7
  rw [View.canon_unit_zero hz2]
  simp only [View.ld_unit_zero (S := S4000x1) hz2]
  obtain ⟨e0, e0', e1, e1', e2, e2', e3, e3', e4, e4', e5, e5', e6', hb, e7, e7'⟩ := idxf2 t
  funext j
  obtain ⟨p, q, rfl⟩ : ∃ (p : Fin 4000) (q : Fin 128), j = ix2 p q := ⟨j 0, j 1, eq_ix2 j⟩
  have hp : p.val < 4000 := p.isLt
  have hr : win2_6.index t (0 : Fin 2) * 4000 + p.val < 400000 := by omega
  refine (k2_pay1_apply _ p q).trans ?_
  refine Eq.trans ?_ (read2_7_apply c t (G2_7 V c) p q ⟨_, hr⟩ (by rw [e7]) e7').symm
  rw [G2_7_apply]
  exact iblk2_1_apply V c t p ⟨_, hr⟩ (by rw [e1]) e1'

/-! ## The blocks cover the arrays -/

/-- An index of the updated-features array is in point t's block iff each coordinate is in the block's range. -/
theorem mem_blk2_6 (t : Fin cfg2.N) (i : S400000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v157_0).slice (win2_6.rect t)).set ↔ _
  rw [View.set_slice_whole, Rect.mem_set_unit]
  exact Iff.rfl

/-- An index of the broadcast-column array is in point t's block iff each coordinate is in the block's range. -/
theorem mem_blk2_7 (t : Fin cfg2.N) (i : S400000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v157_1).slice (win2_7.rect t)).set ↔ _
  rw [View.set_slice_whole, Rect.mem_set_unit]
  exact Iff.rfl

/-- Every row block of the arrays is some point's, for both outputs. -/
theorem idx_onto2 : ∀ b : Fin (400000 / 4000), ∃ t : Fin cfg2.N, win2_6.index t = ![b.val, 0] ∧ win2_7.index t = ![b.val, 0] :=
  (by decide +kernel : ∀ b : Fin (400000 / 4000), ∃ t : Fin grid2.N, win2_6.index t = ![b.val, 0] ∧ win2_7.index t = ![b.val, 0])

/-- Row r of the updated-features array is covered by the point whose row block is r / 4000. -/
theorem cover2_6 (i : S400000x128.Idx) : ∃ t : Fin cfg2.N, (cfg2.win 6).flush t = true ∧ i ∈ ((cfg2.win 6).blk t).view.set := by
  have hi0 : (i 0).val < 400000 := (i 0).isLt
  have hi1 : (i 1).val < 128 := (i 1).isLt
  obtain ⟨t, ht, -⟩ := idx_onto2 ⟨(i 0).val / 4000, by omega⟩
  have q0 : win2_6.index t (0 : Fin 2) = (i 0).val / 4000 := congrFun ht 0
  have q1 : win2_6.index t (1 : Fin 2) = 0 := congrFun ht 1
  refine ⟨t, flush2_6 t, ?_⟩
  rw [mem_blk2_6]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 128 ≤ (i 1).val ∧ (i 1).val < win2_6.index t (1 : Fin 2) * 128 + 128; omega

/-- Row r of the broadcast-column array is covered by the point whose row block is r / 4000. -/
theorem cover2_7 (i : S400000x128.Idx) : ∃ t : Fin cfg2.N, (cfg2.win 7).flush t = true ∧ i ∈ ((cfg2.win 7).blk t).view.set := by
  have hi0 : (i 0).val < 400000 := (i 0).isLt
  have hi1 : (i 1).val < 128 := (i 1).isLt
  obtain ⟨t, -, ht⟩ := idx_onto2 ⟨(i 0).val / 4000, by omega⟩
  have q0 : win2_7.index t (0 : Fin 2) = (i 0).val / 4000 := congrFun ht 0
  have q1 : win2_7.index t (1 : Fin 2) = 0 := congrFun ht 1
  refine ⟨t, flush2_7 t, ?_⟩
  rw [mem_blk2_7]
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 128 ≤ (i 1).val ∧ (i 1).val < win2_7.index t (1 : Fin 2) * 128 + 128; omega

/-! ## The arrays after the run -/

/-- The updated-features array after the run is the gated update of the arrays the region found. -/
theorem final2_6 (c : Dev nD) : (dat2 V c).arrAt 6 cfg2.N = G2_6 V c :=
  (dat2 V c).arrAt_eq_of_cover 6 (G2_6 V c) (fun t _ => flushed2_6_eq V c t) cover2_6

/-- The broadcast-column array after the run is the scalar column along each row. -/
theorem final2_7 (c : Dev nD) : (dat2 V c).arrAt 7 cfg2.N = G2_7 V c :=
  (dat2 V c).arrAt_eq_of_cover 7 (G2_7 V c) (fun t _ => flushed2_7_eq V c t) cover2_7

/-- The updated features after the run, index by index. -/
theorem arr2_6 (c : Dev nD) (p : Fin 400000) (q : Fin 128) :
    (dat2 V c).arrAt 6 cfg2.N (ix2 p q)
      = Cert.Bridge.gated (M := 400000) (V c main_arg2) (fun n => V c main_v71 (ix2 n 0)) (V c main_arg12)
          (fun j => V c main_v155 (ix2 0 j)) (V c main_arg16) (fun j => V c main_v156 (ix2 0 j)) p q :=
  (congrFun (final2_6 V c) (ix2 p q)).trans (G2_6_apply V c p q)

/-- The broadcast column after the run, index by index. -/
theorem arr2_7 (c : Dev nD) (p : Fin 400000) (q : Fin 128) :
    (dat2 V c).arrAt 7 cfg2.N (ix2 p q) = V c main_v71 (ix2 p 0) :=
  (congrFun (final2_7 V c) (ix2 p q)).trans (G2_7_apply V c p q)

end Cert.KernelIdeal.Hand

end
-- ==== Proof.RefRunRead.lean ====
import proofs.«138558_j25314537242668_1_alg».proof.Proof.Gen.ReferenceIdeal.Run
import proofs.«138558_j25314537242668_1_alg».proof.Proof.Gen.ReferenceIdeal.Read

noncomputable section

namespace Cert.ReferenceIdeal.RunRead

open Cert.ReferenceIdeal Cert.ReferenceIdeal.Gen Idealize.ShloMosaic Idealize.ShloMosaic.TcCoe Idealize.SL.Sem Idealize.ShloMosaic.StableHlo

theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v152) = Read.val_main_v152 (F := Ideal) (m ((c.tc : Thread nD τ).loc main_arg0)) (m ((c.tc : Thread nD τ).loc main_arg3)) (m ((c.tc : Thread nD τ).loc main_arg5)) (m ((c.tc : Thread nD τ).loc main_arg10)) (m ((c.tc : Thread nD τ).loc main_arg11)) (m ((c.tc : Thread nD τ).loc main_arg14)) (m ((c.tc : Thread nD τ).loc main_arg15))
      ∧ r.2.mem ((c.tc : Thread nD τ).loc main_v136) = Read.val_main_v136 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v168) = Read.val_main_v168 (F := Ideal) (m ((c.tc : Thread nD τ).loc main_arg2)) (m ((c.tc : Thread nD τ).loc main_arg3)) (m ((c.tc : Thread nD τ).loc main_arg5)) (m ((c.tc : Thread nD τ).loc main_arg12)) (m ((c.tc : Thread nD τ).loc main_arg13)) (m ((c.tc : Thread nD τ).loc main_arg16)) (m ((c.tc : Thread nD τ).loc main_arg17))
      ∧ r.2.mem ((c.tc : Thread nD τ).loc main_v43) = Read.val_main_v43 (F := Ideal) (m ((c.tc : Thread nD τ).loc main_arg3)) (m ((c.tc : Thread nD τ).loc main_arg5))
      ∧ r.2.mem ((c.tc : Thread nD τ).loc main_v73) = Read.val_main_v73 (F := Ideal) (m ((c.tc : Thread nD τ).loc main_arg3)) (m ((c.tc : Thread nD τ).loc main_arg5))
      ∧ r.2.mem ((c.tc : Thread nD τ).loc main_v39) = Read.val_main_v39 (F := Ideal) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
    ⟨(h c).1.trans (Read.val_main_v152_eq m c),
      (h c).2.1.trans (Read.val_main_v136_eq m c),
      (h c).2.2.1.trans (Read.val_main_v168_eq m c),
      (h c).2.2.2.1.trans (Read.val_main_v43_eq m c),
      (h c).2.2.2.2.1.trans (Read.val_main_v73_eq m c),
      (h c).2.2.2.2.2.1.trans (Read.val_main_v39_eq m c),
      (h c).2.2.2.2.2.2⟩)
    (Cert.ReferenceIdeal.Value.run (F := Ideal) m ρ)

end Cert.ReferenceIdeal.RunRead

end
-- ==== Proof.Bridge.lean ====
import proofs.«138558_j25314537242668_1_alg».proof.Defs
import proofs.«138558_j25314537242668_1_alg».proof.Proof.Gen.KernelIdeal
import proofs.«138558_j25314537242668_1_alg».proof.Proof.Gen.ReferenceIdeal
import proofs.«138558_j25314537242668_1_alg».proof.Proof.Gen.Pre_finite_inputs
import proofs.«138558_j25314537242668_1_alg».proof.Proof.BridgeV
import proofs.«138558_j25314537242668_1_alg».proof.Proof.KI.Frame
import proofs.«138558_j25314537242668_1_alg».proof.Proof.KI.V1
import proofs.«138558_j25314537242668_1_alg».proof.Proof.KI.V2
import proofs.«138558_j25314537242668_1_alg».proof.Proof.RefRunRead
import Idealize.ShloMosaic.Lib.ValueIdx

set_option maxRecDepth 16384

noncomputable section

namespace Cert.Bridge

open Idealize.ShloMosaic Idealize.ShloMosaic.TcCoe Idealize.ShloMosaic.ValueIdx Idealize.SL.Sem
open Cert.KernelIdeal.Hand

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

theorem val_h (hagree : Agree m m') (c : Dev Cert.KernelIdeal.nD) :
    W11 m ρ c (Proc.devRef .tc Cert.KernelIdeal.main_v154_0) = Cert.ReferenceIdeal.Read.val_main_v152 (F := Ideal) (RA m' c Cert.ReferenceIdeal.main_arg0) (RA m' c Cert.ReferenceIdeal.main_arg3) (RA m' c Cert.ReferenceIdeal.main_arg5) (RA m' c Cert.ReferenceIdeal.main_arg10) (RA m' c Cert.ReferenceIdeal.main_arg11) (RA m' c Cert.ReferenceIdeal.main_arg14) (RA m' c Cert.ReferenceIdeal.main_arg15) := by
  obtain ⟨a0, a1, a2, a3, a4, a5, a6, a7, a8, a9, a10, a11, a12, a13, a14, a15, a16, a17⟩ := hagree c
  rw [out_h, a0, a3, a5, a10, a11, a14, a15]
  funext i
  obtain ⟨p, q, rfl⟩ : ∃ (p : Fin 25000) (q : Fin 128), i = ix2 p q := ⟨i 0, i 1, eq_ix2 i⟩
  refine (arr1_6 (V8 m ρ) c p q).trans ?_
  refine Eq.trans ?_ (ref_h _ _ _ _ _ _ _ p q).symm
  simp only [in1_x m ρ c, in1_s m ρ c, in1_W1 m ρ c, in1_b1 m ρ c, in1_W2 m ρ c, in1_b2 m ρ c]

theorem val_f (hagree : Agree m m') (c : Dev Cert.KernelIdeal.nD) :
    W11 m ρ c (Proc.devRef .tc Cert.KernelIdeal.main_v157_0) = Cert.ReferenceIdeal.Read.val_main_v168 (F := Ideal) (RA m' c Cert.ReferenceIdeal.main_arg2) (RA m' c Cert.ReferenceIdeal.main_arg3) (RA m' c Cert.ReferenceIdeal.main_arg5) (RA m' c Cert.ReferenceIdeal.main_arg12) (RA m' c Cert.ReferenceIdeal.main_arg13) (RA m' c Cert.ReferenceIdeal.main_arg16) (RA m' c Cert.ReferenceIdeal.main_arg17) := by
  obtain ⟨a0, a1, a2, a3, a4, a5, a6, a7, a8, a9, a10, a11, a12, a13, a14, a15, a16, a17⟩ := hagree c
  rw [out_f, a2, a3, a5, a12, a13, a16, a17]
  funext i
  obtain ⟨p, q, rfl⟩ : ∃ (p : Fin 400000) (q : Fin 128), i = ix2 p q := ⟨i 0, i 1, eq_ix2 i⟩
  refine (arr2_6 (V10 m ρ) c p q).trans ?_
  refine Eq.trans ?_ (ref_f _ _ _ _ _ _ _ p q).symm
  simp only [in2_x m ρ c, in2_s m ρ c, in2_W1 m ρ c, in2_b1 m ρ c, in2_W2 m ρ c, in2_b2 m ρ c]

theorem val_ang (hagree : Agree m m') (c : Dev Cert.KernelIdeal.nD) :
    W11 m ρ c (Proc.devRef .tc Cert.KernelIdeal.main_v154_1) = Cert.ReferenceIdeal.Read.val_main_v43 (F := Ideal) (RA m' c Cert.ReferenceIdeal.main_arg3) (RA m' c Cert.ReferenceIdeal.main_arg5) := by
  obtain ⟨a0, a1, a2, a3, a4, a5, a6, a7, a8, a9, a10, a11, a12, a13, a14, a15, a16, a17⟩ := hagree c
  rw [out_ang, a3, a5]
  funext i
  obtain ⟨p, q, rfl⟩ : ∃ (p : Fin 25000) (q : Fin 128), i = ix2 p q := ⟨i 0, i 1, eq_ix2 i⟩
  refine (arr1_7 (V8 m ρ) c p q).trans ?_
  refine Eq.trans ?_ (ref_ang _ _ p q).symm
  rw [in1_s m ρ c]

theorem val_dih (hagree : Agree m m') (c : Dev Cert.KernelIdeal.nD) :
    W11 m ρ c (Proc.devRef .tc Cert.KernelIdeal.main_v157_1) = Cert.ReferenceIdeal.Read.val_main_v73 (F := Ideal) (RA m' c Cert.ReferenceIdeal.main_arg3) (RA m' c Cert.ReferenceIdeal.main_arg5) := by
  obtain ⟨a0, a1, a2, a3, a4, a5, a6, a7, a8, a9, a10, a11, a12, a13, a14, a15, a16, a17⟩ := hagree c
  rw [out_dih, a3, a5]
  funext i
  obtain ⟨p, q, rfl⟩ : ∃ (p : Fin 400000) (q : Fin 128), i = ix2 p q := ⟨i 0, i 1, eq_ix2 i⟩
  refine (arr2_7 (V10 m ρ) c p q).trans ?_
  refine Eq.trans ?_ (ref_dih _ _ p q).symm
  rw [in2_s m ρ c]

theorem val_dir (hagree : Agree m m') (c : Dev Cert.KernelIdeal.nD) :
    W11 m ρ c (Proc.devRef .tc Cert.KernelIdeal.main_v39) = Cert.ReferenceIdeal.Read.val_main_v39 (F := Ideal) (RA m' c Cert.ReferenceIdeal.main_arg3) (RA m' c Cert.ReferenceIdeal.main_arg5) := by
  obtain ⟨a0, a1, a2, a3, a4, a5, a6, a7, a8, a9, a10, a11, a12, a13, a14, a15, a16, a17⟩ := hagree c
  rw [out_dir, dir3, a3, a5]

set_option maxHeartbeats 4000000 in
theorem algebraic : Cert.algebraic_KernelIdeal_ReferenceIdeal := by
  intro m ρ m' ρ' _ hagree
  have href := Cert.ReferenceIdeal.RunRead.run_read m' ρ'
  refine ⟨_, _, _, _, _, _, ?_, href⟩
  exact (θ_run Cert.KernelIdeal.defs _ _).mono (fun r h c => ⟨
      (h c _ (mem_uc Cert.KernelIdeal.main_v154_0 (by decide))).trans (val_h m ρ m' hagree c),
      (h c _ (mem_uc Cert.KernelIdeal.main_v151 (by decide))).trans (val_v m ρ m' hagree c),
      (h c _ (mem_uc Cert.KernelIdeal.main_v157_0 (by decide))).trans (val_f m ρ m' hagree c),
      (h c _ (mem_uc Cert.KernelIdeal.main_v154_1 (by decide))).trans (val_ang m ρ m' hagree c),
      (h c _ (mem_uc Cert.KernelIdeal.main_v157_1 (by decide))).trans (val_dih m ρ m' hagree c),
      (h c _ (mem_uc Cert.KernelIdeal.main_v39 (by decide))).trans (val_dir m ρ m' hagree c),
      arg_kept m ρ (h c) Cert.KernelIdeal.main_arg0 (by decide) (by decide),
      arg_kept m ρ (h c) Cert.KernelIdeal.main_arg1 (by decide) (by decide),
      arg_kept m ρ (h c) Cert.KernelIdeal.main_arg2 (by decide) (by decide),
      arg_kept m ρ (h c) Cert.KernelIdeal.main_arg3 (by decide) (by decide),
      arg_kept m ρ (h c) Cert.KernelIdeal.main_arg4 (by decide) (by decide),
      arg_kept m ρ (h c) Cert.KernelIdeal.main_arg5 (by decide) (by decide),
      arg_kept m ρ (h c) Cert.KernelIdeal.main_arg6 (by decide) (by decide),
      arg_kept m ρ (h c) Cert.KernelIdeal.main_arg7 (by decide) (by decide),
      arg_kept m ρ (h c) Cert.KernelIdeal.main_arg8 (by decide) (by decide),
      arg_kept m ρ (h c) Cert.KernelIdeal.main_arg9 (by decide) (by decide),
      arg_kept m ρ (h c) Cert.KernelIdeal.main_arg10 (by decide) (by decide),
      arg_kept m ρ (h c) Cert.KernelIdeal.main_arg11 (by decide) (by decide),
      arg_kept m ρ (h c) Cert.KernelIdeal.main_arg12 (by decide) (by decide),
      arg_kept m ρ (h c) Cert.KernelIdeal.main_arg13 (by decide) (by decide),
      arg_kept m ρ (h c) Cert.KernelIdeal.main_arg14 (by decide) (by decide),
      arg_kept m ρ (h c) Cert.KernelIdeal.main_arg15 (by decide) (by decide),
      arg_kept m ρ (h c) Cert.KernelIdeal.main_arg16 (by decide) (by decide),
      arg_kept m ρ (h c) Cert.KernelIdeal.main_arg17 (by decide) (by decide)⟩)
    (run_all (F := Ideal) m ρ)

end Cert.Bridge

end
-- ==== Proof.lean ====
import proofs.«138558_j25314537242668_1_alg».proof.Defs
import proofs.«138558_j25314537242668_1_alg».proof.Proof.Gen.Kernel
import proofs.«138558_j25314537242668_1_alg».proof.Proof.Gen.KernelIdeal
import proofs.«138558_j25314537242668_1_alg».proof.Proof.Gen.ReferenceIdeal
import proofs.«138558_j25314537242668_1_alg».proof.Proof.Gen.Pre_finite_inputs
import proofs.«138558_j25314537242668_1_alg».proof.Proof.Gen.ReferenceIdeal.Run
import proofs.«138558_j25314537242668_1_alg».proof.Proof.K.Frame
import proofs.«138558_j25314537242668_1_alg».proof.Proof.KI.Frame
import proofs.«138558_j25314537242668_1_alg».proof.Proof.Bridge
import Idealize.ShloMosaic.Adequacy
import Idealize.ShloMosaic.Init

noncomputable section

namespace Cert.Proof

open Idealize.ShloMosaic Idealize.SL.Sem

/-- The reference is a straight line of host operations: its frame is its run with the results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- Both kernel programs run to the end with their arguments as launched, the idealization rewrote nothing, and at the
    ideal instance the kernel's six results equal the reference's. -/
theorem claim : Cert.Claim := ⟨Cert.Kernel.Gen.facts, Cert.KernelIdeal.Gen.facts, Cert.ReferenceIdeal.Gen.facts, Cert.Pre_finite_inputs.Gen.facts,
  Cert.Kernel.Hand.frame_run, Cert.KernelIdeal.Hand.frame_run, frame_ri, trivial, Cert.Bridge.algebraic⟩

end Cert.Proof

end
